-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v125)) (v1 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_v126) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_v202) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S4x128 : Shape := ⟨2, ![4, 128]⟩
abbrev S512x256 : Shape := ⟨2, ![512, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg10 : FVec F S512x256 .f32) (main_arg11 : FVec F S256 .f32) (main_arg12 : FVec F S256x10 .f32) (main_arg13 : FVec F S10 .f32) (main_v33 : IVec S_ 1) : IVec S_ 1 :=
  let main_v34 : FVec F S512x256 .f32 := Host.absf main_arg10
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg11
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x10 .f32 := Host.absf main_arg12
  let main_cst_16 : FVec F S_ .f32 := constant S_ .f32 0x7F800000#32
  let main_v45 : FVec F S256x10 .f32 := broadcastInDim S256x10 ![] bcast_S_S256x10 main_cst_16
  let main_v46 : IVec S256x10 1 := cmpf .olt main_v44 main_v45
  let main_c_17 : IVec S_ 1 := constantI S_ 1 1#1
  let main_v47 : IVec S_ 1 := (fun x v => Host.reduce IntOp.andi x v reducesTo_S256x10_S_d0_1 h_S_) main_v46 main_c_17
  let main_v48 : IVec S_ 1 := andi main_v43 main_v47
  let main_v49 : FVec F S10 .f32 := Host.absf main_arg13
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg7 : FVec F S4x128 .f32) (main_arg8 : FVec F S4x128 .f32) (main_arg9 : FVec F S4x128 .f32) (main_arg10 : FVec F S512x256 .f32) (main_arg11 : FVec F S256 .f32) (main_arg12 : FVec F S256x10 .f32) (main_arg13 : FVec F S10 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg7
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg8
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg9
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg10 main_arg11 main_arg12 main_arg13 main_v33

def fn {F : FTy → Type} [FloatOps F] (main_arg0 : FVec F S100000x128 .f32) (main_arg1 : IVec S2x1600000 32) (main_arg2 : IVec S2x1600000 32) (main_arg3 : IVec S100000 32) (main_arg4 : FVec F S4x128x128 .f32) (main_arg5 : FVec F S4x128 .f32) (main_arg6 : FVec F S4x128 .f32) (main_arg7 : FVec F S4x128 .f32) (main_arg8 : FVec F S4x128 .f32) (main_arg9 : FVec F S4x128 .f32) (main_arg10 : FVec F S512x256 .f32) (main_arg11 : FVec F S256 .f32) (main_arg12 : FVec F S256x10 .f32) (main_arg13 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg4
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg5
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128 .f32 := Host.absf main_arg6
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S4x128 : Shape := ⟨2, ![4, 128]⟩
abbrev S512x256 : Shape := ⟨2, ![512, 256]⟩
abbrev S256 : Shape := ⟨1, ![256]⟩
abbrev S256x10 : Shape := ⟨2, ![256, 10]⟩
abbrev S10 : Shape := ⟨1, ![10]⟩
abbrev S1x1600000 : Shape := ⟨2, ![1, 1600000]⟩
abbrev S1600000 : Shape := ⟨1, ![1600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S2000x128 : Shape := ⟨2, ![2000, 128]⟩
abbrev S100000x512 : Shape := ⟨2, ![100000, 512]⟩
abbrev S100000x1 : Shape := ⟨2, ![100000, 1]⟩
abbrev S1x256 : Shape := ⟨2, ![1, 256]⟩
abbrev S1x10 : Shape := ⟨2, ![1, 10]⟩
abbrev S128x10 : Shape := ⟨2, ![128, 10]⟩
abbrev S2000x1 : Shape := ⟨2, ![2000, 1]⟩
abbrev S2000x512 : Shape := ⟨2, ![2000, 512]⟩
abbrev S128x512 : Shape := ⟨2, ![128, 512]⟩
abbrev S128x256 : Shape := ⟨2, ![128, 256]⟩
abbrev S128x1 : Shape := ⟨2, ![128, 1]⟩

abbrev nBuf : Space → Nat
  | .hbm => 167
  | .vmem => 58
  | .smem => 0
  | _ => 0

abbrev hbmTy0_0 (i : Nat) : BufTy := match i % 128 with
  | 0 => ⟨S100000x128, .f32⟩
  | 1 => ⟨S2x1600000, .i32⟩
  | 2 => ⟨S2x1600000, .i32⟩
  | 3 => ⟨S100000, .i32⟩
  | 4 => ⟨S4x128x128, .f32⟩
  | 5 => ⟨S4x128, .f32⟩
  | 6 => ⟨S4x128, .f32⟩
  | 7 => ⟨S4x128, .f32⟩
  | 8 => ⟨S4x128, .f32⟩
  | 9 => ⟨S4x128, .f32⟩
  | 10 => ⟨S512x256, .f32⟩
  | 11 => ⟨S256, .f32⟩
  | 12 => ⟨S256x10, .f32⟩
  | 13 => ⟨S10, .f32⟩
  | 14 => ⟨S1x1600000, .i32⟩
  | 15 => ⟨S1600000, .i32⟩
  | 16 => ⟨S1x1600000, .i32⟩
  | 17 => ⟨S1600000, .i32⟩
  | 18 => ⟨S1x1600000, .i32⟩
  | 19 => ⟨S1600000, .i32⟩
  | 20 => ⟨S1x1600000, .i32⟩
  | 21 => ⟨S1600000, .i32⟩
  | 22 => ⟨S1x128x128, .f32⟩
  | 23 => ⟨S128x128, .f32⟩
  | 24 => ⟨S1x128, .f32⟩
  | 25 => ⟨S128, .f32⟩
  | 26 => ⟨S1x128, .f32⟩
  | 27 => ⟨S128, .f32⟩
  | 28 => ⟨S1x128, .f32⟩
  | 29 => ⟨S128, .f32⟩
  | 30 => ⟨S1x128, .f32⟩
  | 31 => ⟨S128, .f32⟩
  | 32 => ⟨S1x128, .f32⟩
  | 33 => ⟨S128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S_, .f32⟩
  | 44 => ⟨S100000x128, .f32⟩
  | 45 => ⟨S1600000x1, .i32⟩
  | 46 => ⟨S100000x128, .f32⟩
  | 47 => ⟨S1x128, .f32⟩
  | 48 => ⟨S1x128, .f32⟩
  | 49 => ⟨S1x128, .f32⟩
  | 50 => ⟨S1x128, .f32⟩
  | 51 => ⟨S1x128, .f32⟩
  | 52 => ⟨S100000x128, .f32⟩
  | 53 => ⟨S1x128x128, .f32⟩
  | 54 => ⟨S128x128, .f32⟩
  | 55 => ⟨S1x128, .f32⟩
  | 56 => ⟨S128, .f32⟩
  | 57 => ⟨S1x128, .f32⟩
  | 58 => ⟨S128, .f32⟩
  | 59 => ⟨S1x128, .f32⟩
  | 60 => ⟨S128, .f32⟩
  | 61 => ⟨S1x128, .f32⟩
  | 62 => ⟨S128, .f32⟩
  | 63 => ⟨S1x128, .f32⟩
  | 64 => ⟨S128, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S1x128, .f32⟩
  | 79 => ⟨S1x128, .f32⟩
  | 80 => ⟨S1x128, .f32⟩
  | 81 => ⟨S1x128, .f32⟩
  | 82 => ⟨S1x128, .f32⟩
  | 83 => ⟨S100000x128, .f32⟩
  | 84 => ⟨S1x128x128, .f32⟩
  | 85 => ⟨S128x128, .f32⟩
  | 86 => ⟨S1x128, .f32⟩
  | 87 => ⟨S128, .f32⟩
  | 88 => ⟨S1x128, .f32⟩
  | 89 => ⟨S128, .f32⟩
  | 90 => ⟨S1x128, .f32⟩
  | 91 => ⟨S128, .f32⟩
  | 92 => ⟨S1x128, .f32⟩
  | 93 => ⟨S128, .f32⟩
  | 94 => ⟨S1x128, .f32⟩
  | 95 => ⟨S128, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x128, .f32⟩
  | 105 => ⟨S_, .f32⟩
  | 106 => ⟨S100000x128, .f32⟩
  | 107 => ⟨S1600000x1, .i32⟩
  | 108 => ⟨S100000x128, .f32⟩
  | 109 => ⟨S1x128, .f32⟩
  | 110 => ⟨S1x128, .f32⟩
  | 111 => ⟨S1x128, .f32⟩
  | 112 => ⟨S1x128, .f32⟩
  | 113 => ⟨S1x128, .f32⟩
  | 114 => ⟨S100000x128, .f32⟩
  | 115 => ⟨S1x128x128, .f32⟩
  | 116 => ⟨S128x128, .f32⟩
  | 117 => ⟨S1x128, .f32⟩
  | 118 => ⟨S128, .f32⟩
  | 119 => ⟨S1x128, .f32⟩
  | 120 => ⟨S128, .f32⟩
  | 121 => ⟨S1x128, .f32⟩
  | 122 => ⟨S128, .f32⟩
  | 123 => ⟨S1x128, .f32⟩
  | 124 => ⟨S128, .f32⟩
  | 125 => ⟨S1x128, .f32⟩
  | 126 => ⟨S128, .f32⟩
  | 127 => ⟨S_, .i32⟩
  | _ => ⟨S100000x128, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x128, .f32⟩
  | 8 => ⟨S_, .f32⟩
  | 9 => ⟨S100000x128, .f32⟩
  | 10 => ⟨S1600000x1, .i32⟩
  | 11 => ⟨S100000x128, .f32⟩
  | 12 => ⟨S1x128, .f32⟩
  | 13 => ⟨S1x128, .f32⟩
  | 14 => ⟨S1x128, .f32⟩
  | 15 => ⟨S1x128, .f32⟩
  | 16 => ⟨S1x128, .f32⟩
  | 17 => ⟨S100000x128, .f32⟩
  | 18 => ⟨S100000x512, .f32⟩
  | 19 => ⟨S100000x512, .bf16⟩
  | 20 => ⟨S100000x1, .i32⟩
  | 21 => ⟨S1x256, .f32⟩
  | 22 => ⟨S1x10, .f32⟩
  | 23 => ⟨S128x10, .f32⟩
  | 24 => ⟨S_, .f32⟩
  | 25 => ⟨S128, .f32⟩
  | 26 => ⟨S_, .f32⟩
  | 27 => ⟨S128, .f32⟩
  | 28 => ⟨S128, .f32⟩
  | 29 => ⟨S128x1, .f32⟩
  | 30 => ⟨S128x10, .f32⟩
  | 31 => ⟨S128x10, .f32⟩
  | 32 => ⟨S128x10, .f32⟩
  | 33 => ⟨S_, .f32⟩
  | 34 => ⟨S128, .f32⟩
  | 35 => ⟨S128x1, .f32⟩
  | 36 => ⟨S128x1, .f32⟩
  | 37 => ⟨S128x10, .f32⟩
  | 38 => ⟨S128x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S128x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | .local _ .vmem, ⟨48, _⟩ => ⟨S2000x1, .i32⟩
  | .local _ .vmem, ⟨49, _⟩ => ⟨S2000x1, .i32⟩
  | .local _ .vmem, ⟨50, _⟩ => ⟨S2000x512, .bf16⟩
  | .local _ .vmem, ⟨51, _⟩ => ⟨S2000x512, .bf16⟩
  | .local _ .vmem, ⟨52, _⟩ => ⟨S512x256, .f32⟩
  | .local _ .vmem, ⟨53, _⟩ => ⟨S1x256, .f32⟩
  | .local _ .vmem, ⟨54, _⟩ => ⟨S256x10, .f32⟩
  | .local _ .vmem, ⟨55, _⟩ => ⟨S1x10, .f32⟩
  | .local _ .vmem, ⟨56, _⟩ => ⟨S128x10, .f32⟩
  | .local _ .vmem, ⟨57, _⟩ => ⟨S128x512, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_1 : Ref sig .tc := ⟨.hbm, 65, rfl⟩
abbrev main_v48 : Ref sig .tc := ⟨.hbm, 66, rfl⟩
abbrev main_v49 : Ref sig .tc := ⟨.hbm, 67, rfl⟩
abbrev main_c_2 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_3 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_c_4 : Ref sig .tc := ⟨.hbm, 96, rfl⟩
abbrev main_v76 : Ref sig .tc := ⟨.hbm, 97, rfl⟩
abbrev main_v77 : Ref sig .tc := ⟨.hbm, 98, rfl⟩
abbrev main_c_5 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_6 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_c_7 : Ref sig .tc := ⟨.hbm, 127, rfl⟩
abbrev main_v104 : Ref sig .tc := ⟨.hbm, 128, rfl⟩
abbrev main_v105 : Ref sig .tc := ⟨.hbm, 129, rfl⟩
abbrev main_c_8 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_cst_9 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_call0_cst : Ref sig .tc := ⟨.hbm, 152, rfl⟩
abbrev main_call0_v0 : Ref sig .tc := ⟨.hbm, 153, rfl⟩
abbrev main_call0_cst_0 : Ref sig .tc := ⟨.hbm, 154, rfl⟩
abbrev main_call0_v1 : Ref sig .tc := ⟨.hbm, 155, rfl⟩
abbrev main_call0_v2 : Ref sig .tc := ⟨.hbm, 156, rfl⟩
abbrev main_call0_v3 : Ref sig .tc := ⟨.hbm, 157, rfl⟩
abbrev main_call0_v4 : Ref sig .tc := ⟨.hbm, 158, rfl⟩
abbrev main_call0_v5 : Ref sig .tc := ⟨.hbm, 159, rfl⟩
abbrev main_call0_v6 : Ref sig .tc := ⟨.hbm, 160, rfl⟩
abbrev main_call0_cst_1 : Ref sig .tc := ⟨.hbm, 161, rfl⟩
abbrev main_call0_v7 : Ref sig .tc := ⟨.hbm, 162, rfl⟩
abbrev main_call0_v8 : Ref sig .tc := ⟨.hbm, 163, rfl⟩
abbrev main_call0_v9 : Ref sig .tc := ⟨.hbm, 164, rfl⟩
abbrev main_call0_v10 : Ref sig .tc := ⟨.hbm, 165, rfl⟩
abbrev main_v126 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg8_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg3_0 : Ref sig .tc := ⟨.vmem, 53, rfl⟩
abbrev cc4_stg4_0 : Ref sig .tc := ⟨.vmem, 54, rfl⟩
abbrev cc4_stg5_0 : Ref sig .tc := ⟨.vmem, 55, rfl⟩
abbrev cc4_stg6_0 : Ref sig .tc := ⟨.vmem, 56, rfl⟩
abbrev cc4_scratch0 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem8_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem3_0 : DmaSem sig := 53
abbrev cc4_sem4_0 : DmaSem sig := 54
abbrev cc4_sem5_0 : DmaSem sig := 55
abbrev cc4_sem6_0 : DmaSem sig := 56

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v19 : BitVec 1 := Scalar.cmpi .eq arg0 c49_i32
  let v20 : BitVec 32 := Scalar.extui v19
  let c0_i32_8 : BitVec 32 := 0#32
  let v21 : BitVec 1 := Scalar.cmpi .ne v20 c0_i32_8
  v21

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S512x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x10 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  concatenates_S100000x128_S100000x128_S100000x128_S100000x128_S100000x512_d1 : Shape.Concatenates [S100000x128, S100000x128, S100000x128, S100000x128] S100000x512 1
  shapeCasts_S100000_S100000x1 : S100000.ShapeCasts S100000x1
  shapeCasts_S256_S1x256 : S256.ShapeCasts S1x256
  shapeCasts_S10_S1x10 : S10.ShapeCasts S1x10
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x128_d1_w32 : S2000x128.Iotas .tc 32 [1]
  broadcasts_S2000x1_S2000x128 : S2000x1.Broadcasts S2000x128
  natLt_1_32 : 1 < 32
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  inb_S128x10_S128x10_0_0 : ∀ a, (![0, 0] : Fin 2 → Nat) a + S128x10.size a ≤ S128x10.size a
  h_S128x10 : 0 < S128x10.numel
  reducesTo_S128x10_S128_d1 : S128x10.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x10_0_1 : S128x1.BroadcastsInDim S128x10 (![0, 1] : Fin 2 → Fin S128x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S2000x512_S128x512_0_0_1_1_n_n_wf : DotDims.WF S2000x128 S2000x512 S128x512 [0] [0] [1] [1] [] []
  dot_S128x512_S512x256_S128x256_1_0_0_1_n_n_wf : DotDims.WF S128x512 S512x256 S128x256 [1] [0] [0] [1] [] []
  dot_S128x256_S256x10_S128x10_1_0_0_1_n_n_wf : DotDims.WF S128x256 S256x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S100000x128.size a
  hwx0_8 : ∀ i : grid0.Coords, EltTy.bits .f32 = 32 ∨ (Rect.block (s := S100000x128) S2000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S100000x128.size a
  hwx1_8 : ∀ i : grid1.Coords, EltTy.bits .f32 = 32 ∨ (Rect.block (s := S100000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S100000x128.size a
  hwx2_8 : ∀ i : grid2.Coords, EltTy.bits .f32 = 32 ∨ (Rect.block (s := S100000x128) S2000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S100000x128.size a
  hwx3_8 : ∀ i : grid3.Coords, EltTy.bits .f32 = 32 ∨ (Rect.block (s := S100000x128) S2000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x1.size a ≤ S100000x1.size a
  hwx4_0 : ∀ i : grid4.Coords, EltTy.bits .i32 = 32 ∨ (Rect.block (s := S100000x1) S2000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x512.size a ≤ S100000x512.size a
  hwx4_1 : ∀ i : grid4.Coords, EltTy.bits .bf16 = 32 ∨ (Rect.block (s := S100000x512) S2000x512.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x256.size a ≤ S512x256.size a
  hwx4_2 : ∀ i : grid4.Coords, EltTy.bits .f32 = 32 ∨ (Rect.block (s := S512x256) S512x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x10.size a ≤ S256x10.size a
  hwx4_4 : ∀ i : grid4.Coords, EltTy.bits .f32 = 32 ∨ (Rect.block (s := S256x10) S256x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x10.size a ≤ S1x10.size a
  hwx4_5 : ∀ i : grid4.Coords, EltTy.bits .f32 = 32 ∨ (Rect.block (s := S1x10) S1x10.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x10.size a ≤ S128x10.size a
  hwx4_6 : ∀ i : grid4.Coords, EltTy.bits .f32 = 32 ∨ (Rect.block (s := S128x10) S128x10.size (cc4_transform_6 i) (hinb4_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S2000x512_S128x512_0_0_1_1_n_n : DotDims S2000x128 S2000x512 S128x512 where
  lhsContracting := [0]
  rhsContracting := [0]
  lhsNonContracting := [1]
  rhsNonContracting := [1]
  lhsBatch := []
  rhsBatch := []
  wf := dot_S2000x128_S2000x512_S128x512_0_0_1_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S128x256_S256x10_S128x10_1_0_0_1_n_n : DotDims S128x256 S256x10 S128x10 where
  lhsContracting := [1]
  rhsContracting := [0]
  lhsNonContracting := [0]
  rhsNonContracting := [1]
  lhsBatch := []
  rhsBatch := []
  wf := dot_S128x256_S256x10_S128x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v35) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v35) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v61) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v62) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v63) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v85) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v86) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v87) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v88) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v89) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v90) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v91) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v91) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v113) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v93) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v114) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v115) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v116) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v117) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v118) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v119) S2000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v122) S2000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v121) S2000x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S512x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v123) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg12) S256x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v124) S1x10.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v125) S128x10.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S4x128 : Shape := ⟨2, ![4, 128]⟩
abbrev S512x256 : Shape := ⟨2, ![512, 256]⟩
abbrev S256 : Shape := ⟨1, ![256]⟩
abbrev S256x10 : Shape := ⟨2, ![256, 10]⟩
abbrev S10 : Shape := ⟨1, ![10]⟩
abbrev S1x1600000 : Shape := ⟨2, ![1, 1600000]⟩
abbrev S1600000 : Shape := ⟨1, ![1600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S128x512 : Shape := ⟨2, ![128, 512]⟩
abbrev S128x256 : Shape := ⟨2, ![128, 256]⟩
abbrev S1x256 : Shape := ⟨2, ![1, 256]⟩
abbrev S128x10 : Shape := ⟨2, ![128, 10]⟩
abbrev S1x10 : Shape := ⟨2, ![1, 10]⟩
abbrev S128x1 : Shape := ⟨2, ![128, 1]⟩

abbrev nBuf : Space → Nat
  | .hbm => 261
  | .vmem => 0
  | .smem => 0
  | _ => 0

abbrev hbmTy0_0 (i : Nat) : BufTy := match i % 128 with
  | 0 => ⟨S100000x128, .f32⟩
  | 1 => ⟨S2x1600000, .i32⟩
  | 2 => ⟨S2x1600000, .i32⟩
  | 3 => ⟨S100000, .i32⟩
  | 4 => ⟨S4x128x128, .f32⟩
  | 5 => ⟨S4x128, .f32⟩
  | 6 => ⟨S4x128, .f32⟩
  | 7 => ⟨S4x128, .f32⟩
  | 8 => ⟨S4x128, .f32⟩
  | 9 => ⟨S4x128, .f32⟩
  | 10 => ⟨S512x256, .f32⟩
  | 11 => ⟨S256, .f32⟩
  | 12 => ⟨S256x10, .f32⟩
  | 13 => ⟨S10, .f32⟩
  | 14 => ⟨S1x1600000, .i32⟩
  | 15 => ⟨S1600000, .i32⟩
  | 16 => ⟨S1x1600000, .i32⟩
  | 17 => ⟨S1600000, .i32⟩
  | 18 => ⟨S1x1600000, .i32⟩
  | 19 => ⟨S1600000, .i32⟩
  | 20 => ⟨S1x1600000, .i32⟩
  | 21 => ⟨S1600000, .i32⟩
  | 22 => ⟨S1x128x128, .f32⟩
  | 23 => ⟨S128x128, .f32⟩
  | 24 => ⟨S1x128, .f32⟩
  | 25 => ⟨S128, .f32⟩
  | 26 => ⟨S1x128, .f32⟩
  | 27 => ⟨S128, .f32⟩
  | 28 => ⟨S1x128, .f32⟩
  | 29 => ⟨S128, .f32⟩
  | 30 => ⟨S1x128, .f32⟩
  | 31 => ⟨S128, .f32⟩
  | 32 => ⟨S1x128, .f32⟩
  | 33 => ⟨S128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S_, .f32⟩
  | 44 => ⟨S100000x128, .f32⟩
  | 45 => ⟨S1600000x1, .i32⟩
  | 46 => ⟨S100000x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S128, .f32⟩
  | 57 => ⟨S128, .f32⟩
  | 58 => ⟨S128, .f32⟩
  | 59 => ⟨S1x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S1x128x128, .f32⟩
  | 72 => ⟨S128x128, .f32⟩
  | 73 => ⟨S1x128, .f32⟩
  | 74 => ⟨S128, .f32⟩
  | 75 => ⟨S1x128, .f32⟩
  | 76 => ⟨S128, .f32⟩
  | 77 => ⟨S1x128, .f32⟩
  | 78 => ⟨S128, .f32⟩
  | 79 => ⟨S1x128, .f32⟩
  | 80 => ⟨S128, .f32⟩
  | 81 => ⟨S1x128, .f32⟩
  | 82 => ⟨S128, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x128, .f32⟩
  | 92 => ⟨S_, .f32⟩
  | 93 => ⟨S100000x128, .f32⟩
  | 94 => ⟨S1600000x1, .i32⟩
  | 95 => ⟨S100000x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S128, .f32⟩
  | 106 => ⟨S128, .f32⟩
  | 107 => ⟨S128, .f32⟩
  | 108 => ⟨S1x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S1x128x128, .f32⟩
  | 121 => ⟨S128x128, .f32⟩
  | 122 => ⟨S1x128, .f32⟩
  | 123 => ⟨S128, .f32⟩
  | 124 => ⟨S1x128, .f32⟩
  | 125 => ⟨S128, .f32⟩
  | 126 => ⟨S1x128, .f32⟩
  | 127 => ⟨S128, .f32⟩
  | _ => ⟨S100000x128, .f32⟩

abbrev hbmTy0_1 (i : Nat) : BufTy := match i % 128 with
  | 0 => ⟨S1x128, .f32⟩
  | 1 => ⟨S128, .f32⟩
  | 2 => ⟨S1x128, .f32⟩
  | 3 => ⟨S128, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x128, .f32⟩
  | 13 => ⟨S_, .f32⟩
  | 14 => ⟨S100000x128, .f32⟩
  | 15 => ⟨S1600000x1, .i32⟩
  | 16 => ⟨S100000x128, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S1x128, .f32⟩
  | 23 => ⟨S100000x128, .f32⟩
  | 24 => ⟨S100000x128, .f32⟩
  | 25 => ⟨S_, .f32⟩
  | 26 => ⟨S128, .f32⟩
  | 27 => ⟨S128, .f32⟩
  | 28 => ⟨S128, .f32⟩
  | 29 => ⟨S1x128, .f32⟩
  | 30 => ⟨S100000x128, .f32⟩
  | 31 => ⟨S100000x128, .f32⟩
  | 32 => ⟨S1x128, .f32⟩
  | 33 => ⟨S100000x128, .f32⟩
  | 34 => ⟨S100000x128, .f32⟩
  | 35 => ⟨S1x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S1x128x128, .f32⟩
  | 42 => ⟨S128x128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S128, .f32⟩
  | 49 => ⟨S1x128, .f32⟩
  | 50 => ⟨S128, .f32⟩
  | 51 => ⟨S1x128, .f32⟩
  | 52 => ⟨S128, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S128, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S_, .f32⟩
  | 91 => ⟨S128x128, .f32⟩
  | 92 => ⟨S100000x1, .i32⟩
  | 93 => ⟨S128x128, .f32⟩
  | 94 => ⟨S_, .f32⟩
  | 95 => ⟨S128x128, .f32⟩
  | 96 => ⟨S100000x1, .i32⟩
  | 97 => ⟨S128x128, .f32⟩
  | 98 => ⟨S_, .f32⟩
  | 99 => ⟨S128x128, .f32⟩
  | 100 => ⟨S100000x1, .i32⟩
  | 101 => ⟨S128x128, .f32⟩
  | 102 => ⟨S_, .f32⟩
  | 103 => ⟨S128x128, .f32⟩
  | 104 => ⟨S100000x1, .i32⟩
  | 105 => ⟨S128x128, .f32⟩
  | 106 => ⟨S128x512, .f32⟩
  | 107 => ⟨S128x256, .f32⟩
  | 108 => ⟨S1x256, .f32⟩
  | 109 => ⟨S128x256, .f32⟩
  | 110 => ⟨S128x256, .f32⟩
  | 111 => ⟨S_, .f32⟩
  | 112 => ⟨S128x256, .f32⟩
  | 113 => ⟨S128x256, .f32⟩
  | 114 => ⟨S128x10, .f32⟩
  | 115 => ⟨S1x10, .f32⟩
  | 116 => ⟨S128x10, .f32⟩
  | 117 => ⟨S128x10, .f32⟩
  | 118 => ⟨S_, .f32⟩
  | 119 => ⟨S128, .f32⟩
  | 120 => ⟨S_, .f32⟩
  | 121 => ⟨S128, .f32⟩
  | 122 => ⟨S128, .f32⟩
  | 123 => ⟨S128x1, .f32⟩
  | 124 => ⟨S128x10, .f32⟩
  | 125 => ⟨S128x10, .f32⟩
  | 126 => ⟨S128x10, .f32⟩
  | 127 => ⟨S_, .f32⟩
  | _ => ⟨S100000x128, .f32⟩

abbrev hbmTy0_2 (i : Nat) : BufTy := match i % 128 with
  | 0 => ⟨S128, .f32⟩
  | 1 => ⟨S128x1, .f32⟩
  | 2 => ⟨S128x1, .f32⟩
  | 3 => ⟨S128x10, .f32⟩
  | 4 => ⟨S128x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_1 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_cst : Ref sig .tc := ⟨.hbm, 68, rfl⟩
abbrev main_call0_v0 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_2 : Ref sig .tc := ⟨.hbm, 83, rfl⟩
abbrev main_v63 : Ref sig .tc := ⟨.hbm, 84, rfl⟩
abbrev main_v64 : Ref sig .tc := ⟨.hbm, 85, rfl⟩
abbrev main_c_3 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_4 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_5 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_call1_cst : Ref sig .tc := ⟨.hbm, 117, rfl⟩
abbrev main_call1_v0 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_c_6 : Ref sig .tc := ⟨.hbm, 132, rfl⟩
abbrev main_v106 : Ref sig .tc := ⟨.hbm, 133, rfl⟩
abbrev main_v107 : Ref sig .tc := ⟨.hbm, 134, rfl⟩
abbrev main_c_7 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_8 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_cst_9 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_call2_cst : Ref sig .tc := ⟨.hbm, 166, rfl⟩
abbrev main_call2_v0 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_c_10 : Ref sig .tc := ⟨.hbm, 181, rfl⟩
abbrev main_v149 : Ref sig .tc := ⟨.hbm, 182, rfl⟩
abbrev main_v150 : Ref sig .tc := ⟨.hbm, 183, rfl⟩
abbrev main_c_11 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_cst_12 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_cst_13 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_call3_cst : Ref sig .tc := ⟨.hbm, 215, rfl⟩
abbrev main_call3_v0 : Ref sig .tc := ⟨.hbm, 216, rfl⟩
abbrev main_v179 : Ref sig .tc := ⟨.hbm, 217, rfl⟩
abbrev main_cst_14 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_cst_15 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_cst_16 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_cst_17 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_call4_cst : Ref sig .tc := ⟨.hbm, 239, rfl⟩
abbrev main_call4_v0 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_call5_cst : Ref sig .tc := ⟨.hbm, 246, rfl⟩
abbrev main_call5_v0 : Ref sig .tc := ⟨.hbm, 247, rfl⟩
abbrev main_call5_cst_0 : Ref sig .tc := ⟨.hbm, 248, rfl⟩
abbrev main_call5_v1 : Ref sig .tc := ⟨.hbm, 249, rfl⟩
abbrev main_call5_v2 : Ref sig .tc := ⟨.hbm, 250, rfl⟩
abbrev main_call5_v3 : Ref sig .tc := ⟨.hbm, 251, rfl⟩
abbrev main_call5_v4 : Ref sig .tc := ⟨.hbm, 252, rfl⟩
abbrev main_call5_v5 : Ref sig .tc := ⟨.hbm, 253, rfl⟩
abbrev main_call5_v6 : Ref sig .tc := ⟨.hbm, 254, rfl⟩
abbrev main_call5_cst_1 : Ref sig .tc := ⟨.hbm, 255, rfl⟩
abbrev main_call5_v7 : Ref sig .tc := ⟨.hbm, 256, rfl⟩
abbrev main_call5_v8 : Ref sig .tc := ⟨.hbm, 257, rfl⟩
abbrev main_call5_v9 : Ref sig .tc := ⟨.hbm, 258, rfl⟩
abbrev main_call5_v10 : Ref sig .tc := ⟨.hbm, 259, rfl⟩
abbrev main_v202 : Ref sig .tc := ⟨.hbm, 260, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S128x128 : S_.BroadcastsInDim S128x128 (![] : Fin 0 → Fin S128x128.rank)
  bcast_S100000_S100000x1_0 : S100000.BroadcastsInDim S100000x1 (![0] : Fin 1 → Fin S100000x1.rank)
  concatenates_S128x128_S128x128_S128x128_S128x128_S128x512_d1 : Shape.Concatenates [S128x128, S128x128, S128x128, S128x128] S128x512 1
  bcast_S256_S1x256_1 : S256.BroadcastsInDim S1x256 (![1] : Fin 1 → Fin S1x256.rank)
  bcast_S1x256_S128x256_0_1 : S1x256.BroadcastsInDim S128x256 (![0, 1] : Fin 2 → Fin S128x256.rank)
  bcast_S_S128x256 : S_.BroadcastsInDim S128x256 (![] : Fin 0 → Fin S128x256.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S128_S128x1_0 : S128.BroadcastsInDim S128x1 (![0] : Fin 1 → Fin S128x1.rank)
  bcast_S128x1_S128x10_0_1 : S128x1.BroadcastsInDim S128x10 (![0, 1] : Fin 2 → Fin S128x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S128x128_S100000x1_S100000x128_1_0_0_1_wf : ScatterDims.WF S128x128 S100000x1 S100000x128 [1] [0] [0] 1
  dot_S128x512_S512x256_S128x256_1_0_0_1_n_n_wf : DotDims.WF S128x512 S512x256 S128x256 [1] [0] [0] [1] [] []
  dot_S128x256_S256x10_S128x10_1_0_0_1_n_n_wf : DotDims.WF S128x256 S256x10 S128x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S128x256_S256x10_S128x10_1_0_0_1_n_n : DotDims S128x256 S256x10 S128x10 where
  lhsContracting := [1]
  rhsContracting := [0]
  lhsNonContracting := [0]
  rhsNonContracting := [1]
  lhsBatch := []
  rhsBatch := []
  wf := dot_S128x256_S256x10_S128x10_1_0_0_1_n_n_wf

class Facts : Prop extends Facts₀ where

variable [Facts]
-- ==== Proof.K.Conv0.lean ====
import proofs.«403111_j50835232915932_1_alg».proof.Proof.Gen.Kernel.Launch
import proofs.«403111_j50835232915932_1_alg».proof.Proof.Gen.Kernel.Skeleton
import proofs.«403111_j50835232915932_1_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rows0 : Rect S2000x128 := Rect.unit (s := S2000x128) ![0, 0] S2000x128.size inb_S2000x128_S2000x128_0_0
abbrev wts0 : Rect S128x128 := Rect.unit (s := S128x128) ![0, 0] S128x128.size inb_S128x128_S128x128_0_0
abbrev vec0 : Rect S1x128 := Rect.unit (s := S1x128) ![0, 0] S1x128.size inb_S1x128_S1x128_0_0

def out0_8 (x0 x1 : Vec F S2000x128 .f32) (x2 : Vec F S128x128 .f32) (x3 x4 x5 x6 x7 : Vec F S1x128 .f32) : Vec F S2000x128 .f32 :=
  View.canon [⟨rows0, k0_pay1 (View.ld x0 rows0) (View.ld x1 rows0) (View.ld x2 wts0) (View.ld x3 vec0)
    (View.ld x7 vec0) (View.ld x6 vec0) (View.ld x4 vec0) (View.ld x5 vec0)⟩]

theorem cover0_8 (p0 : Vec F S2000x128 .f32) (y : S2000x128.Idx) :
    ∃ pc ∈ ([⟨rows0, p0⟩] : List (View.Piece (Elt F) S2000x128 .f32)), y ∈ pc.1.set :=
  View.cover_of_tiled [⟨rows0, p0⟩] S2000x128.size (by rfl) y

set_option maxHeartbeats 1000000 in

theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2000x128 .f32) (harg9 : arg9.IsWhole)
    (x0 x1 : Vec F S2000x128 .f32) (x2 : Vec F S128x128 .f32) (x3 x4 x5 x6 x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out0_8 x0 x1 x2 x3 x4 x5 x6 x7)) -∗ K ⟨⟩))
      ⊢ wp frame (wpE (defs₀ (F := F)) Variants.none c none) E (cc0__conv_kernel i arg1 harg1 arg2 harg2 arg3 harg3 arg4 harg4 arg5 harg5 arg6 harg6 arg7 harg7 arg8 harg8 arg9 harg9) K := by
  simp only [cc0__conv_kernel_eq_skeleton]; unfold cc0__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t)
        (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t =
    out0_8 (iblk0 V c 0 t) (iblk0 V c 1 t) (iblk0 V c 2 t) (iblk0 V c 3 t) (iblk0 V c 4 t) (iblk0 V c 5 t)
      (iblk0 V c 6 t) (iblk0 V c 7 t) := by dsimp only [dat0]

-- The eight input windows at once: each side condition holds by computation at a literal window.
theorem before0 (c : Dev nD) (t : Fin cfg0.N) : ∀ (w : Fin cfg0.W), w.val < 8 → ∀ d, (dat0 V c).before w t d = (dat0 V c).after w t
  | ⟨0, _⟩, _ | ⟨1, _⟩, _ | ⟨2, _⟩, _ | ⟨3, _⟩, _ | ⟨4, _⟩, _ | ⟨5, _⟩, _ | ⟨6, _⟩, _ | ⟨7, _⟩, _ => fun d =>
    ((dat0 V c).before_in_eq_fetched _ rfl (fun _ => rfl) (fun _ _ _ => rfl) (fun _ => rfl) t d).trans rfl
  | ⟨n + 8, _⟩, h => absurd h (Nat.not_lt.mpr (Nat.le_add_left 8 n))

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  have hb := before0 V c t
  simp only [hb 0 (by decide), hb 1 (by decide), hb 2 (by decide), hb 3 (by decide), hb 4 (by decide), hb 5 (by decide), hb 6 (by decide), hb 7 (by decide)]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.Conv1.lean ====
import proofs.«403111_j50835232915932_1_alg».proof.Proof.Gen.Kernel.Launch
import proofs.«403111_j50835232915932_1_alg».proof.Proof.Gen.Kernel.Skeleton
import proofs.«403111_j50835232915932_1_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rows1 : Rect S2000x128 := Rect.unit (s := S2000x128) ![0, 0] S2000x128.size inb_S2000x128_S2000x128_0_0
abbrev wts1 : Rect S128x128 := Rect.unit (s := S128x128) ![0, 0] S128x128.size inb_S128x128_S128x128_0_0
abbrev vec1 : Rect S1x128 := Rect.unit (s := S1x128) ![0, 0] S1x128.size inb_S1x128_S1x128_0_0

def out1_8 (x0 x1 : Vec F S2000x128 .f32) (x2 : Vec F S128x128 .f32) (x3 x4 x5 x6 x7 : Vec F S1x128 .f32) : Vec F S2000x128 .f32 :=
  View.canon [⟨rows1, k1_pay1 (View.ld x0 rows1) (View.ld x1 rows1) (View.ld x2 wts1) (View.ld x3 vec1)
    (View.ld x7 vec1) (View.ld x6 vec1) (View.ld x4 vec1) (View.ld x5 vec1)⟩]

theorem cover1_8 (p0 : Vec F S2000x128 .f32) (y : S2000x128.Idx) :
    ∃ pc ∈ ([⟨rows1, p0⟩] : List (View.Piece (Elt F) S2000x128 .f32)), y ∈ pc.1.set :=
  View.cover_of_tiled [⟨rows1, p0⟩] S2000x128.size (by rfl) y

set_option maxHeartbeats 1000000 in

theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2000x128 .f32) (harg9 : arg9.IsWhole)
    (x0 x1 : Vec F S2000x128 .f32) (x2 : Vec F S128x128 .f32) (x3 x4 x5 x6 x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out1_8 x0 x1 x2 x3 x4 x5 x6 x7)) -∗ K ⟨⟩))
      ⊢ wp frame (wpE (defs₀ (F := F)) Variants.none c none) E (cc1__conv_kernel i arg1 harg1 arg2 harg2 arg3 harg3 arg4 harg4 arg5 harg5 arg6 harg6 arg7 harg7 arg8 harg8 arg9 harg9) K := by
  simp only [cc1__conv_kernel_eq_skeleton]; unfold cc1__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t)
        (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t =
    out1_8 (iblk1 V c 0 t) (iblk1 V c 1 t) (iblk1 V c 2 t) (iblk1 V c 3 t) (iblk1 V c 4 t) (iblk1 V c 5 t)
      (iblk1 V c 6 t) (iblk1 V c 7 t) := by dsimp only [dat1]

-- The eight input windows at once: each side condition holds by computation at a literal window.
theorem before1 (c : Dev nD) (t : Fin cfg1.N) : ∀ (w : Fin cfg1.W), w.val < 8 → ∀ d, (dat1 V c).before w t d = (dat1 V c).after w t
  | ⟨0, _⟩, _ | ⟨1, _⟩, _ | ⟨2, _⟩, _ | ⟨3, _⟩, _ | ⟨4, _⟩, _ | ⟨5, _⟩, _ | ⟨6, _⟩, _ | ⟨7, _⟩, _ => fun d =>
    ((dat1 V c).before_in_eq_fetched _ rfl (fun _ => rfl) (fun _ _ _ => rfl) (fun _ => rfl) t d).trans rfl
  | ⟨n + 8, _⟩, h => absurd h (Nat.not_lt.mpr (Nat.le_add_left 8 n))

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  have hb := before1 V c t
  simp only [hb 0 (by decide), hb 1 (by decide), hb 2 (by decide), hb 3 (by decide), hb 4 (by decide), hb 5 (by decide), hb 6 (by decide), hb 7 (by decide)]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.K.Conv2.lean ====
import proofs.«403111_j50835232915932_1_alg».proof.Proof.Gen.Kernel.Launch
import proofs.«403111_j50835232915932_1_alg».proof.Proof.Gen.Kernel.Skeleton
import proofs.«403111_j50835232915932_1_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rows2 : Rect S2000x128 := Rect.unit (s := S2000x128) ![0, 0] S2000x128.size inb_S2000x128_S2000x128_0_0
abbrev wts2 : Rect S128x128 := Rect.unit (s := S128x128) ![0, 0] S128x128.size inb_S128x128_S128x128_0_0
abbrev vec2 : Rect S1x128 := Rect.unit (s := S1x128) ![0, 0] S1x128.size inb_S1x128_S1x128_0_0

def out2_8 (x0 x1 : Vec F S2000x128 .f32) (x2 : Vec F S128x128 .f32) (x3 x4 x5 x6 x7 : Vec F S1x128 .f32) : Vec F S2000x128 .f32 :=
  View.canon [⟨rows2, k2_pay1 (View.ld x0 rows2) (View.ld x1 rows2) (View.ld x2 wts2) (View.ld x3 vec2)
    (View.ld x7 vec2) (View.ld x6 vec2) (View.ld x4 vec2) (View.ld x5 vec2)⟩]

theorem cover2_8 (p0 : Vec F S2000x128 .f32) (y : S2000x128.Idx) :
    ∃ pc ∈ ([⟨rows2, p0⟩] : List (View.Piece (Elt F) S2000x128 .f32)), y ∈ pc.1.set :=
  View.cover_of_tiled [⟨rows2, p0⟩] S2000x128.size (by rfl) y

set_option maxHeartbeats 1000000 in

theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2000x128 .f32) (harg9 : arg9.IsWhole)
    (x0 x1 : Vec F S2000x128 .f32) (x2 : Vec F S128x128 .f32) (x3 x4 x5 x6 x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) Variants.none c none) E (cc2__conv_kernel i arg1 harg1 arg2 harg2 arg3 harg3 arg4 harg4 arg5 harg5 arg6 harg6 arg7 harg7 arg8 harg8 arg9 harg9) K := by
  simp only [cc2__conv_kernel_eq_skeleton]; unfold cc2__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t)
        (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t =
    out2_8 (iblk2 V c 0 t) (iblk2 V c 1 t) (iblk2 V c 2 t) (iblk2 V c 3 t) (iblk2 V c 4 t) (iblk2 V c 5 t)
      (iblk2 V c 6 t) (iblk2 V c 7 t) := by dsimp only [dat2]

-- The eight input windows at once: each side condition holds by computation at a literal window.
theorem before2 (c : Dev nD) (t : Fin cfg2.N) : ∀ (w : Fin cfg2.W), w.val < 8 → ∀ d, (dat2 V c).before w t d = (dat2 V c).after w t
  | ⟨0, _⟩, _ | ⟨1, _⟩, _ | ⟨2, _⟩, _ | ⟨3, _⟩, _ | ⟨4, _⟩, _ | ⟨5, _⟩, _ | ⟨6, _⟩, _ | ⟨7, _⟩, _ => fun d =>
    ((dat2 V c).before_in_eq_fetched _ rfl (fun _ => rfl) (fun _ _ _ => rfl) (fun _ => rfl) t d).trans rfl
  | ⟨n + 8, _⟩, h => absurd h (Nat.not_lt.mpr (Nat.le_add_left 8 n))

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  have hb := before2 V c t
  simp only [hb 0 (by decide), hb 1 (by decide), hb 2 (by decide), hb 3 (by decide), hb 4 (by decide), hb 5 (by decide), hb 6 (by decide), hb 7 (by decide)]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.K.Conv3.lean ====
import proofs.«403111_j50835232915932_1_alg».proof.Proof.Gen.Kernel.Launch
import proofs.«403111_j50835232915932_1_alg».proof.Proof.Gen.Kernel.Skeleton
import proofs.«403111_j50835232915932_1_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rows3 : Rect S2000x128 := Rect.unit (s := S2000x128) ![0, 0] S2000x128.size inb_S2000x128_S2000x128_0_0
abbrev wts3 : Rect S128x128 := Rect.unit (s := S128x128) ![0, 0] S128x128.size inb_S128x128_S128x128_0_0
abbrev vec3 : Rect S1x128 := Rect.unit (s := S1x128) ![0, 0] S1x128.size inb_S1x128_S1x128_0_0

def out3_8 (x0 x1 : Vec F S2000x128 .f32) (x2 : Vec F S128x128 .f32) (x3 x4 x5 x6 x7 : Vec F S1x128 .f32) : Vec F S2000x128 .f32 :=
  View.canon [⟨rows3, k3_pay1 (View.ld x0 rows3) (View.ld x1 rows3) (View.ld x2 wts3) (View.ld x3 vec3)
    (View.ld x7 vec3) (View.ld x6 vec3) (View.ld x4 vec3) (View.ld x5 vec3)⟩]

theorem cover3_8 (p0 : Vec F S2000x128 .f32) (y : S2000x128.Idx) :
    ∃ pc ∈ ([⟨rows3, p0⟩] : List (View.Piece (Elt F) S2000x128 .f32)), y ∈ pc.1.set :=
  View.cover_of_tiled [⟨rows3, p0⟩] S2000x128.size (by rfl) y

set_option maxHeartbeats 1000000 in

theorem sound_kernel3 (c : Dev nD) (E : Set ℕ) (i : grid3.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2000x128 .f32) (harg9 : arg9.IsWhole)
    (x0 x1 : Vec F S2000x128 .f32) (x2 : Vec F S128x128 .f32) (x3 x4 x5 x6 x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out3_8 x0 x1 x2 x3 x4 x5 x6 x7)) -∗ K ⟨⟩))
      ⊢ wp frame (wpE (defs₀ (F := F)) Variants.none c none) E (cc3__conv_kernel i arg1 harg1 arg2 harg2 arg3 harg3 arg4 harg4 arg5 harg5 arg6 harg6 arg7 harg7 arg8 harg8 arg9 harg9) K := by
  simp only [cc3__conv_kernel_eq_skeleton]; unfold cc3__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover3_8 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t)
        (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t =
    out3_8 (iblk3 V c 0 t) (iblk3 V c 1 t) (iblk3 V c 2 t) (iblk3 V c 3 t) (iblk3 V c 4 t) (iblk3 V c 5 t)
      (iblk3 V c 6 t) (iblk3 V c 7 t) := by dsimp only [dat3]

-- The eight input windows at once: each side condition holds by computation at a literal window.
theorem before3 (c : Dev nD) (t : Fin cfg3.N) : ∀ (w : Fin cfg3.W), w.val < 8 → ∀ d, (dat3 V c).before w t d = (dat3 V c).after w t
  | ⟨0, _⟩, _ | ⟨1, _⟩, _ | ⟨2, _⟩, _ | ⟨3, _⟩, _ | ⟨4, _⟩, _ | ⟨5, _⟩, _ | ⟨6, _⟩, _ | ⟨7, _⟩, _ => fun d =>
    ((dat3 V c).before_in_eq_fetched _ rfl (fun _ => rfl) (fun _ _ _ => rfl) (fun _ => rfl) t d).trans rfl
  | ⟨n + 8, _⟩, h => absurd h (Nat.not_lt.mpr (Nat.le_add_left 8 n))

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  have hb := before3 V c t
  simp only [hb 0 (by decide), hb 1 (by decide), hb 2 (by decide), hb 3 (by decide), hb 4 (by decide), hb 5 (by decide), hb 6 (by decide), hb 7 (by decide)]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.K.Pool.lean ====
import proofs.«403111_j50835232915932_1_alg».proof.Proof.Gen.Kernel.Launch
import proofs.«403111_j50835232915932_1_alg».proof.Proof.Gen.Kernel.Skeleton
import proofs.«403111_j50835232915932_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev tLast4 : Fin cfg4.N := ⟨49, by decide⟩

def accAt4 (c : Dev nD) : (n : ℕ) → Vec F S128x512 .f32
  | 0 => k4_pay1 (F := F)
  | n + 1 => if h : n < cfg4.N then k4_pay2 (iblk4 V c 0 ⟨n, h⟩) (iblk4 V c 1 ⟨n, h⟩) (accAt4 c n) else accAt4 c n

theorem accAt4_zero (c : Dev nD) : accAt4 V c 0 = k4_pay1 (F := F) := rfl

theorem accAt4_succ (c : Dev nD) (t : Fin cfg4.N) :
    accAt4 V c (t.val + 1) = k4_pay2 (iblk4 V c 0 t) (iblk4 V c 1 t) (accAt4 V c t.val) := by
  obtain ⟨n, h⟩ := t
  show (if h : n < cfg4.N then _ else _) = _
  rw [dif_pos h]

def out4_6 (c : Dev nD) : Vec F S128x10 .f32 :=
  k4_pay3 (accAt4 V c 50) (iblk4 V c 2 tLast4) (iblk4 V c 3 tLast4) (iblk4 V c 4 tLast4) (iblk4 V c 5 tLast4)

abbrev scM4 : Memref sig .tc .vmem S128x512 .f32 := Memref.whole cc4_scratch0

def Phi4 (c : Dev nD) : ℕ → sProp 𝕄
  | 0 => Pipeline.ΦA spec4 c
  | n + 1 => iprop(iprop(owns (c : Thread nD τ) scM4 fullShare (accAt4 V c (n + 1))
        ∗ Pipeline.scopedRestBut (Ix := Unit) (Name := ℕ) (U := UR sig nD τ) (Lvl := ℕ) (Val := Elt F) spec4 c [cc4_scratch0])
      ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 V c
  Φ t := Phi4 V c t.val
  q _ := fullShare
  owed _ := 0

theorem A_eq4 (c : Dev nD) (w : Fin cfg4.W) : (dat4 V c).A w = V c (Pipeline.arrRef spec4 w) := by
  dsimp only [dat4]

theorem Phi_eq4 (c : Dev nD) (t : Fin (cfg4.N + 1)) : (dat4 V c).Φ t = Phi4 V c t.val := by dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 V c := by dsimp only [dat4]

theorem flushed4_6 (c : Dev nD) : (dat4 V c).after 6 tLast4 = out4_6 V c := after4_6 V c tLast4

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val % 50 = 0 :=
  (by decide +kernel : ∀ t : Fin grid4.N, cond4_0 (grid4.coords t) ↔ t.val % 50 = 0)

abbrev cond4_1 (i : grid4.Coords) : Prop := k4_cond2 i = 1#1

theorem hcond4_1 : ∀ t : Fin cfg4.N, cond4_1 (grid4.coords t) ↔ t.val % 50 = 49 :=
  (by decide +kernel : ∀ t : Fin grid4.N, cond4_1 (grid4.coords t) ↔ t.val % 50 = 49)

theorem idleAt4_6 : ∀ t : Fin cfg4.N, ¬cond4_1 (grid4.coords t) → cfg4.idle 6 (grid4.coords t) = true := by decide +kernel

theorem noFlush4_6 : ∀ t : Fin cfg4.N, ¬cond4_1 (grid4.coords t) → (cfg4.win 6).flush t = false := by decide +kernel

theorem liveAt4_6 : ∀ t : Fin cfg4.N, cond4_1 (grid4.coords t) → cfg4.idle 6 (grid4.coords t) = false := by decide +kernel

theorem zeros2 : (![0, 0] : Fin 2 → ℕ) = fun _ => 0 := by funext a; fin_cases a <;> rfl

set_option maxHeartbeats 1000000 in

theorem run_first4 (c : Dev nD) (i : grid4.Coords) (arg1 : Memref sig .tc .vmem S2000x1 .i32) (harg1 : arg1.IsWhole) (arg2 : Memref sig .tc .vmem S2000x512 .bf16) (harg2 : arg2.IsWhole) (arg3 : Memref sig .tc .vmem S512x256 .f32) (harg3 : arg3.IsWhole) (arg4 : Memref sig .tc .vmem S1x256 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S128x10 .f32) (harg7 : arg7.IsWhole) (arg8 : Memref sig .tc .vmem S128x512 .f32) (harg8 : arg8.IsWhole)
    (hc0 : cond4_0 i) (hc1 : ¬cond4_1 i) (x0 : Vec F S2000x1 .i32) (x1 : Vec F S2000x512 .bf16) (x2 : Vec F S512x256 .f32) (x3 : Vec F S1x256 .f32) (x4 : Vec F S256x10 .f32) (x5 : Vec F S1x10 .f32)
    (xi6 : Vec F S128x10 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xi6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare xi6 ∗ owns (c : Thread nD τ) arg8 fullShare (k4_pay2 x0 x1 (k4_pay1 (F := F)))) -∗ K ⟨⟩))
      ⊢ wp frame (wpE (defs₀ (F := F)) Variants.none c none) E (cc4__pool_mlp_kernel i arg1 harg1 arg2 harg2 arg3 harg3 arg4 harg4 arg5 harg5 arg6 harg6 arg7 harg7 arg8 harg8) K := by
  simp only [cc4__pool_mlp_kernel_eq_skeleton]; unfold cc4__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr
  swap; · iexact HS0
  ipureintro
  try sl_unfold_words
  rw [View.read_writes_eq_canon _ _ _ (fun y => ⟨_, List.mem_cons_self, View.mem_set_unit_zero zeros2 inb_S128x512_S128x512_0_0 y⟩),
    View.canon_cons_unit_zero (S := S128x512) zeros2]
  simp only [View.readAt_eq_ld, harg1.read_unread, harg2.read_unread, View.ld_unit_zero (S := S2000x1) zeros2,
    View.ld_unit_zero (S := S2000x512) zeros2, View.readCov_unit_zero (S := S128x512) _ zeros2]

set_option maxHeartbeats 1000000 in

theorem run_mid4 (c : Dev nD) (i : grid4.Coords) (arg1 : Memref sig .tc .vmem S2000x1 .i32) (harg1 : arg1.IsWhole) (arg2 : Memref sig .tc .vmem S2000x512 .bf16) (harg2 : arg2.IsWhole) (arg3 : Memref sig .tc .vmem S512x256 .f32) (harg3 : arg3.IsWhole) (arg4 : Memref sig .tc .vmem S1x256 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S128x10 .f32) (harg7 : arg7.IsWhole) (arg8 : Memref sig .tc .vmem S128x512 .f32) (harg8 : arg8.IsWhole)
    (hc0 : ¬cond4_0 i) (hc1 : ¬cond4_1 i) (x0 : Vec F S2000x1 .i32) (x1 : Vec F S2000x512 .bf16) (x2 : Vec F S512x256 .f32) (x3 : Vec F S1x256 .f32) (x4 : Vec F S256x10 .f32) (x5 : Vec F S1x10 .f32)
    (xs : Vec F S128x512 .f32) (xi6 : Vec F S128x10 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xi6 ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare xi6 ∗ owns (c : Thread nD τ) arg8 fullShare (k4_pay2 x0 x1 xs)) -∗ K ⟨⟩))
      ⊢ wp frame (wpE (defs₀ (F := F)) Variants.none c none) E (cc4__pool_mlp_kernel i arg1 harg1 arg2 harg2 arg3 harg3 arg4 harg4 arg5 harg5 arg6 harg6 arg7 harg7 arg8 harg8) K := by
  simp only [cc4__pool_mlp_kernel_eq_skeleton]; unfold cc4__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr
  swap; · iexact HS0
  ipureintro
  try sl_unfold_words
  rw [View.read_writes_eq_canon _ _ _ (fun y => ⟨_, List.mem_cons_self, View.mem_set_unit_zero zeros2 inb_S128x512_S128x512_0_0 y⟩),
    View.canon_cons_unit_zero (S := S128x512) zeros2]
  simp only [View.readAt_eq_ld, harg1.read_unread, harg2.read_unread, harg8.read_unread, View.ld_unit_zero (S := S2000x1) zeros2,
    View.ld_unit_zero (S := S2000x512) zeros2, View.ld_unit_zero (S := S128x512) zeros2]

set_option maxHeartbeats 1000000 in

theorem run_last4 (c : Dev nD) (i : grid4.Coords) (arg1 : Memref sig .tc .vmem S2000x1 .i32) (harg1 : arg1.IsWhole) (arg2 : Memref sig .tc .vmem S2000x512 .bf16) (harg2 : arg2.IsWhole) (arg3 : Memref sig .tc .vmem S512x256 .f32) (harg3 : arg3.IsWhole) (arg4 : Memref sig .tc .vmem S1x256 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S128x10 .f32) (harg7 : arg7.IsWhole) (arg8 : Memref sig .tc .vmem S128x512 .f32) (harg8 : arg8.IsWhole)
    (hc0 : ¬cond4_0 i) (hc1 : cond4_1 i) (x0 : Vec F S2000x1 .i32) (x1 : Vec F S2000x512 .bf16) (x2 : Vec F S512x256 .f32) (x3 : Vec F S1x256 .f32) (x4 : Vec F S256x10 .f32) (x5 : Vec F S1x10 .f32)
    (xs : Vec F S128x512 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k4_pay3 (k4_pay2 x0 x1 xs) x2 x3 x4 x5) ∗ owns (c : Thread nD τ) arg8 fullShare (k4_pay2 x0 x1 xs)) -∗ K ⟨⟩))
      ⊢ wp frame (wpE (defs₀ (F := F)) Variants.none c none) E (cc4__pool_mlp_kernel i arg1 harg1 arg2 harg2 arg3 harg3 arg4 harg4 arg5 harg5 arg6 harg6 arg7 harg7 arg8 harg8) K := by
  simp only [cc4__pool_mlp_kernel_eq_skeleton]; unfold cc4__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    try sl_unfold_words
    rw [View.read_writes_eq_canon _ _ _ (fun y => ⟨_, List.mem_cons_self, View.mem_set_unit_zero zeros2 inb_S128x10_S128x10_0_0 y⟩),
      View.canon_cons_unit_zero (S := S128x10) zeros2]
    simp only [View.readAt_eq_ld, harg1.read_unread, harg2.read_unread, harg3.read_unread, harg4.read_unread, harg5.read_unread,
      harg6.read_unread, harg8.read_unread, View.ld_unit_zero (S := S2000x1) zeros2,
      View.ld_unit_zero (S := S2000x512) zeros2, View.ld_unit_zero (S := S128x512) zeros2, View.ld_unit_zero (S := S512x256) zeros2,
      View.ld_unit_zero (S := S1x256) zeros2, View.ld_unit_zero (S := S256x10) zeros2, View.ld_unit_zero (S := S1x10) zeros2,
      View.readCov_unit_zero (S := S128x512) _ zeros2]
  iexists _; isplitr
  swap; · iexact HS0
  ipureintro
  try sl_unfold_words
  rw [View.read_writes_eq_canon _ _ _ (fun y => ⟨_, List.mem_cons_self, View.mem_set_unit_zero zeros2 inb_S128x512_S128x512_0_0 y⟩),
    View.canon_cons_unit_zero (S := S128x512) zeros2]
  simp only [View.readAt_eq_ld, harg1.read_unread, harg2.read_unread, harg8.read_unread, View.ld_unit_zero (S := S2000x1) zeros2,
    View.ld_unit_zero (S := S2000x512) zeros2, View.ld_unit_zero (S := S128x512) zeros2]

theorem Phi4_zero (c : Dev nD) (n : ℕ) (hz : n = 0) : Phi4 V c n = Pipeline.ΦA spec4 c := by
  subst hz; rfl

theorem Phi4_succ (c : Dev nD) (n : ℕ) :
    Phi4 V c (n + 1) = iprop(iprop(owns (c : Thread nD τ) scM4 fullShare (accAt4 V c (n + 1)) ∗ Pipeline.scopedRestBut (Ix := Unit) (Name := ℕ) (U := UR sig nD τ) (Lvl := ℕ) (Val := Elt F) spec4 c [cc4_scratch0]) ∗ (∃ r, prngReg c r)) := rfl

theorem Phi4_pos (c : Dev nD) (n : ℕ) (hz : n ≠ 0) :
    Phi4 V c n = iprop(iprop(owns (c : Thread nD τ) scM4 fullShare (accAt4 V c n) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

theorem PhiA4_eq (c : Dev nD) :
    (Pipeline.ΦA spec4 c : sProp 𝕄)
      = iprop(iprop((∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

theorem out4_6_eq (c : Dev nD) :
    out4_6 V c = k4_pay3 (k4_pay2 (iblk4 V c 0 tLast4) (iblk4 V c 1 tLast4) (accAt4 V c tLast4.val))
      (iblk4 V c 2 tLast4) (iblk4 V c 3 tLast4) (iblk4 V c 4 tLast4) (iblk4 V c 5 tLast4) := by
  unfold out4_6
  show k4_pay3 (accAt4 V c (tLast4.val + 1)) _ _ _ _ = _
  rw [accAt4_succ]

-- The six input windows at once, as in the convolution regions.
theorem before4 (c : Dev nD) (t : Fin cfg4.N) : ∀ (w : Fin cfg4.W), w.val < 6 → ∀ d, (dat4 V c).before w t d = (dat4 V c).after w t
  | ⟨0, _⟩, _ | ⟨1, _⟩, _ | ⟨2, _⟩, _ | ⟨3, _⟩, _ | ⟨4, _⟩, _ | ⟨5, _⟩, _ => fun d =>
    ((dat4 V c).before_in_eq_fetched _ rfl (fun _ => rfl) (fun _ _ _ => rfl) (fun _ => rfl) t d).trans rfl
  | ⟨n + 6, _⟩, h => absurd h (Nat.not_lt.mpr (Nat.le_add_left 6 n))

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ (dat4 V c).leavesExact 6 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  have hb := before4 V c t
  simp only [hb 0 (by decide), hb 1 (by decide), hb 2 (by decide), hb 3 (by decide), hb 4 (by decide), hb 5 (by decide)]
  rw [show (dat4 V c).owesAt () t.succ = (dat4 V c).owesAt () t.castSucc from rfl]
  rw [Phi_eq4, Phi_eq4, show (t.succ : Fin (cfg4.N + 1)).val = t.val + 1 from rfl, show (t.castSucc : Fin (cfg4.N + 1)).val = t.val from rfl]
  rw [after4_0, after4_1, after4_2, after4_3, after4_4, after4_5, Phi4_succ, accAt4_succ V c t]
  have hN : t.val < 50 := lt_of_lt_of_eq t.isLt (show cfg4.N = 50 from N_4)
  by_cases h0 : t.val % 50 = 0
  ·
    have hz : t.val = 0 := by omega
    have hc0 : cond4_0 (grid4.coords t) := (hcond4_0 t).mpr h0
    have hc1 : ¬cond4_1 (grid4.coords t) := fun h => by have := (hcond4_1 t).mp h; omega
    rw [Dat.leavesExact_idle (dat4 V c) 6 t (idleAt4_6 t hc1) (noFlush4_6 t hc1)]
    rw [Phi4_zero V c _ hz, PhiA4_eq, show accAt4 V c t.val = k4_pay1 (F := F) from by rw [hz]; rfl]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run_first4 c (grid4.coords t) _ _ _ _ _ _ _ _ _ _ _ _ _ _ _ _ hc0 hc1 (iblk4 V c 0 t) (iblk4 V c 1 t) (iblk4 V c 2 t) (iblk4 V c 3 t) (iblk4 V c 4 t) (iblk4 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, HS0⟩
    isplitl [HS0 Hrest Hg]
    · isplitl [HS0 Hrest]
      · isplitl [HS0]; · iexact HS0
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := by omega
    have hc0 : ¬cond4_0 (grid4.coords t) := fun h => h0 ((hcond4_0 t).mp h)
    by_cases h1 : t.val % 50 = 49
    ·
      have hc1 : cond4_1 (grid4.coords t) := (hcond4_1 t).mpr h1
      rw [show (dat4 V c).leavesExact 6 t = owns (c : Thread nD τ) (st4_6 t) fullShare ((dat4 V c).after 6 t) from by
        unfold Dat.leavesExact; rw [liveAt4_6 t hc1], after4_6]
      obtain rfl : t = tLast4 := Fin.ext (by show t.val = 49; omega)
      rw [out4_6_eq, Phi4_pos V c _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run_last4 c (grid4.coords tLast4) _ _ _ _ _ _ _ _ _ _ _ _ _ _ _ _ hc0 hc1 (iblk4 V c 0 tLast4) (iblk4 V c 1 tLast4) (iblk4 V c 2 tLast4) (iblk4 V c 3 tLast4) (iblk4 V c 4 tLast4) (iblk4 V c 5 tLast4) (accAt4 V c tLast4.val) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, H6, HS0⟩
      isplitl [HS0 Hrest Hg]
      · isplitl [HS0 Hrest]
        · isplitl [HS0]; · iexact HS0
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    ·
      have hc1 : ¬cond4_1 (grid4.coords t) := fun h => h1 ((hcond4_1 t).mp h)
      rw [Dat.leavesExact_idle (dat4 V c) 6 t (idleAt4_6 t hc1) (noFlush4_6 t hc1)]
      rw [Phi4_pos V c _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run_mid4 c (grid4.coords t) _ _ _ _ _ _ _ _ _ _ _ _ _ _ _ _ hc0 hc1 (iblk4 V c 0 t) (iblk4 V c 1 t) (iblk4 V c 2 t) (iblk4 V c 3 t) (iblk4 V c 4 t) (iblk4 V c 5 t) (accAt4 V c t.val) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [HS0 Hrest Hg]
      · isplitl [HS0 Hrest]
        · isplitl [HS0]; · iexact HS0
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation4 (c : Dev nD) : BodyObligation (dat4 (F := F) V c) (defs₀ (F := F)) Variants.none () Set.univ := fun t => by
  rw [bigSep_W4, bigSep_W4]
  exact sound_body4 V c t

theorem flushed_eq4_6 (c : Dev nD) (t : Fin cfg4.N) (hf : (cfg4.win 6).flush t = true) :
    (dat4 V c).flushed 6 t = ((cfg4.win 6).blk t).view.read (Elt F) (out4_6 V c) := by
  have hN : t.val < 50 := lt_of_lt_of_eq t.isLt (show cfg4.N = 50 from N_4)
  have h1 : t.val = 49 := by have := (flush4_6 t).mp hf; omega
  obtain rfl : t = tLast4 := Fin.ext h1
  show (cfg4.win 6).cut (grid4.coords tLast4) ((dat4 V c).after 6 tLast4) = _
  rw [after4_6]
  have hz' : (fun a => win4_6.index tLast4 a * main_v125.ty.shape.size a) = fun _ => 0 := funext fun a => by fin_cases a <;> decide +kernel
  exact (Memref.read_access_unit_zero (Elt F) main_v125 hz' (fun a => by rw [congrFun hz' a]; simp) (out4_6 V c)).symm

theorem arr4_6 (c : Dev nD) : (dat4 V c).arrAt 6 cfg4.N = out4_6 V c :=
  (dat4 V c).arrAt_eq_of_cover 6 (out4_6 V c) (flushed_eq4_6 V c) fun i =>
    ⟨tLast4, (flush4_6 tLast4).mpr rfl, by
      show i ∈ ((View.whole main_v125).slice (win4_6.rect tLast4)).set
      rw [View.set_slice_whole, Rect.mem_set_unit]
      intro a
      have h0 : (i 0 : Nat) < 128 := (i 0).isLt
      have h1 : (i 1 : Nat) < 10 := (i 1).isLt
      match a with
      | ⟨0, _⟩ => show win4_6.index tLast4 0 * win4_6.size 0 ≤ (i 0 : Nat) ∧ (i 0 : Nat) < win4_6.index tLast4 0 * win4_6.size 0 + win4_6.xsize (grid4.coords tLast4) 0
                  rw [show win4_6.index tLast4 0 * win4_6.size 0 = 0 from by decide +kernel, show win4_6.xsize (grid4.coords tLast4) 0 = 128 from by decide +kernel]; omega
      | ⟨1, _⟩ => show win4_6.index tLast4 1 * win4_6.size 1 ≤ (i 1 : Nat) ∧ (i 1 : Nat) < win4_6.index tLast4 1 * win4_6.size 1 + win4_6.xsize (grid4.coords tLast4) 1
                  rw [show win4_6.index tLast4 1 * win4_6.size 1 = 0 from by decide +kernel, show win4_6.xsize (grid4.coords tLast4) 1 = 10 from by decide +kernel]; omega⟩

end Cert.Kernel.Hand

end
-- ==== Proof.K.Fold.lean ====
import proofs.«403111_j50835232915932_1_alg».proof.Proof.K.Conv0
import proofs.«403111_j50835232915932_1_alg».proof.Proof.K.Conv1
import proofs.«403111_j50835232915932_1_alg».proof.Proof.K.Conv2
import proofs.«403111_j50835232915932_1_alg».proof.Proof.K.Conv3
import proofs.«403111_j50835232915932_1_alg».proof.Proof.K.Pool
import proofs.«403111_j50835232915932_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (⟨m, fun _ => 0, ρ⟩ : MemSt nD τ sig (Elt F)).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
-- A region changes only its output arrays.
theorem W2_rest (c : Dev nD) (b : Ref sig .tc) (hb : ∀ w, Pipeline.arrRef spec0 w = b → (cfg0.win w).isOut = false) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (hb w rfl) _).trans (A_eq0 (V1 m ρ) c w))
  · exact W2_of_ne m ρ c b fun w e => h ⟨w, e⟩

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_rest (c : Dev nD) (b : Ref sig .tc) (hb : ∀ w, Pipeline.arrRef spec1 w = b → (cfg1.win w).isOut = false) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (hb w rfl) _).trans (A_eq1 (V3 m ρ) c w))
  · exact W4_of_ne m ρ c b fun w e => h ⟨w, e⟩

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_rest (c : Dev nD) (b : Ref sig .tc) (hb : ∀ w, Pipeline.arrRef spec2 w = b → (cfg2.win w).isOut = false) :
    W6 m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w (hb w rfl) _).trans (A_eq2 (V5 m ρ) c w))
  · exact W6_of_ne m ρ c b fun w e => h ⟨w, e⟩

abbrev V6 : (c : Dev nD) → (b : Ref sig .tc) → Buf (Elt F) ((c : Thread nD τ).loc b) := fun c b => W6 m ρ c b

theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
theorem W8_rest (c : Dev nD) (b : Ref sig .tc) (hb : ∀ w, Pipeline.arrRef spec3 w = b → (cfg3.win w).isOut = false) :
    W8 m ρ c (Proc.devRef .tc b) = W7 m ρ c (Proc.devRef .tc b) := by
  by_cases h : ∃ w, Pipeline.arrRef spec3 w = b
  · obtain ⟨w, rfl⟩ := h
    exact (W8_arr m ρ c w).trans (((dat3 (V7 m ρ) c).arrAt_in w (hb w rfl) _).trans (A_eq3 (V7 m ρ) c w))
  · exact W8_of_ne m ρ c b fun w e => h ⟨w, e⟩

abbrev V8 : (c : Dev nD) → (b : Ref sig .tc) → Buf (Elt F) ((c : Thread nD τ).loc b) := fun c b => W8 m ρ c b

theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

abbrev W9 : Dev nD → Valuation τ sig (Elt F) := fun c => StableHlo.after hostOps4 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
theorem W10_rest (c : Dev nD) (b : Ref sig .tc) (hb : ∀ w, Pipeline.arrRef spec4 w = b → (cfg4.win w).isOut = false) :
    W10 m ρ c (Proc.devRef .tc b) = W9 m ρ c (Proc.devRef .tc b) := by
  by_cases h : ∃ w, Pipeline.arrRef spec4 w = b
  · obtain ⟨w, rfl⟩ := h
    exact (W10_arr m ρ c w).trans (((dat4 (V9 m ρ) c).arrAt_in w (hb w rfl) _).trans (A_eq4 (V9 m ρ) c w))
  · exact W10_of_ne m ρ c b fun w e => h ⟨w, e⟩

abbrev V10 : (c : Dev nD) → (b : Ref sig .tc) → Buf (Elt F) ((c : Thread nD τ).loc b) := fun c b => W10 m ρ c b

theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

abbrev W11 : Dev nD → Valuation τ sig (Elt F) := fun c => StableHlo.after hostOps5 (W10 m ρ c)
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h

-- So a buffer that no host stretch writes and no region has as an output ends as launched.
theorem W11_rest (c : Dev nD) (b : Ref sig .tc)
    (h : b ∉ hostOps0_W ∧ b ∉ hostOps1_W ∧ b ∉ hostOps2_W ∧ b ∉ hostOps3_W ∧ b ∉ hostOps4_W ∧ b ∉ hostOps5_W
      ∧ (∀ w, Pipeline.arrRef spec0 w = b → (cfg0.win w).isOut = false)
      ∧ (∀ w, Pipeline.arrRef spec1 w = b → (cfg1.win w).isOut = false)
      ∧ (∀ w, Pipeline.arrRef spec2 w = b → (cfg2.win w).isOut = false)
      ∧ (∀ w, Pipeline.arrRef spec3 w = b → (cfg3.win w).isOut = false)
      ∧ (∀ w, Pipeline.arrRef spec4 w = b → (cfg4.win w).isOut = false)) :
    W11 m ρ c (Proc.devRef .tc b) = m ((c : Thread nD τ).loc b) :=
  have ⟨h0, h1, h2, h3, h4, h5, k0, k1, k2, k3, k4⟩ := h
  (W11_of m ρ c b h5).trans <| (W10_rest m ρ c b k4).trans <| (W9_of m ρ c b h4).trans <| (W8_rest m ρ c b k3).trans <|
    (W7_of m ρ c b h3).trans <| (W6_rest m ρ c b k2).trans <| (W5_of m ρ c b h2).trans <| (W4_rest m ρ c b k1).trans <|
    (W3_of m ρ c b h1).trans <| (W2_rest m ρ c b k0).trans <| W1_of m ρ c b h0

theorem W11_main_arg0 (c : Dev nD) : W11 m ρ c (Proc.devRef .tc main_arg0) = m ((c : Thread nD τ).loc main_arg0) :=
  W11_rest m ρ c main_arg0 (by decide)
theorem W11_main_arg1 (c : Dev nD) : W11 m ρ c (Proc.devRef .tc main_arg1) = m ((c : Thread nD τ).loc main_arg1) :=
  W11_rest m ρ c main_arg1 (by decide)
theorem W11_main_arg2 (c : Dev nD) : W11 m ρ c (Proc.devRef .tc main_arg2) = m ((c : Thread nD τ).loc main_arg2) :=
  W11_rest m ρ c main_arg2 (by decide)
theorem W11_main_arg3 (c : Dev nD) : W11 m ρ c (Proc.devRef .tc main_arg3) = m ((c : Thread nD τ).loc main_arg3) :=
  W11_rest m ρ c main_arg3 (by decide)
theorem W11_main_arg4 (c : Dev nD) : W11 m ρ c (Proc.devRef .tc main_arg4) = m ((c : Thread nD τ).loc main_arg4) :=
  W11_rest m ρ c main_arg4 (by decide)
theorem W11_main_arg5 (c : Dev nD) : W11 m ρ c (Proc.devRef .tc main_arg5) = m ((c : Thread nD τ).loc main_arg5) :=
  W11_rest m ρ c main_arg5 (by decide)
theorem W11_main_arg6 (c : Dev nD) : W11 m ρ c (Proc.devRef .tc main_arg6) = m ((c : Thread nD τ).loc main_arg6) :=
  W11_rest m ρ c main_arg6 (by decide)
theorem W11_main_arg7 (c : Dev nD) : W11 m ρ c (Proc.devRef .tc main_arg7) = m ((c : Thread nD τ).loc main_arg7) :=
  W11_rest m ρ c main_arg7 (by decide)
theorem W11_main_arg8 (c : Dev nD) : W11 m ρ c (Proc.devRef .tc main_arg8) = m ((c : Thread nD τ).loc main_arg8) :=
  W11_rest m ρ c main_arg8 (by decide)
theorem W11_main_arg9 (c : Dev nD) : W11 m ρ c (Proc.devRef .tc main_arg9) = m ((c : Thread nD τ).loc main_arg9) :=
  W11_rest m ρ c main_arg9 (by decide)
theorem W11_main_arg10 (c : Dev nD) : W11 m ρ c (Proc.devRef .tc main_arg10) = m ((c : Thread nD τ).loc main_arg10) :=
  W11_rest m ρ c main_arg10 (by decide)
theorem W11_main_arg11 (c : Dev nD) : W11 m ρ c (Proc.devRef .tc main_arg11) = m ((c : Thread nD τ).loc main_arg11) :=
  W11_rest m ρ c main_arg11 (by decide)
theorem W11_main_arg12 (c : Dev nD) : W11 m ρ c (Proc.devRef .tc main_arg12) = m ((c : Thread nD τ).loc main_arg12) :=
  W11_rest m ρ c main_arg12 (by decide)
theorem W11_main_arg13 (c : Dev nD) : W11 m ρ c (Proc.devRef .tc main_arg13) = m ((c : Thread nD τ).loc main_arg13) :=
  W11_rest m ρ c main_arg13 (by decide)

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W11 m ρ c) ∗ ∃ r, prngReg c r)

end Cert.Kernel.Hand

end
-- ==== Proof.K.Seg0.lean ====
import proofs.«403111_j50835232915932_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg1.lean ====
import proofs.«403111_j50835232915932_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg2.lean ====
import proofs.«403111_j50835232915932_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg3.lean ====
import proofs.«403111_j50835232915932_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg4.lean ====
import proofs.«403111_j50835232915932_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    show iprop(iprop(owns (c : Thread nD τ) scM4 fullShare (accAt4 (V9 m ρ) c 50)
          ∗ Pipeline.scopedRestBut (Ix := Unit) (Name := ℕ) (U := UR sig nD τ) (Lvl := ℕ) (Val := Elt F) spec4 c [cc4_scratch0])
        ∗ (∃ r, prngReg c r))
      ⊢ iprop((∃ r, prngReg c r) ∗ emp
        ∗ Pipeline.scopedRest (Ix := Unit) (Name := ℕ) (U := UR sig nD τ) (Lvl := ℕ) (Val := Elt F) spec4 c)
    rw [scopedRest4_split (Ix := Unit) (Val := Elt F) (Name := ℕ) (U := UR sig nD τ) (Lvl := ℕ) c, owns_whole]
    iintro ⟨⟨Hacc, Hrest⟩, Hp⟩
    isplitl [Hp]; · iexact Hp
    isplitr; · iempintro
    isplitl [Hacc]
    · iexists _; iexact Hacc
    iexact Hrest
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
import proofs.«403111_j50835232915932_1_alg».proof.Proof.K.Seg0
import proofs.«403111_j50835232915932_1_alg».proof.Proof.K.Seg1
import proofs.«403111_j50835232915932_1_alg».proof.Proof.K.Seg2
import proofs.«403111_j50835232915932_1_alg».proof.Proof.K.Seg3
import proofs.«403111_j50835232915932_1_alg».proof.Proof.K.Seg4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]

theorem main_run (c : Dev nD) : main (F := F) c = Pipeline.Seg.run (segs m ρ) := by
  rw [main_chain c, Pipeline.Seg.run_eq_chain]
  rfl

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem ((c : Thread nD τ).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h => h)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c),
     (h c _ (mem_uc main_arg13 (by decide))).trans (W11_main_arg13 m ρ c)⟩) (run_all m ρ)

theorem run_res : θ_run defs (onTc (τ := τ) (main (F := F))) ⟨m, fun _ => 0, ρ⟩ (fun r => ∀ c : Dev nD,
      r.2.mem ((c.tc : Thread nD τ).loc main_v125) = W11 m ρ c (Proc.devRef .tc main_v125)
      ∧ r.2.mem ((c.tc : Thread nD τ).loc main_v126) = W11 m ρ c (Proc.devRef .tc main_v126)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (mem_uc main_v125 (by decide)), h c _ (mem_uc main_v126 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c),
     (h c _ (mem_uc main_arg13 (by decide))).trans (W11_main_arg13 m ρ c)⟩) (run_all m ρ)

end Cert.Kernel.Hand

end
-- ==== Proof.KI.Conv0.lean ====
import proofs.«403111_j50835232915932_1_alg».proof.Proof.Gen.KernelIdeal.Launch
import proofs.«403111_j50835232915932_1_alg».proof.Proof.Gen.KernelIdeal.Skeleton
import proofs.«403111_j50835232915932_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rows0 : Rect S2000x128 := Rect.unit (s := S2000x128) ![0, 0] S2000x128.size inb_S2000x128_S2000x128_0_0
abbrev wts0 : Rect S128x128 := Rect.unit (s := S128x128) ![0, 0] S128x128.size inb_S128x128_S128x128_0_0
abbrev vec0 : Rect S1x128 := Rect.unit (s := S1x128) ![0, 0] S1x128.size inb_S1x128_S1x128_0_0

def out0_8 (x0 x1 : Vec F S2000x128 .f32) (x2 : Vec F S128x128 .f32) (x3 x4 x5 x6 x7 : Vec F S1x128 .f32) : Vec F S2000x128 .f32 :=
  View.canon [⟨rows0, k0_pay1 (View.ld x0 rows0) (View.ld x1 rows0) (View.ld x2 wts0) (View.ld x3 vec0)
    (View.ld x7 vec0) (View.ld x6 vec0) (View.ld x4 vec0) (View.ld x5 vec0)⟩]

theorem cover0_8 (p0 : Vec F S2000x128 .f32) (y : S2000x128.Idx) :
    ∃ pc ∈ ([⟨rows0, p0⟩] : List (View.Piece (Elt F) S2000x128 .f32)), y ∈ pc.1.set :=
  View.cover_of_tiled [⟨rows0, p0⟩] S2000x128.size (by rfl) y

set_option maxHeartbeats 1000000 in

theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2000x128 .f32) (harg9 : arg9.IsWhole)
    (x0 x1 : Vec F S2000x128 .f32) (x2 : Vec F S128x128 .f32) (x3 x4 x5 x6 x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out0_8 x0 x1 x2 x3 x4 x5 x6 x7)) -∗ K ⟨⟩))
      ⊢ wp frame (wpE (defs₀ (F := F)) Variants.none c none) E (cc0__conv_kernel i arg1 harg1 arg2 harg2 arg3 harg3 arg4 harg4 arg5 harg5 arg6 harg6 arg7 harg7 arg8 harg8 arg9 harg9) K := by
  simp only [cc0__conv_kernel_eq_skeleton]; unfold cc0__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t)
        (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t =
    out0_8 (iblk0 V c 0 t) (iblk0 V c 1 t) (iblk0 V c 2 t) (iblk0 V c 3 t) (iblk0 V c 4 t) (iblk0 V c 5 t)
      (iblk0 V c 6 t) (iblk0 V c 7 t) := by dsimp only [dat0]

-- The eight input windows at once: each side condition holds by computation at a literal window.
theorem before0 (c : Dev nD) (t : Fin cfg0.N) : ∀ (w : Fin cfg0.W), w.val < 8 → ∀ d, (dat0 V c).before w t d = (dat0 V c).after w t
  | ⟨0, _⟩, _ | ⟨1, _⟩, _ | ⟨2, _⟩, _ | ⟨3, _⟩, _ | ⟨4, _⟩, _ | ⟨5, _⟩, _ | ⟨6, _⟩, _ | ⟨7, _⟩, _ => fun d =>
    ((dat0 V c).before_in_eq_fetched _ rfl (fun _ => rfl) (fun _ _ _ => rfl) (fun _ => rfl) t d).trans rfl
  | ⟨n + 8, _⟩, h => absurd h (Nat.not_lt.mpr (Nat.le_add_left 8 n))

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  have hb := before0 V c t
  simp only [hb 0 (by decide), hb 1 (by decide), hb 2 (by decide), hb 3 (by decide), hb 4 (by decide), hb 5 (by decide), hb 6 (by decide), hb 7 (by decide)]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Conv1.lean ====
import proofs.«403111_j50835232915932_1_alg».proof.Proof.Gen.KernelIdeal.Launch
import proofs.«403111_j50835232915932_1_alg».proof.Proof.Gen.KernelIdeal.Skeleton
import proofs.«403111_j50835232915932_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rows1 : Rect S2000x128 := Rect.unit (s := S2000x128) ![0, 0] S2000x128.size inb_S2000x128_S2000x128_0_0
abbrev wts1 : Rect S128x128 := Rect.unit (s := S128x128) ![0, 0] S128x128.size inb_S128x128_S128x128_0_0
abbrev vec1 : Rect S1x128 := Rect.unit (s := S1x128) ![0, 0] S1x128.size inb_S1x128_S1x128_0_0

def out1_8 (x0 x1 : Vec F S2000x128 .f32) (x2 : Vec F S128x128 .f32) (x3 x4 x5 x6 x7 : Vec F S1x128 .f32) : Vec F S2000x128 .f32 :=
  View.canon [⟨rows1, k1_pay1 (View.ld x0 rows1) (View.ld x1 rows1) (View.ld x2 wts1) (View.ld x3 vec1)
    (View.ld x7 vec1) (View.ld x6 vec1) (View.ld x4 vec1) (View.ld x5 vec1)⟩]

theorem cover1_8 (p0 : Vec F S2000x128 .f32) (y : S2000x128.Idx) :
    ∃ pc ∈ ([⟨rows1, p0⟩] : List (View.Piece (Elt F) S2000x128 .f32)), y ∈ pc.1.set :=
  View.cover_of_tiled [⟨rows1, p0⟩] S2000x128.size (by rfl) y

set_option maxHeartbeats 1000000 in

theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2000x128 .f32) (harg9 : arg9.IsWhole)
    (x0 x1 : Vec F S2000x128 .f32) (x2 : Vec F S128x128 .f32) (x3 x4 x5 x6 x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out1_8 x0 x1 x2 x3 x4 x5 x6 x7)) -∗ K ⟨⟩))
      ⊢ wp frame (wpE (defs₀ (F := F)) Variants.none c none) E (cc1__conv_kernel i arg1 harg1 arg2 harg2 arg3 harg3 arg4 harg4 arg5 harg5 arg6 harg6 arg7 harg7 arg8 harg8 arg9 harg9) K := by
  simp only [cc1__conv_kernel_eq_skeleton]; unfold cc1__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t)
        (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t =
    out1_8 (iblk1 V c 0 t) (iblk1 V c 1 t) (iblk1 V c 2 t) (iblk1 V c 3 t) (iblk1 V c 4 t) (iblk1 V c 5 t)
      (iblk1 V c 6 t) (iblk1 V c 7 t) := by dsimp only [dat1]

-- The eight input windows at once: each side condition holds by computation at a literal window.
theorem before1 (c : Dev nD) (t : Fin cfg1.N) : ∀ (w : Fin cfg1.W), w.val < 8 → ∀ d, (dat1 V c).before w t d = (dat1 V c).after w t
  | ⟨0, _⟩, _ | ⟨1, _⟩, _ | ⟨2, _⟩, _ | ⟨3, _⟩, _ | ⟨4, _⟩, _ | ⟨5, _⟩, _ | ⟨6, _⟩, _ | ⟨7, _⟩, _ => fun d =>
    ((dat1 V c).before_in_eq_fetched _ rfl (fun _ => rfl) (fun _ _ _ => rfl) (fun _ => rfl) t d).trans rfl
  | ⟨n + 8, _⟩, h => absurd h (Nat.not_lt.mpr (Nat.le_add_left 8 n))

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  have hb := before1 V c t
  simp only [hb 0 (by decide), hb 1 (by decide), hb 2 (by decide), hb 3 (by decide), hb 4 (by decide), hb 5 (by decide), hb 6 (by decide), hb 7 (by decide)]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.Conv2.lean ====
import proofs.«403111_j50835232915932_1_alg».proof.Proof.Gen.KernelIdeal.Launch
import proofs.«403111_j50835232915932_1_alg».proof.Proof.Gen.KernelIdeal.Skeleton
import proofs.«403111_j50835232915932_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rows2 : Rect S2000x128 := Rect.unit (s := S2000x128) ![0, 0] S2000x128.size inb_S2000x128_S2000x128_0_0
abbrev wts2 : Rect S128x128 := Rect.unit (s := S128x128) ![0, 0] S128x128.size inb_S128x128_S128x128_0_0
abbrev vec2 : Rect S1x128 := Rect.unit (s := S1x128) ![0, 0] S1x128.size inb_S1x128_S1x128_0_0

def out2_8 (x0 x1 : Vec F S2000x128 .f32) (x2 : Vec F S128x128 .f32) (x3 x4 x5 x6 x7 : Vec F S1x128 .f32) : Vec F S2000x128 .f32 :=
  View.canon [⟨rows2, k2_pay1 (View.ld x0 rows2) (View.ld x1 rows2) (View.ld x2 wts2) (View.ld x3 vec2)
    (View.ld x7 vec2) (View.ld x6 vec2) (View.ld x4 vec2) (View.ld x5 vec2)⟩]

theorem cover2_8 (p0 : Vec F S2000x128 .f32) (y : S2000x128.Idx) :
    ∃ pc ∈ ([⟨rows2, p0⟩] : List (View.Piece (Elt F) S2000x128 .f32)), y ∈ pc.1.set :=
  View.cover_of_tiled [⟨rows2, p0⟩] S2000x128.size (by rfl) y

set_option maxHeartbeats 1000000 in

theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2000x128 .f32) (harg9 : arg9.IsWhole)
    (x0 x1 : Vec F S2000x128 .f32) (x2 : Vec F S128x128 .f32) (x3 x4 x5 x6 x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) Variants.none c none) E (cc2__conv_kernel i arg1 harg1 arg2 harg2 arg3 harg3 arg4 harg4 arg5 harg5 arg6 harg6 arg7 harg7 arg8 harg8 arg9 harg9) K := by
  simp only [cc2__conv_kernel_eq_skeleton]; unfold cc2__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t)
        (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t =
    out2_8 (iblk2 V c 0 t) (iblk2 V c 1 t) (iblk2 V c 2 t) (iblk2 V c 3 t) (iblk2 V c 4 t) (iblk2 V c 5 t)
      (iblk2 V c 6 t) (iblk2 V c 7 t) := by dsimp only [dat2]

-- The eight input windows at once: each side condition holds by computation at a literal window.
theorem before2 (c : Dev nD) (t : Fin cfg2.N) : ∀ (w : Fin cfg2.W), w.val < 8 → ∀ d, (dat2 V c).before w t d = (dat2 V c).after w t
  | ⟨0, _⟩, _ | ⟨1, _⟩, _ | ⟨2, _⟩, _ | ⟨3, _⟩, _ | ⟨4, _⟩, _ | ⟨5, _⟩, _ | ⟨6, _⟩, _ | ⟨7, _⟩, _ => fun d =>
    ((dat2 V c).before_in_eq_fetched _ rfl (fun _ => rfl) (fun _ _ _ => rfl) (fun _ => rfl) t d).trans rfl
  | ⟨n + 8, _⟩, h => absurd h (Nat.not_lt.mpr (Nat.le_add_left 8 n))

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  have hb := before2 V c t
  simp only [hb 0 (by decide), hb 1 (by decide), hb 2 (by decide), hb 3 (by decide), hb 4 (by decide), hb 5 (by decide), hb 6 (by decide), hb 7 (by decide)]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.Conv3.lean ====
import proofs.«403111_j50835232915932_1_alg».proof.Proof.Gen.KernelIdeal.Launch
import proofs.«403111_j50835232915932_1_alg».proof.Proof.Gen.KernelIdeal.Skeleton
import proofs.«403111_j50835232915932_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rows3 : Rect S2000x128 := Rect.unit (s := S2000x128) ![0, 0] S2000x128.size inb_S2000x128_S2000x128_0_0
abbrev wts3 : Rect S128x128 := Rect.unit (s := S128x128) ![0, 0] S128x128.size inb_S128x128_S128x128_0_0
abbrev vec3 : Rect S1x128 := Rect.unit (s := S1x128) ![0, 0] S1x128.size inb_S1x128_S1x128_0_0

def out3_8 (x0 x1 : Vec F S2000x128 .f32) (x2 : Vec F S128x128 .f32) (x3 x4 x5 x6 x7 : Vec F S1x128 .f32) : Vec F S2000x128 .f32 :=
  View.canon [⟨rows3, k3_pay1 (View.ld x0 rows3) (View.ld x1 rows3) (View.ld x2 wts3) (View.ld x3 vec3)
    (View.ld x7 vec3) (View.ld x6 vec3) (View.ld x4 vec3) (View.ld x5 vec3)⟩]

theorem cover3_8 (p0 : Vec F S2000x128 .f32) (y : S2000x128.Idx) :
    ∃ pc ∈ ([⟨rows3, p0⟩] : List (View.Piece (Elt F) S2000x128 .f32)), y ∈ pc.1.set :=
  View.cover_of_tiled [⟨rows3, p0⟩] S2000x128.size (by rfl) y

set_option maxHeartbeats 1000000 in

theorem sound_kernel3 (c : Dev nD) (E : Set ℕ) (i : grid3.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2000x128 .f32) (harg9 : arg9.IsWhole)
    (x0 x1 : Vec F S2000x128 .f32) (x2 : Vec F S128x128 .f32) (x3 x4 x5 x6 x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out3_8 x0 x1 x2 x3 x4 x5 x6 x7)) -∗ K ⟨⟩))
      ⊢ wp frame (wpE (defs₀ (F := F)) Variants.none c none) E (cc3__conv_kernel i arg1 harg1 arg2 harg2 arg3 harg3 arg4 harg4 arg5 harg5 arg6 harg6 arg7 harg7 arg8 harg8 arg9 harg9) K := by
  simp only [cc3__conv_kernel_eq_skeleton]; unfold cc3__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover3_8 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t)
        (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t =
    out3_8 (iblk3 V c 0 t) (iblk3 V c 1 t) (iblk3 V c 2 t) (iblk3 V c 3 t) (iblk3 V c 4 t) (iblk3 V c 5 t)
      (iblk3 V c 6 t) (iblk3 V c 7 t) := by dsimp only [dat3]

-- The eight input windows at once: each side condition holds by computation at a literal window.
theorem before3 (c : Dev nD) (t : Fin cfg3.N) : ∀ (w : Fin cfg3.W), w.val < 8 → ∀ d, (dat3 V c).before w t d = (dat3 V c).after w t
  | ⟨0, _⟩, _ | ⟨1, _⟩, _ | ⟨2, _⟩, _ | ⟨3, _⟩, _ | ⟨4, _⟩, _ | ⟨5, _⟩, _ | ⟨6, _⟩, _ | ⟨7, _⟩, _ => fun d =>
    ((dat3 V c).before_in_eq_fetched _ rfl (fun _ => rfl) (fun _ _ _ => rfl) (fun _ => rfl) t d).trans rfl
  | ⟨n + 8, _⟩, h => absurd h (Nat.not_lt.mpr (Nat.le_add_left 8 n))

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  have hb := before3 V c t
  simp only [hb 0 (by decide), hb 1 (by decide), hb 2 (by decide), hb 3 (by decide), hb 4 (by decide), hb 5 (by decide), hb 6 (by decide), hb 7 (by decide)]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.Pool.lean ====
import proofs.«403111_j50835232915932_1_alg».proof.Proof.Gen.KernelIdeal.Launch
import proofs.«403111_j50835232915932_1_alg».proof.Proof.Gen.KernelIdeal.Skeleton
import proofs.«403111_j50835232915932_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev tLast4 : Fin cfg4.N := ⟨49, by decide⟩

def accAt4 (c : Dev nD) : (n : ℕ) → Vec F S128x512 .f32
  | 0 => k4_pay1 (F := F)
  | n + 1 => if h : n < cfg4.N then k4_pay2 (iblk4 V c 0 ⟨n, h⟩) (iblk4 V c 1 ⟨n, h⟩) (accAt4 c n) else accAt4 c n

theorem accAt4_zero (c : Dev nD) : accAt4 V c 0 = k4_pay1 (F := F) := rfl

theorem accAt4_succ (c : Dev nD) (t : Fin cfg4.N) :
    accAt4 V c (t.val + 1) = k4_pay2 (iblk4 V c 0 t) (iblk4 V c 1 t) (accAt4 V c t.val) := by
  obtain ⟨n, h⟩ := t
  show (if h : n < cfg4.N then _ else _) = _
  rw [dif_pos h]

def out4_6 (c : Dev nD) : Vec F S128x10 .f32 :=
  k4_pay3 (accAt4 V c 50) (iblk4 V c 2 tLast4) (iblk4 V c 3 tLast4) (iblk4 V c 4 tLast4) (iblk4 V c 5 tLast4)

abbrev scM4 : Memref sig .tc .vmem S128x512 .f32 := Memref.whole cc4_scratch0

def Phi4 (c : Dev nD) : ℕ → sProp 𝕄
  | 0 => Pipeline.ΦA spec4 c
  | n + 1 => iprop(iprop(owns (c : Thread nD τ) scM4 fullShare (accAt4 V c (n + 1))
        ∗ Pipeline.scopedRestBut (Ix := Unit) (Name := ℕ) (U := UR sig nD τ) (Lvl := ℕ) (Val := Elt F) spec4 c [cc4_scratch0])
      ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 V c
  Φ t := Phi4 V c t.val
  q _ := fullShare
  owed _ := 0

theorem A_eq4 (c : Dev nD) (w : Fin cfg4.W) : (dat4 V c).A w = V c (Pipeline.arrRef spec4 w) := by
  dsimp only [dat4]

theorem Phi_eq4 (c : Dev nD) (t : Fin (cfg4.N + 1)) : (dat4 V c).Φ t = Phi4 V c t.val := by dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 V c := by dsimp only [dat4]

theorem flushed4_6 (c : Dev nD) : (dat4 V c).after 6 tLast4 = out4_6 V c := after4_6 V c tLast4

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val % 50 = 0 :=
  (by decide +kernel : ∀ t : Fin grid4.N, cond4_0 (grid4.coords t) ↔ t.val % 50 = 0)

abbrev cond4_1 (i : grid4.Coords) : Prop := k4_cond2 i = 1#1

theorem hcond4_1 : ∀ t : Fin cfg4.N, cond4_1 (grid4.coords t) ↔ t.val % 50 = 49 :=
  (by decide +kernel : ∀ t : Fin grid4.N, cond4_1 (grid4.coords t) ↔ t.val % 50 = 49)

theorem idleAt4_6 : ∀ t : Fin cfg4.N, ¬cond4_1 (grid4.coords t) → cfg4.idle 6 (grid4.coords t) = true := by decide +kernel

theorem noFlush4_6 : ∀ t : Fin cfg4.N, ¬cond4_1 (grid4.coords t) → (cfg4.win 6).flush t = false := by decide +kernel

theorem liveAt4_6 : ∀ t : Fin cfg4.N, cond4_1 (grid4.coords t) → cfg4.idle 6 (grid4.coords t) = false := by decide +kernel

theorem zeros2 : (![0, 0] : Fin 2 → ℕ) = fun _ => 0 := by funext a; fin_cases a <;> rfl

set_option maxHeartbeats 1000000 in

theorem run_first4 (c : Dev nD) (i : grid4.Coords) (arg1 : Memref sig .tc .vmem S2000x1 .i32) (harg1 : arg1.IsWhole) (arg2 : Memref sig .tc .vmem S2000x512 .bf16) (harg2 : arg2.IsWhole) (arg3 : Memref sig .tc .vmem S512x256 .f32) (harg3 : arg3.IsWhole) (arg4 : Memref sig .tc .vmem S1x256 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S128x10 .f32) (harg7 : arg7.IsWhole) (arg8 : Memref sig .tc .vmem S128x512 .f32) (harg8 : arg8.IsWhole)
    (hc0 : cond4_0 i) (hc1 : ¬cond4_1 i) (x0 : Vec F S2000x1 .i32) (x1 : Vec F S2000x512 .bf16) (x2 : Vec F S512x256 .f32) (x3 : Vec F S1x256 .f32) (x4 : Vec F S256x10 .f32) (x5 : Vec F S1x10 .f32)
    (xi6 : Vec F S128x10 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xi6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare xi6 ∗ owns (c : Thread nD τ) arg8 fullShare (k4_pay2 x0 x1 (k4_pay1 (F := F)))) -∗ K ⟨⟩))
      ⊢ wp frame (wpE (defs₀ (F := F)) Variants.none c none) E (cc4__pool_mlp_kernel i arg1 harg1 arg2 harg2 arg3 harg3 arg4 harg4 arg5 harg5 arg6 harg6 arg7 harg7 arg8 harg8) K := by
  simp only [cc4__pool_mlp_kernel_eq_skeleton]; unfold cc4__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr
  swap; · iexact HS0
  ipureintro
  try sl_unfold_words
  rw [View.read_writes_eq_canon _ _ _ (fun y => ⟨_, List.mem_cons_self, View.mem_set_unit_zero zeros2 inb_S128x512_S128x512_0_0 y⟩),
    View.canon_cons_unit_zero (S := S128x512) zeros2]
  simp only [View.readAt_eq_ld, harg1.read_unread, harg2.read_unread, View.ld_unit_zero (S := S2000x1) zeros2,
    View.ld_unit_zero (S := S2000x512) zeros2, View.readCov_unit_zero (S := S128x512) _ zeros2]

set_option maxHeartbeats 1000000 in

theorem run_mid4 (c : Dev nD) (i : grid4.Coords) (arg1 : Memref sig .tc .vmem S2000x1 .i32) (harg1 : arg1.IsWhole) (arg2 : Memref sig .tc .vmem S2000x512 .bf16) (harg2 : arg2.IsWhole) (arg3 : Memref sig .tc .vmem S512x256 .f32) (harg3 : arg3.IsWhole) (arg4 : Memref sig .tc .vmem S1x256 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S128x10 .f32) (harg7 : arg7.IsWhole) (arg8 : Memref sig .tc .vmem S128x512 .f32) (harg8 : arg8.IsWhole)
    (hc0 : ¬cond4_0 i) (hc1 : ¬cond4_1 i) (x0 : Vec F S2000x1 .i32) (x1 : Vec F S2000x512 .bf16) (x2 : Vec F S512x256 .f32) (x3 : Vec F S1x256 .f32) (x4 : Vec F S256x10 .f32) (x5 : Vec F S1x10 .f32)
    (xs : Vec F S128x512 .f32) (xi6 : Vec F S128x10 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xi6 ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare xi6 ∗ owns (c : Thread nD τ) arg8 fullShare (k4_pay2 x0 x1 xs)) -∗ K ⟨⟩))
      ⊢ wp frame (wpE (defs₀ (F := F)) Variants.none c none) E (cc4__pool_mlp_kernel i arg1 harg1 arg2 harg2 arg3 harg3 arg4 harg4 arg5 harg5 arg6 harg6 arg7 harg7 arg8 harg8) K := by
  simp only [cc4__pool_mlp_kernel_eq_skeleton]; unfold cc4__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr
  swap; · iexact HS0
  ipureintro
  try sl_unfold_words
  rw [View.read_writes_eq_canon _ _ _ (fun y => ⟨_, List.mem_cons_self, View.mem_set_unit_zero zeros2 inb_S128x512_S128x512_0_0 y⟩),
    View.canon_cons_unit_zero (S := S128x512) zeros2]
  simp only [View.readAt_eq_ld, harg1.read_unread, harg2.read_unread, harg8.read_unread, View.ld_unit_zero (S := S2000x1) zeros2,
    View.ld_unit_zero (S := S2000x512) zeros2, View.ld_unit_zero (S := S128x512) zeros2]

set_option maxHeartbeats 1000000 in

theorem run_last4 (c : Dev nD) (i : grid4.Coords) (arg1 : Memref sig .tc .vmem S2000x1 .i32) (harg1 : arg1.IsWhole) (arg2 : Memref sig .tc .vmem S2000x512 .bf16) (harg2 : arg2.IsWhole) (arg3 : Memref sig .tc .vmem S512x256 .f32) (harg3 : arg3.IsWhole) (arg4 : Memref sig .tc .vmem S1x256 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S128x10 .f32) (harg7 : arg7.IsWhole) (arg8 : Memref sig .tc .vmem S128x512 .f32) (harg8 : arg8.IsWhole)
    (hc0 : ¬cond4_0 i) (hc1 : cond4_1 i) (x0 : Vec F S2000x1 .i32) (x1 : Vec F S2000x512 .bf16) (x2 : Vec F S512x256 .f32) (x3 : Vec F S1x256 .f32) (x4 : Vec F S256x10 .f32) (x5 : Vec F S1x10 .f32)
    (xs : Vec F S128x512 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k4_pay3 (k4_pay2 x0 x1 xs) x2 x3 x4 x5) ∗ owns (c : Thread nD τ) arg8 fullShare (k4_pay2 x0 x1 xs)) -∗ K ⟨⟩))
      ⊢ wp frame (wpE (defs₀ (F := F)) Variants.none c none) E (cc4__pool_mlp_kernel i arg1 harg1 arg2 harg2 arg3 harg3 arg4 harg4 arg5 harg5 arg6 harg6 arg7 harg7 arg8 harg8) K := by
  simp only [cc4__pool_mlp_kernel_eq_skeleton]; unfold cc4__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    try sl_unfold_words
    rw [View.read_writes_eq_canon _ _ _ (fun y => ⟨_, List.mem_cons_self, View.mem_set_unit_zero zeros2 inb_S128x10_S128x10_0_0 y⟩),
      View.canon_cons_unit_zero (S := S128x10) zeros2]
    simp only [View.readAt_eq_ld, harg1.read_unread, harg2.read_unread, harg3.read_unread, harg4.read_unread, harg5.read_unread,
      harg6.read_unread, harg8.read_unread, View.ld_unit_zero (S := S2000x1) zeros2,
      View.ld_unit_zero (S := S2000x512) zeros2, View.ld_unit_zero (S := S128x512) zeros2, View.ld_unit_zero (S := S512x256) zeros2,
      View.ld_unit_zero (S := S1x256) zeros2, View.ld_unit_zero (S := S256x10) zeros2, View.ld_unit_zero (S := S1x10) zeros2,
      View.readCov_unit_zero (S := S128x512) _ zeros2]
  iexists _; isplitr
  swap; · iexact HS0
  ipureintro
  try sl_unfold_words
  rw [View.read_writes_eq_canon _ _ _ (fun y => ⟨_, List.mem_cons_self, View.mem_set_unit_zero zeros2 inb_S128x512_S128x512_0_0 y⟩),
    View.canon_cons_unit_zero (S := S128x512) zeros2]
  simp only [View.readAt_eq_ld, harg1.read_unread, harg2.read_unread, harg8.read_unread, View.ld_unit_zero (S := S2000x1) zeros2,
    View.ld_unit_zero (S := S2000x512) zeros2, View.ld_unit_zero (S := S128x512) zeros2]

theorem Phi4_zero (c : Dev nD) (n : ℕ) (hz : n = 0) : Phi4 V c n = Pipeline.ΦA spec4 c := by
  subst hz; rfl

theorem Phi4_succ (c : Dev nD) (n : ℕ) :
    Phi4 V c (n + 1) = iprop(iprop(owns (c : Thread nD τ) scM4 fullShare (accAt4 V c (n + 1)) ∗ Pipeline.scopedRestBut (Ix := Unit) (Name := ℕ) (U := UR sig nD τ) (Lvl := ℕ) (Val := Elt F) spec4 c [cc4_scratch0]) ∗ (∃ r, prngReg c r)) := rfl

theorem Phi4_pos (c : Dev nD) (n : ℕ) (hz : n ≠ 0) :
    Phi4 V c n = iprop(iprop(owns (c : Thread nD τ) scM4 fullShare (accAt4 V c n) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

theorem PhiA4_eq (c : Dev nD) :
    (Pipeline.ΦA spec4 c : sProp 𝕄)
      = iprop(iprop((∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

theorem out4_6_eq (c : Dev nD) :
    out4_6 V c = k4_pay3 (k4_pay2 (iblk4 V c 0 tLast4) (iblk4 V c 1 tLast4) (accAt4 V c tLast4.val))
      (iblk4 V c 2 tLast4) (iblk4 V c 3 tLast4) (iblk4 V c 4 tLast4) (iblk4 V c 5 tLast4) := by
  unfold out4_6
  show k4_pay3 (accAt4 V c (tLast4.val + 1)) _ _ _ _ = _
  rw [accAt4_succ]

-- The six input windows at once, as in the convolution regions.
theorem before4 (c : Dev nD) (t : Fin cfg4.N) : ∀ (w : Fin cfg4.W), w.val < 6 → ∀ d, (dat4 V c).before w t d = (dat4 V c).after w t
  | ⟨0, _⟩, _ | ⟨1, _⟩, _ | ⟨2, _⟩, _ | ⟨3, _⟩, _ | ⟨4, _⟩, _ | ⟨5, _⟩, _ => fun d =>
    ((dat4 V c).before_in_eq_fetched _ rfl (fun _ => rfl) (fun _ _ _ => rfl) (fun _ => rfl) t d).trans rfl
  | ⟨n + 6, _⟩, h => absurd h (Nat.not_lt.mpr (Nat.le_add_left 6 n))

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ (dat4 V c).leavesExact 6 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  have hb := before4 V c t
  simp only [hb 0 (by decide), hb 1 (by decide), hb 2 (by decide), hb 3 (by decide), hb 4 (by decide), hb 5 (by decide)]
  rw [show (dat4 V c).owesAt () t.succ = (dat4 V c).owesAt () t.castSucc from rfl]
  rw [Phi_eq4, Phi_eq4, show (t.succ : Fin (cfg4.N + 1)).val = t.val + 1 from rfl, show (t.castSucc : Fin (cfg4.N + 1)).val = t.val from rfl]
  rw [after4_0, after4_1, after4_2, after4_3, after4_4, after4_5, Phi4_succ, accAt4_succ V c t]
  have hN : t.val < 50 := lt_of_lt_of_eq t.isLt (show cfg4.N = 50 from N_4)
  by_cases h0 : t.val % 50 = 0
  ·
    have hz : t.val = 0 := by omega
    have hc0 : cond4_0 (grid4.coords t) := (hcond4_0 t).mpr h0
    have hc1 : ¬cond4_1 (grid4.coords t) := fun h => by have := (hcond4_1 t).mp h; omega
    rw [Dat.leavesExact_idle (dat4 V c) 6 t (idleAt4_6 t hc1) (noFlush4_6 t hc1)]
    rw [Phi4_zero V c _ hz, PhiA4_eq, show accAt4 V c t.val = k4_pay1 (F := F) from by rw [hz]; rfl]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run_first4 c (grid4.coords t) _ _ _ _ _ _ _ _ _ _ _ _ _ _ _ _ hc0 hc1 (iblk4 V c 0 t) (iblk4 V c 1 t) (iblk4 V c 2 t) (iblk4 V c 3 t) (iblk4 V c 4 t) (iblk4 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, HS0⟩
    isplitl [HS0 Hrest Hg]
    · isplitl [HS0 Hrest]
      · isplitl [HS0]; · iexact HS0
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := by omega
    have hc0 : ¬cond4_0 (grid4.coords t) := fun h => h0 ((hcond4_0 t).mp h)
    by_cases h1 : t.val % 50 = 49
    ·
      have hc1 : cond4_1 (grid4.coords t) := (hcond4_1 t).mpr h1
      rw [show (dat4 V c).leavesExact 6 t = owns (c : Thread nD τ) (st4_6 t) fullShare ((dat4 V c).after 6 t) from by
        unfold Dat.leavesExact; rw [liveAt4_6 t hc1], after4_6]
      obtain rfl : t = tLast4 := Fin.ext (by show t.val = 49; omega)
      rw [out4_6_eq, Phi4_pos V c _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run_last4 c (grid4.coords tLast4) _ _ _ _ _ _ _ _ _ _ _ _ _ _ _ _ hc0 hc1 (iblk4 V c 0 tLast4) (iblk4 V c 1 tLast4) (iblk4 V c 2 tLast4) (iblk4 V c 3 tLast4) (iblk4 V c 4 tLast4) (iblk4 V c 5 tLast4) (accAt4 V c tLast4.val) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, H6, HS0⟩
      isplitl [HS0 Hrest Hg]
      · isplitl [HS0 Hrest]
        · isplitl [HS0]; · iexact HS0
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    ·
      have hc1 : ¬cond4_1 (grid4.coords t) := fun h => h1 ((hcond4_1 t).mp h)
      rw [Dat.leavesExact_idle (dat4 V c) 6 t (idleAt4_6 t hc1) (noFlush4_6 t hc1)]
      rw [Phi4_pos V c _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run_mid4 c (grid4.coords t) _ _ _ _ _ _ _ _ _ _ _ _ _ _ _ _ hc0 hc1 (iblk4 V c 0 t) (iblk4 V c 1 t) (iblk4 V c 2 t) (iblk4 V c 3 t) (iblk4 V c 4 t) (iblk4 V c 5 t) (accAt4 V c t.val) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [HS0 Hrest Hg]
      · isplitl [HS0 Hrest]
        · isplitl [HS0]; · iexact HS0
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation4 (c : Dev nD) : BodyObligation (dat4 (F := F) V c) (defs₀ (F := F)) Variants.none () Set.univ := fun t => by
  rw [bigSep_W4, bigSep_W4]
  exact sound_body4 V c t

theorem flushed_eq4_6 (c : Dev nD) (t : Fin cfg4.N) (hf : (cfg4.win 6).flush t = true) :
    (dat4 V c).flushed 6 t = ((cfg4.win 6).blk t).view.read (Elt F) (out4_6 V c) := by
  have hN : t.val < 50 := lt_of_lt_of_eq t.isLt (show cfg4.N = 50 from N_4)
  have h1 : t.val = 49 := by have := (flush4_6 t).mp hf; omega
  obtain rfl : t = tLast4 := Fin.ext h1
  show (cfg4.win 6).cut (grid4.coords tLast4) ((dat4 V c).after 6 tLast4) = _
  rw [after4_6]
  have hz' : (fun a => win4_6.index tLast4 a * main_v125.ty.shape.size a) = fun _ => 0 := funext fun a => by fin_cases a <;> decide +kernel
  exact (Memref.read_access_unit_zero (Elt F) main_v125 hz' (fun a => by rw [congrFun hz' a]; simp) (out4_6 V c)).symm

theorem arr4_6 (c : Dev nD) : (dat4 V c).arrAt 6 cfg4.N = out4_6 V c :=
  (dat4 V c).arrAt_eq_of_cover 6 (out4_6 V c) (flushed_eq4_6 V c) fun i =>
    ⟨tLast4, (flush4_6 tLast4).mpr rfl, by
      show i ∈ ((View.whole main_v125).slice (win4_6.rect tLast4)).set
      rw [View.set_slice_whole, Rect.mem_set_unit]
      intro a
      have h0 : (i 0 : Nat) < 128 := (i 0).isLt
      have h1 : (i 1 : Nat) < 10 := (i 1).isLt
      match a with
      | ⟨0, _⟩ => show win4_6.index tLast4 0 * win4_6.size 0 ≤ (i 0 : Nat) ∧ (i 0 : Nat) < win4_6.index tLast4 0 * win4_6.size 0 + win4_6.xsize (grid4.coords tLast4) 0
                  rw [show win4_6.index tLast4 0 * win4_6.size 0 = 0 from by decide +kernel, show win4_6.xsize (grid4.coords tLast4) 0 = 128 from by decide +kernel]; omega
      | ⟨1, _⟩ => show win4_6.index tLast4 1 * win4_6.size 1 ≤ (i 1 : Nat) ∧ (i 1 : Nat) < win4_6.index tLast4 1 * win4_6.size 1 + win4_6.xsize (grid4.coords tLast4) 1
                  rw [show win4_6.index tLast4 1 * win4_6.size 1 = 0 from by decide +kernel, show win4_6.xsize (grid4.coords tLast4) 1 = 10 from by decide +kernel]; omega⟩

end Cert.KernelIdeal.Hand

end
-- ==== Proof.KI.Fold.lean ====
import proofs.«403111_j50835232915932_1_alg».proof.Proof.KI.Conv0
import proofs.«403111_j50835232915932_1_alg».proof.Proof.KI.Conv1
import proofs.«403111_j50835232915932_1_alg».proof.Proof.KI.Conv2
import proofs.«403111_j50835232915932_1_alg».proof.Proof.KI.Conv3
import proofs.«403111_j50835232915932_1_alg».proof.Proof.KI.Pool
import proofs.«403111_j50835232915932_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (⟨m, fun _ => 0, ρ⟩ : MemSt nD τ sig (Elt F)).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
-- A region changes only its output arrays.
theorem W2_rest (c : Dev nD) (b : Ref sig .tc) (hb : ∀ w, Pipeline.arrRef spec0 w = b → (cfg0.win w).isOut = false) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (hb w rfl) _).trans (A_eq0 (V1 m ρ) c w))
  · exact W2_of_ne m ρ c b fun w e => h ⟨w, e⟩

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_rest (c : Dev nD) (b : Ref sig .tc) (hb : ∀ w, Pipeline.arrRef spec1 w = b → (cfg1.win w).isOut = false) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (hb w rfl) _).trans (A_eq1 (V3 m ρ) c w))
  · exact W4_of_ne m ρ c b fun w e => h ⟨w, e⟩

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_rest (c : Dev nD) (b : Ref sig .tc) (hb : ∀ w, Pipeline.arrRef spec2 w = b → (cfg2.win w).isOut = false) :
    W6 m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w (hb w rfl) _).trans (A_eq2 (V5 m ρ) c w))
  · exact W6_of_ne m ρ c b fun w e => h ⟨w, e⟩

abbrev V6 : (c : Dev nD) → (b : Ref sig .tc) → Buf (Elt F) ((c : Thread nD τ).loc b) := fun c b => W6 m ρ c b

theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
theorem W8_rest (c : Dev nD) (b : Ref sig .tc) (hb : ∀ w, Pipeline.arrRef spec3 w = b → (cfg3.win w).isOut = false) :
    W8 m ρ c (Proc.devRef .tc b) = W7 m ρ c (Proc.devRef .tc b) := by
  by_cases h : ∃ w, Pipeline.arrRef spec3 w = b
  · obtain ⟨w, rfl⟩ := h
    exact (W8_arr m ρ c w).trans (((dat3 (V7 m ρ) c).arrAt_in w (hb w rfl) _).trans (A_eq3 (V7 m ρ) c w))
  · exact W8_of_ne m ρ c b fun w e => h ⟨w, e⟩

abbrev V8 : (c : Dev nD) → (b : Ref sig .tc) → Buf (Elt F) ((c : Thread nD τ).loc b) := fun c b => W8 m ρ c b

theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

abbrev W9 : Dev nD → Valuation τ sig (Elt F) := fun c => StableHlo.after hostOps4 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
theorem W10_rest (c : Dev nD) (b : Ref sig .tc) (hb : ∀ w, Pipeline.arrRef spec4 w = b → (cfg4.win w).isOut = false) :
    W10 m ρ c (Proc.devRef .tc b) = W9 m ρ c (Proc.devRef .tc b) := by
  by_cases h : ∃ w, Pipeline.arrRef spec4 w = b
  · obtain ⟨w, rfl⟩ := h
    exact (W10_arr m ρ c w).trans (((dat4 (V9 m ρ) c).arrAt_in w (hb w rfl) _).trans (A_eq4 (V9 m ρ) c w))
  · exact W10_of_ne m ρ c b fun w e => h ⟨w, e⟩

abbrev V10 : (c : Dev nD) → (b : Ref sig .tc) → Buf (Elt F) ((c : Thread nD τ).loc b) := fun c b => W10 m ρ c b

theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

abbrev W11 : Dev nD → Valuation τ sig (Elt F) := fun c => StableHlo.after hostOps5 (W10 m ρ c)
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h

-- So a buffer that no host stretch writes and no region has as an output ends as launched.
theorem W11_rest (c : Dev nD) (b : Ref sig .tc)
    (h : b ∉ hostOps0_W ∧ b ∉ hostOps1_W ∧ b ∉ hostOps2_W ∧ b ∉ hostOps3_W ∧ b ∉ hostOps4_W ∧ b ∉ hostOps5_W
      ∧ (∀ w, Pipeline.arrRef spec0 w = b → (cfg0.win w).isOut = false)
      ∧ (∀ w, Pipeline.arrRef spec1 w = b → (cfg1.win w).isOut = false)
      ∧ (∀ w, Pipeline.arrRef spec2 w = b → (cfg2.win w).isOut = false)
      ∧ (∀ w, Pipeline.arrRef spec3 w = b → (cfg3.win w).isOut = false)
      ∧ (∀ w, Pipeline.arrRef spec4 w = b → (cfg4.win w).isOut = false)) :
    W11 m ρ c (Proc.devRef .tc b) = m ((c : Thread nD τ).loc b) :=
  have ⟨h0, h1, h2, h3, h4, h5, k0, k1, k2, k3, k4⟩ := h
  (W11_of m ρ c b h5).trans <| (W10_rest m ρ c b k4).trans <| (W9_of m ρ c b h4).trans <| (W8_rest m ρ c b k3).trans <|
    (W7_of m ρ c b h3).trans <| (W6_rest m ρ c b k2).trans <| (W5_of m ρ c b h2).trans <| (W4_rest m ρ c b k1).trans <|
    (W3_of m ρ c b h1).trans <| (W2_rest m ρ c b k0).trans <| W1_of m ρ c b h0

theorem W11_main_arg0 (c : Dev nD) : W11 m ρ c (Proc.devRef .tc main_arg0) = m ((c : Thread nD τ).loc main_arg0) :=
  W11_rest m ρ c main_arg0 (by decide)
theorem W11_main_arg1 (c : Dev nD) : W11 m ρ c (Proc.devRef .tc main_arg1) = m ((c : Thread nD τ).loc main_arg1) :=
  W11_rest m ρ c main_arg1 (by decide)
theorem W11_main_arg2 (c : Dev nD) : W11 m ρ c (Proc.devRef .tc main_arg2) = m ((c : Thread nD τ).loc main_arg2) :=
  W11_rest m ρ c main_arg2 (by decide)
theorem W11_main_arg3 (c : Dev nD) : W11 m ρ c (Proc.devRef .tc main_arg3) = m ((c : Thread nD τ).loc main_arg3) :=
  W11_rest m ρ c main_arg3 (by decide)
theorem W11_main_arg4 (c : Dev nD) : W11 m ρ c (Proc.devRef .tc main_arg4) = m ((c : Thread nD τ).loc main_arg4) :=
  W11_rest m ρ c main_arg4 (by decide)
theorem W11_main_arg5 (c : Dev nD) : W11 m ρ c (Proc.devRef .tc main_arg5) = m ((c : Thread nD τ).loc main_arg5) :=
  W11_rest m ρ c main_arg5 (by decide)
theorem W11_main_arg6 (c : Dev nD) : W11 m ρ c (Proc.devRef .tc main_arg6) = m ((c : Thread nD τ).loc main_arg6) :=
  W11_rest m ρ c main_arg6 (by decide)
theorem W11_main_arg7 (c : Dev nD) : W11 m ρ c (Proc.devRef .tc main_arg7) = m ((c : Thread nD τ).loc main_arg7) :=
  W11_rest m ρ c main_arg7 (by decide)
theorem W11_main_arg8 (c : Dev nD) : W11 m ρ c (Proc.devRef .tc main_arg8) = m ((c : Thread nD τ).loc main_arg8) :=
  W11_rest m ρ c main_arg8 (by decide)
theorem W11_main_arg9 (c : Dev nD) : W11 m ρ c (Proc.devRef .tc main_arg9) = m ((c : Thread nD τ).loc main_arg9) :=
  W11_rest m ρ c main_arg9 (by decide)
theorem W11_main_arg10 (c : Dev nD) : W11 m ρ c (Proc.devRef .tc main_arg10) = m ((c : Thread nD τ).loc main_arg10) :=
  W11_rest m ρ c main_arg10 (by decide)
theorem W11_main_arg11 (c : Dev nD) : W11 m ρ c (Proc.devRef .tc main_arg11) = m ((c : Thread nD τ).loc main_arg11) :=
  W11_rest m ρ c main_arg11 (by decide)
theorem W11_main_arg12 (c : Dev nD) : W11 m ρ c (Proc.devRef .tc main_arg12) = m ((c : Thread nD τ).loc main_arg12) :=
  W11_rest m ρ c main_arg12 (by decide)
theorem W11_main_arg13 (c : Dev nD) : W11 m ρ c (Proc.devRef .tc main_arg13) = m ((c : Thread nD τ).loc main_arg13) :=
  W11_rest m ρ c main_arg13 (by decide)

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W11 m ρ c) ∗ ∃ r, prngReg c r)

end Cert.KernelIdeal.Hand

end
-- ==== Proof.KI.Seg0.lean ====
import proofs.«403111_j50835232915932_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
import proofs.«403111_j50835232915932_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
import proofs.«403111_j50835232915932_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
import proofs.«403111_j50835232915932_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
import proofs.«403111_j50835232915932_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    show iprop(iprop(owns (c : Thread nD τ) scM4 fullShare (accAt4 (V9 m ρ) c 50)
          ∗ Pipeline.scopedRestBut (Ix := Unit) (Name := ℕ) (U := UR sig nD τ) (Lvl := ℕ) (Val := Elt F) spec4 c [cc4_scratch0])
        ∗ (∃ r, prngReg c r))
      ⊢ iprop((∃ r, prngReg c r) ∗ emp
        ∗ Pipeline.scopedRest (Ix := Unit) (Name := ℕ) (U := UR sig nD τ) (Lvl := ℕ) (Val := Elt F) spec4 c)
    rw [scopedRest4_split (Ix := Unit) (Val := Elt F) (Name := ℕ) (U := UR sig nD τ) (Lvl := ℕ) c, owns_whole]
    iintro ⟨⟨Hacc, Hrest⟩, Hp⟩
    isplitl [Hp]; · iexact Hp
    isplitr; · iempintro
    isplitl [Hacc]
    · iexists _; iexact Hacc
    iexact Hrest
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
import proofs.«403111_j50835232915932_1_alg».proof.Proof.KI.Seg0
import proofs.«403111_j50835232915932_1_alg».proof.Proof.KI.Seg1
import proofs.«403111_j50835232915932_1_alg».proof.Proof.KI.Seg2
import proofs.«403111_j50835232915932_1_alg».proof.Proof.KI.Seg3
import proofs.«403111_j50835232915932_1_alg».proof.Proof.KI.Seg4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]

theorem main_run (c : Dev nD) : main (F := F) c = Pipeline.Seg.run (segs m ρ) := by
  rw [main_chain c, Pipeline.Seg.run_eq_chain]
  rfl

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem ((c : Thread nD τ).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h => h)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c),
     (h c _ (mem_uc main_arg13 (by decide))).trans (W11_main_arg13 m ρ c)⟩) (run_all m ρ)

theorem run_res : θ_run defs (onTc (τ := τ) (main (F := F))) ⟨m, fun _ => 0, ρ⟩ (fun r => ∀ c : Dev nD,
      r.2.mem ((c.tc : Thread nD τ).loc main_v125) = W11 m ρ c (Proc.devRef .tc main_v125)
      ∧ r.2.mem ((c.tc : Thread nD τ).loc main_v126) = W11 m ρ c (Proc.devRef .tc main_v126)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (mem_uc main_v125 (by decide)), h c _ (mem_uc main_v126 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c),
     (h c _ (mem_uc main_arg13 (by decide))).trans (W11_main_arg13 m ρ c)⟩) (run_all m ρ)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev SNxC : Shape := ⟨2, ![100000, 128]⟩
abbrev S2xE : Shape := ⟨2, ![2, 1600000]⟩
abbrev SE : Shape := ⟨1, ![1600000]⟩
abbrev SN : Shape := ⟨1, ![100000]⟩
abbrev S4xCxC : Shape := ⟨3, ![4, 128, 128]⟩
abbrev S4xC : Shape := ⟨2, ![4, 128]⟩
abbrev SCxC : Shape := ⟨2, ![128, 128]⟩
abbrev SC : Shape := ⟨1, ![128]⟩
abbrev S4CxH : Shape := ⟨2, ![512, 256]⟩
abbrev SH : Shape := ⟨1, ![256]⟩
abbrev SHxO : Shape := ⟨2, ![256, 10]⟩
abbrev SO : Shape := ⟨1, ![10]⟩
abbrev SGx4C : Shape := ⟨2, ![128, 512]⟩
abbrev SGxH : Shape := ⟨2, ![128, 256]⟩
abbrev SGxO : Shape := ⟨2, ![128, 10]⟩

def eps : Ideal .f32 := Scalar.ofBits (F := Ideal) .f32 0x3727C5AC#32

def convAt (h a : SNxC.Idx → EReal) (W : SCxC.Idx → EReal) (b γ β μ v : SC.Idx → EReal)
    (r : Fin 100000) (j : Fin 128) : EReal :=
  max (((((∑ k : Fin 128, (h (ix2 r k) + a (ix2 r k)) * W (ix2 k j)) + b (ix1 j)) - μ (ix1 j))
      * Ideal.rsqrt (v (ix1 j) + eps)) * γ (ix1 j) + β (ix1 j)) 0

def conv (h a : SNxC.Idx → EReal) (W : SCxC.Idx → EReal) (b γ β μ v : SC.Idx → EReal) : SNxC.Idx → EReal :=
  fun i => convAt h a W b γ β μ v (i 0) (i 1)

def poolAt (batch : SN.Idx → BitVec 32) (h : SNxC.Idx → EReal) (g : Fin 128) (j : Fin 128) : EReal :=
  ∑ n : Fin 100000, if batch (ix1 n) = BitVec.ofNat 32 g.val then h (ix2 n j) else 0

def pooledAt (batch : SN.Idx → BitVec 32) (hs : Fin 4 → SNxC.Idx → EReal) (g : Fin 128) (f : Fin 512) : EReal :=
  poolAt batch (hs ⟨f.val / 128, by omega⟩) g ⟨f.val % 128, Nat.mod_lt _ (by decide)⟩

def hiddenAt (p : SGx4C.Idx → EReal) (W1 : S4CxH.Idx → EReal) (b1 : SH.Idx → EReal) (g : Fin 128) (u : Fin 256) : EReal :=
  max ((∑ k : Fin 512, p (ix2 g k) * W1 (ix2 k u)) + b1 (ix1 u)) 0

def logitsAt (z : SGxH.Idx → EReal) (W2 : SHxO.Idx → EReal) (b2 : SO.Idx → EReal) (g : Fin 128) (o : Fin 10) : EReal :=
  (∑ k : Fin 256, z (ix2 g k) * W2 (ix2 k o)) + b2 (ix1 o)

structure Inputs where
  x : SNxC.Idx → EReal
  ex : S2xE.Idx → BitVec 32
  ey : S2xE.Idx → BitVec 32
  batch : SN.Idx → BitVec 32
  convW : S4xCxC.Idx → EReal
  convB : S4xC.Idx → EReal
  gamma : S4xC.Idx → EReal
  beta : S4xC.Idx → EReal
  mean : S4xC.Idx → EReal
  var : S4xC.Idx → EReal
  lin1W : S4CxH.Idx → EReal
  lin1b : SH.Idx → EReal
  lin2W : SHxO.Idx → EReal
  lin2b : SO.Idx → EReal

def edgeRow (e : S2xE.Idx → BitVec 32) (i : Fin 2) : SE.Idx → BitVec 32 := fun k => e (ix2 i (k 0))

variable (agg : (SNxC.Idx → EReal) → (SE.Idx → BitVec 32) → (SE.Idx → BitVec 32) → (SNxC.Idx → EReal))

def layer (I : Inputs) (i : Fin 4) (h : SNxC.Idx → EReal) (e : S2xE.Idx → BitVec 32) : SNxC.Idx → EReal :=
  conv h (agg h (edgeRow e 0) (edgeRow e 1)) (fun kj => I.convW (ix3 i (kj 0) (kj 1)))
    (fun j => I.convB (ix2 i (j 0))) (fun j => I.gamma (ix2 i (j 0))) (fun j => I.beta (ix2 i (j 0)))
    (fun j => I.mean (ix2 i (j 0))) (fun j => I.var (ix2 i (j 0)))

def h1x (I : Inputs) : SNxC.Idx → EReal := layer agg I 0 I.x I.ex
def h2x (I : Inputs) : SNxC.Idx → EReal := layer agg I 1 (h1x agg I) I.ex
def h1y (I : Inputs) : SNxC.Idx → EReal := layer agg I 2 I.x I.ey
def h2y (I : Inputs) : SNxC.Idx → EReal := layer agg I 3 (h1y agg I) I.ey

def feats (I : Inputs) : Fin 4 → SNxC.Idx → EReal := ![h1x agg I, h2x agg I, h1y agg I, h2y agg I]

def pooled (I : Inputs) : SGx4C.Idx → EReal := fun i => pooledAt I.batch (feats agg I) (i 0) (i 1)
def hidden (I : Inputs) : SGxH.Idx → EReal := fun i => hiddenAt (pooled agg I) I.lin1W I.lin1b (i 0) (i 1)

def logits (I : Inputs) : SGxO.Idx → EReal := fun i => logitsAt (hidden agg I) I.lin2W I.lin2b (i 0) (i 1)

end Cert.Spec

end
-- ==== Proof.KI.ValDefs.lean ====
import proofs.«403111_j50835232915932_1_alg».proof.Proof.Gen.KernelIdeal
import proofs.«403111_j50835232915932_1_alg».proof.Proof.Spec

set_option maxRecDepth 16384

noncomputable section

namespace Cert.KernelIdeal.Hand

open Idealize.ShloMosaic Idealize.ShloMosaic.TcCoe
open Cert.KernelIdeal Cert.KernelIdeal.Gen Idealize.ShloMosaic.ValueIdx

def inputsK (m : (ℓ : Loc nD τ sig) → Buf (Elt Ideal) ℓ) (c : Dev nD) : Cert.Spec.Inputs where
  x := m ((c.tc : Thread nD τ).loc main_arg0)
  ex := m ((c.tc : Thread nD τ).loc main_arg1)
  ey := m ((c.tc : Thread nD τ).loc main_arg2)
  batch := m ((c.tc : Thread nD τ).loc main_arg3)
  convW := m ((c.tc : Thread nD τ).loc main_arg4)
  convB := m ((c.tc : Thread nD τ).loc main_arg5)
  gamma := m ((c.tc : Thread nD τ).loc main_arg6)
  beta := m ((c.tc : Thread nD τ).loc main_arg7)
  mean := m ((c.tc : Thread nD τ).loc main_arg8)
  var := m ((c.tc : Thread nD τ).loc main_arg9)
  lin1W := m ((c.tc : Thread nD τ).loc main_arg10)
  lin1b := m ((c.tc : Thread nD τ).loc main_arg11)
  lin2W := m ((c.tc : Thread nD τ).loc main_arg12)
  lin2b := m ((c.tc : Thread nD τ).loc main_arg13)

def aggK (h : Cert.Spec.SNxC.Idx → EReal) (src dst : Cert.Spec.SE.Idx → BitVec 32) : Cert.Spec.SNxC.Idx → EReal :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

def lsmK (z : FVec Ideal S128x10 .f32) : FVec Ideal S128x10 .f32 :=
  subf
    (subf z (broadcastInDim S128x10 ![0, 1] bcast_S128x1_S128x10_0_1 (broadcastInDim S128x1 ![0] bcast_S128_S128x1_0
      (maximumf (broadcastInDim S128 ![] bcast_S_S128 (constant (F := Ideal) S_ .f32 0xFF800000#32))
        (Host.reduce FloatOps.maximumf z (constant (F := Ideal) S_ .f32 0xFF800000#32) reducesTo_S128x10_S128_d1 h_S_)))))
    (broadcastInDim S128x10 ![0, 1] bcast_S128x1_S128x10_0_1 (Host.log (broadcastInDim S128x1 ![0] bcast_S128_S128x1_0
      (Host.reduceAdd (Host.exp
        (subf z (broadcastInDim S128x10 ![0, 1] bcast_S128x1_S128x10_0_1 (broadcastInDim S128x1 ![0] bcast_S128_S128x1_0
          (maximumf (broadcastInDim S128 ![] bcast_S_S128 (constant (F := Ideal) S_ .f32 0xFF800000#32))
            (Host.reduce FloatOps.maximumf z (constant (F := Ideal) S_ .f32 0xFF800000#32) reducesTo_S128x10_S128_d1 h_S_))))))
        (constant (F := Ideal) S_ .f32 0x00000000#32) reducesTo_S128x10_S128_d1 h_S_))))

end Cert.KernelIdeal.Hand

end
-- ==== Proof.KI.ValHost0.lean ====
import proofs.«403111_j50835232915932_1_alg».proof.Proof.Gen.KernelIdeal.Launch
import proofs.«403111_j50835232915932_1_alg».proof.Proof.Gen.KernelIdeal.Regions
import proofs.«403111_j50835232915932_1_alg».proof.Proof.Spec
import proofs.«403111_j50835232915932_1_alg».proof.Proof.KI.ValDefs
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe
open Cert.KernelIdeal Cert.KernelIdeal.Gen Idealize.ShloMosaic.ValueIdx

section Layout
variable {α : Type}

theorem stackRow_apply {n a b : ℕ} (o : ℕ) (r : Fin n) (hr : r.val = o) (X : (⟨3, ![n, a, b]⟩ : Shape).Idx → α)
    (h : (⟨3, ![n, a, b]⟩ : Shape).Slices ![o, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![o, 0, 0] X h) hc (ix2 i j) = X (ix3 r i j) := by
  rw [shapeCast_1ab_ab_apply]
  exact extractStridedSlice_apply _ _ _ _ _ (fun ax => by
    match ax with
    | ⟨0, _⟩ => exact hr.trans (Nat.add_zero _).symm
    | ⟨1, _⟩ => exact (Nat.zero_add _).symm
    | ⟨2, _⟩ => exact (Nat.zero_add _).symm)

theorem matRow_apply {n a : ℕ} (o : ℕ) (r : Fin n) (hr : r.val = o) (X : (⟨2, ![n, a]⟩ : Shape).Idx → α)
    (h : (⟨2, ![n, a]⟩ : Shape).Slices ![o, 0] ⟨2, ![1, a]⟩)
    (hc : (⟨2, ![1, a]⟩ : Shape).ShapeCasts ⟨1, ![a]⟩) (j : Fin a) :
    shapeCast ⟨1, ![a]⟩ (extractStridedSlice ⟨2, ![1, a]⟩ ![o, 0] X h) hc (ix1 j) = X (ix2 r j) := by
  rw [shapeCast_1a_a_apply]
  exact extractStridedSlice_apply _ _ _ _ _ (fun ax => by
    match ax with
    | ⟨0, _⟩ => exact hr.trans (Nat.add_zero _).symm
    | ⟨1, _⟩ => exact (Nat.zero_add _).symm)

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

def rowK (o : ℕ) (h : S2x1600000.Slices ![o, 0] S1x1600000) (e : S2x1600000.Idx → BitVec 32) : S1600000.Idx → BitVec 32 :=
  shapeCast S1600000 (extractStridedSlice S1x1600000 ![o, 0] e h) shapeCasts_S1x1600000_S1600000

theorem rowK_eq (o : ℕ) (r : Fin 2) (hr : r.val = o) (h : S2x1600000.Slices ![o, 0] S1x1600000) (e : S2x1600000.Idx → BitVec 32) :
    rowK o h e = Cert.Spec.edgeRow e r := by
  funext k
  rw [eq_ix1 k]
  exact matRow_apply o r hr _ _ _ _

section Host0
variable (W : Valuation τ sig (Elt Ideal))

theorem host0_of (r : Ref sig .tc) (h : r ∉ (hostOps0_W : List (Ref sig .tc))) :
    StableHlo.after hostOps0 W (Proc.devRef .tc r) = W (Proc.devRef .tc r) :=
  StableHlo.after_of_writes_sub hostOps0 W hostOps0_writes h

theorem host0_v9 : (StableHlo.after hostOps0 W (Proc.devRef .tc main_v9) : S128x128.Idx → EReal)
      = fun kj => (W (Proc.devRef .tc main_arg4) : S4x128x128.Idx → EReal) (ix3 0 (kj 0) (kj 1)) := by
  after_results
  funext kj
  show shapeCast S128x128 _ _ kj = _
  rw [eq_ix2 kj]
  exact stackRow_apply 0 0 rfl _ _ _ _ _

theorem host0_v1 : (StableHlo.after hostOps0 W (Proc.devRef .tc main_v1) : S1600000.Idx → BitVec 32)
      = Cert.Spec.edgeRow (W (Proc.devRef .tc main_arg1)) 0 := by
  after_results
  funext k
  show shapeCast S1600000 _ _ k = _
  rw [eq_ix1 k]
  exact matRow_apply 0 0 rfl _ _ _ _

theorem host0_v3 : (StableHlo.after hostOps0 W (Proc.devRef .tc main_v3) : S1600000.Idx → BitVec 32)
      = Cert.Spec.edgeRow (W (Proc.devRef .tc main_arg1)) 1 := by
  after_results
  funext k
  show shapeCast S1600000 _ _ k = _
  rw [eq_ix1 k]
  exact matRow_apply 1 1 rfl _ _ _ _

theorem host0_v5 : (StableHlo.after hostOps0 W (Proc.devRef .tc main_v5) : S1600000.Idx → BitVec 32)
      = Cert.Spec.edgeRow (W (Proc.devRef .tc main_arg2)) 0 := by
  after_results
  funext k
  show shapeCast S1600000 _ _ k = _
  rw [eq_ix1 k]
  exact matRow_apply 0 0 rfl _ _ _ _

theorem host0_v7 : (StableHlo.after hostOps0 W (Proc.devRef .tc main_v7) : S1600000.Idx → BitVec 32)
      = Cert.Spec.edgeRow (W (Proc.devRef .tc main_arg2)) 1 := by
  after_results
  funext k
  show shapeCast S1600000 _ _ k = _
  rw [eq_ix1 k]
  exact matRow_apply 1 1 rfl _ _ _ _

set_option maxHeartbeats 1000000 in
theorem host0_v29 : (StableHlo.after hostOps0 W (Proc.devRef .tc main_v29) : S100000x128.Idx → EReal)
      = aggK (W (Proc.devRef .tc main_arg0)) (Cert.Spec.edgeRow (W (Proc.devRef .tc main_arg1)) 0)
          (Cert.Spec.edgeRow (W (Proc.devRef .tc main_arg1)) 1) := by
  rw [← rowK_eq 0 0 rfl slices_S2x1600000_S1x1600000_0_0, ← rowK_eq 1 1 rfl slices_S2x1600000_S1x1600000_1_0]
  unfold aggK rowK
  after_results
  rfl

theorem host0_v30 (j : Fin 128) : (StableHlo.after hostOps0 W (Proc.devRef .tc main_v30) : S1x128.Idx → EReal) (ix2 0 j)
      = (W (Proc.devRef .tc main_arg5) : S4x128.Idx → EReal) (ix2 0 j) := by
  after_results
  show shapeCast S1x128 (shapeCast S128 _ _) _ (ix2 0 j) = _
  rw [shapeCast_a_1a_apply]
  exact matRow_apply 0 0 rfl _ _ _ _

theorem host0_v31 (j : Fin 128) : (StableHlo.after hostOps0 W (Proc.devRef .tc main_v31) : S1x128.Idx → EReal) (ix2 0 j)
      = (W (Proc.devRef .tc main_arg6) : S4x128.Idx → EReal) (ix2 0 j) := by
  after_results
  show shapeCast S1x128 (shapeCast S128 _ _) _ (ix2 0 j) = _
  rw [shapeCast_a_1a_apply]
  exact matRow_apply 0 0 rfl _ _ _ _

theorem host0_v32 (j : Fin 128) : (StableHlo.after hostOps0 W (Proc.devRef .tc main_v32) : S1x128.Idx → EReal) (ix2 0 j)
      = (W (Proc.devRef .tc main_arg7) : S4x128.Idx → EReal) (ix2 0 j) := by
  after_results
  show shapeCast S1x128 (shapeCast S128 _ _) _ (ix2 0 j) = _
  rw [shapeCast_a_1a_apply]
  exact matRow_apply 0 0 rfl _ _ _ _

theorem host0_v33 (j : Fin 128) : (StableHlo.after hostOps0 W (Proc.devRef .tc main_v33) : S1x128.Idx → EReal) (ix2 0 j)
      = (W (Proc.devRef .tc main_arg8) : S4x128.Idx → EReal) (ix2 0 j) := by
  after_results
  show shapeCast S1x128 (shapeCast S128 _ _) _ (ix2 0 j) = _
  rw [shapeCast_a_1a_apply]
  exact matRow_apply 0 0 rfl _ _ _ _

theorem host0_v34 (j : Fin 128) : (StableHlo.after hostOps0 W (Proc.devRef .tc main_v34) : S1x128.Idx → EReal) (ix2 0 j)
      = (W (Proc.devRef .tc main_arg9) : S4x128.Idx → EReal) (ix2 0 j) := by
  after_results
  show shapeCast S1x128 (shapeCast S128 _ _) _ (ix2 0 j) = _
  rw [shapeCast_a_1a_apply]
  exact matRow_apply 0 0 rfl _ _ _ _

end Host0

end Cert.KernelIdeal.Hand

end
-- ==== Proof.KI.ValHost1.lean ====
import proofs.«403111_j50835232915932_1_alg».proof.Proof.KI.ValHost0

set_option maxRecDepth 16384

noncomputable section

namespace Cert.KernelIdeal.Hand

open Idealize.ShloMosaic Idealize.ShloMosaic.TcCoe
open Cert.KernelIdeal Cert.KernelIdeal.Gen Idealize.ShloMosaic.ValueIdx

section Host1
variable (W : Valuation τ sig (Elt Ideal))

theorem host1_of (r : Ref sig .tc) (h : r ∉ (hostOps1_W : List (Ref sig .tc))) :
    StableHlo.after hostOps1 W (Proc.devRef .tc r) = W (Proc.devRef .tc r) :=
  StableHlo.after_of_writes_sub hostOps1 W hostOps1_writes h

theorem host1_v37 : (StableHlo.after hostOps1 W (Proc.devRef .tc main_v37) : S128x128.Idx → EReal)
      = fun kj => (W (Proc.devRef .tc main_arg4) : S4x128x128.Idx → EReal) (ix3 1 (kj 0) (kj 1)) := by
  after_results
  funext kj
  show shapeCast S128x128 _ _ kj = _
  rw [eq_ix2 kj]
  exact stackRow_apply 1 1 rfl _ _ _ _ _

set_option maxHeartbeats 1000000 in
theorem host1_v57 : (StableHlo.after hostOps1 W (Proc.devRef .tc main_v57) : S100000x128.Idx → EReal)
      = aggK (W (Proc.devRef .tc main_v35)) (W (Proc.devRef .tc main_v1)) (W (Proc.devRef .tc main_v3)) := by
  unfold aggK
  after_results

theorem host1_v58 (j : Fin 128) : (StableHlo.after hostOps1 W (Proc.devRef .tc main_v58) : S1x128.Idx → EReal) (ix2 0 j)
      = (W (Proc.devRef .tc main_arg5) : S4x128.Idx → EReal) (ix2 1 j) := by
  after_results
  show shapeCast S1x128 (shapeCast S128 _ _) _ (ix2 0 j) = _
  rw [shapeCast_a_1a_apply]
  exact matRow_apply 1 1 rfl _ _ _ _

theorem host1_v59 (j : Fin 128) : (StableHlo.after hostOps1 W (Proc.devRef .tc main_v59) : S1x128.Idx → EReal) (ix2 0 j)
      = (W (Proc.devRef .tc main_arg6) : S4x128.Idx → EReal) (ix2 1 j) := by
  after_results
  show shapeCast S1x128 (shapeCast S128 _ _) _ (ix2 0 j) = _
  rw [shapeCast_a_1a_apply]
  exact matRow_apply 1 1 rfl _ _ _ _

theorem host1_v60 (j : Fin 128) : (StableHlo.after hostOps1 W (Proc.devRef .tc main_v60) : S1x128.Idx → EReal) (ix2 0 j)
      = (W (Proc.devRef .tc main_arg7) : S4x128.Idx → EReal) (ix2 1 j) := by
  after_results
  show shapeCast S1x128 (shapeCast S128 _ _) _ (ix2 0 j) = _
  rw [shapeCast_a_1a_apply]
  exact matRow_apply 1 1 rfl _ _ _ _

theorem host1_v61 (j : Fin 128) : (StableHlo.after hostOps1 W (Proc.devRef .tc main_v61) : S1x128.Idx → EReal) (ix2 0 j)
      = (W (Proc.devRef .tc main_arg8) : S4x128.Idx → EReal) (ix2 1 j) := by
  after_results
  show shapeCast S1x128 (shapeCast S128 _ _) _ (ix2 0 j) = _
  rw [shapeCast_a_1a_apply]
  exact matRow_apply 1 1 rfl _ _ _ _

theorem host1_v62 (j : Fin 128) : (StableHlo.after hostOps1 W (Proc.devRef .tc main_v62) : S1x128.Idx → EReal) (ix2 0 j)
      = (W (Proc.devRef .tc main_arg9) : S4x128.Idx → EReal) (ix2 1 j) := by
  after_results
  show shapeCast S1x128 (shapeCast S128 _ _) _ (ix2 0 j) = _
  rw [shapeCast_a_1a_apply]
  exact matRow_apply 1 1 rfl _ _ _ _

end Host1

end Cert.KernelIdeal.Hand

end
-- ==== Proof.KI.ValHost2.lean ====
import proofs.«403111_j50835232915932_1_alg».proof.Proof.KI.ValHost0

set_option maxRecDepth 16384

noncomputable section

namespace Cert.KernelIdeal.Hand

open Idealize.ShloMosaic Idealize.ShloMosaic.TcCoe
open Cert.KernelIdeal Cert.KernelIdeal.Gen Idealize.ShloMosaic.ValueIdx

section Host2
variable (W : Valuation τ sig (Elt Ideal))

theorem host2_of (r : Ref sig .tc) (h : r ∉ (hostOps2_W : List (Ref sig .tc))) :
    StableHlo.after hostOps2 W (Proc.devRef .tc r) = W (Proc.devRef .tc r) :=
  StableHlo.after_of_writes_sub hostOps2 W hostOps2_writes h

theorem host2_v65 : (StableHlo.after hostOps2 W (Proc.devRef .tc main_v65) : S128x128.Idx → EReal)
      = fun kj => (W (Proc.devRef .tc main_arg4) : S4x128x128.Idx → EReal) (ix3 2 (kj 0) (kj 1)) := by
  after_results
  funext kj
  show shapeCast S128x128 _ _ kj = _
  rw [eq_ix2 kj]
  exact stackRow_apply 2 2 rfl _ _ _ _ _

set_option maxHeartbeats 1000000 in
theorem host2_v85 : (StableHlo.after hostOps2 W (Proc.devRef .tc main_v85) : S100000x128.Idx → EReal)
      = aggK (W (Proc.devRef .tc main_arg0)) (W (Proc.devRef .tc main_v5)) (W (Proc.devRef .tc main_v7)) := by
  unfold aggK
  after_results

theorem host2_v86 (j : Fin 128) : (StableHlo.after hostOps2 W (Proc.devRef .tc main_v86) : S1x128.Idx → EReal) (ix2 0 j)
      = (W (Proc.devRef .tc main_arg5) : S4x128.Idx → EReal) (ix2 2 j) := by
  after_results
  show shapeCast S1x128 (shapeCast S128 _ _) _ (ix2 0 j) = _
  rw [shapeCast_a_1a_apply]
  exact matRow_apply 2 2 rfl _ _ _ _

theorem host2_v87 (j : Fin 128) : (StableHlo.after hostOps2 W (Proc.devRef .tc main_v87) : S1x128.Idx → EReal) (ix2 0 j)
      = (W (Proc.devRef .tc main_arg6) : S4x128.Idx → EReal) (ix2 2 j) := by
  after_results
  show shapeCast S1x128 (shapeCast S128 _ _) _ (ix2 0 j) = _
  rw [shapeCast_a_1a_apply]
  exact matRow_apply 2 2 rfl _ _ _ _

theorem host2_v88 (j : Fin 128) : (StableHlo.after hostOps2 W (Proc.devRef .tc main_v88) : S1x128.Idx → EReal) (ix2 0 j)
      = (W (Proc.devRef .tc main_arg7) : S4x128.Idx → EReal) (ix2 2 j) := by
  after_results
  show shapeCast S1x128 (shapeCast S128 _ _) _ (ix2 0 j) = _
  rw [shapeCast_a_1a_apply]
  exact matRow_apply 2 2 rfl _ _ _ _

theorem host2_v89 (j : Fin 128) : (StableHlo.after hostOps2 W (Proc.devRef .tc main_v89) : S1x128.Idx → EReal) (ix2 0 j)
      = (W (Proc.devRef .tc main_arg8) : S4x128.Idx → EReal) (ix2 2 j) := by
  after_results
  show shapeCast S1x128 (shapeCast S128 _ _) _ (ix2 0 j) = _
  rw [shapeCast_a_1a_apply]
  exact matRow_apply 2 2 rfl _ _ _ _

theorem host2_v90 (j : Fin 128) : (StableHlo.after hostOps2 W (Proc.devRef .tc main_v90) : S1x128.Idx → EReal) (ix2 0 j)
      = (W (Proc.devRef .tc main_arg9) : S4x128.Idx → EReal) (ix2 2 j) := by
  after_results
  show shapeCast S1x128 (shapeCast S128 _ _) _ (ix2 0 j) = _
  rw [shapeCast_a_1a_apply]
  exact matRow_apply 2 2 rfl _ _ _ _

end Host2

end Cert.KernelIdeal.Hand

end
-- ==== Proof.KI.ValHost3.lean ====
import proofs.«403111_j50835232915932_1_alg».proof.Proof.KI.ValHost0

set_option maxRecDepth 16384

noncomputable section

namespace Cert.KernelIdeal.Hand

open Idealize.ShloMosaic Idealize.ShloMosaic.TcCoe
open Cert.KernelIdeal Cert.KernelIdeal.Gen Idealize.ShloMosaic.ValueIdx

section Host3
variable (W : Valuation τ sig (Elt Ideal))

theorem host3_of (r : Ref sig .tc) (h : r ∉ (hostOps3_W : List (Ref sig .tc))) :
    StableHlo.after hostOps3 W (Proc.devRef .tc r) = W (Proc.devRef .tc r) :=
  StableHlo.after_of_writes_sub hostOps3 W hostOps3_writes h

theorem host3_v93 : (StableHlo.after hostOps3 W (Proc.devRef .tc main_v93) : S128x128.Idx → EReal)
      = fun kj => (W (Proc.devRef .tc main_arg4) : S4x128x128.Idx → EReal) (ix3 3 (kj 0) (kj 1)) := by
  after_results
  funext kj
  show shapeCast S128x128 _ _ kj = _
  rw [eq_ix2 kj]
  exact stackRow_apply 3 3 rfl _ _ _ _ _

set_option maxHeartbeats 1000000 in
theorem host3_v113 : (StableHlo.after hostOps3 W (Proc.devRef .tc main_v113) : S100000x128.Idx → EReal)
      = aggK (W (Proc.devRef .tc main_v91)) (W (Proc.devRef .tc main_v5)) (W (Proc.devRef .tc main_v7)) := by
  unfold aggK
  after_results

theorem host3_v114 (j : Fin 128) : (StableHlo.after hostOps3 W (Proc.devRef .tc main_v114) : S1x128.Idx → EReal) (ix2 0 j)
      = (W (Proc.devRef .tc main_arg5) : S4x128.Idx → EReal) (ix2 3 j) := by
  after_results
  show shapeCast S1x128 (shapeCast S128 _ _) _ (ix2 0 j) = _
  rw [shapeCast_a_1a_apply]
  exact matRow_apply 3 3 rfl _ _ _ _

theorem host3_v115 (j : Fin 128) : (StableHlo.after hostOps3 W (Proc.devRef .tc main_v115) : S1x128.Idx → EReal) (ix2 0 j)
      = (W (Proc.devRef .tc main_arg6) : S4x128.Idx → EReal) (ix2 3 j) := by
  after_results
  show shapeCast S1x128 (shapeCast S128 _ _) _ (ix2 0 j) = _
  rw [shapeCast_a_1a_apply]
  exact matRow_apply 3 3 rfl _ _ _ _

theorem host3_v116 (j : Fin 128) : (StableHlo.after hostOps3 W (Proc.devRef .tc main_v116) : S1x128.Idx → EReal) (ix2 0 j)
      = (W (Proc.devRef .tc main_arg7) : S4x128.Idx → EReal) (ix2 3 j) := by
  after_results
  show shapeCast S1x128 (shapeCast S128 _ _) _ (ix2 0 j) = _
  rw [shapeCast_a_1a_apply]
  exact matRow_apply 3 3 rfl _ _ _ _

theorem host3_v117 (j : Fin 128) : (StableHlo.after hostOps3 W (Proc.devRef .tc main_v117) : S1x128.Idx → EReal) (ix2 0 j)
      = (W (Proc.devRef .tc main_arg8) : S4x128.Idx → EReal) (ix2 3 j) := by
  after_results
  show shapeCast S1x128 (shapeCast S128 _ _) _ (ix2 0 j) = _
  rw [shapeCast_a_1a_apply]
  exact matRow_apply 3 3 rfl _ _ _ _

theorem host3_v118 (j : Fin 128) : (StableHlo.after hostOps3 W (Proc.devRef .tc main_v118) : S1x128.Idx → EReal) (ix2 0 j)
      = (W (Proc.devRef .tc main_arg9) : S4x128.Idx → EReal) (ix2 3 j) := by
  after_results
  show shapeCast S1x128 (shapeCast S128 _ _) _ (ix2 0 j) = _
  rw [shapeCast_a_1a_apply]
  exact matRow_apply 3 3 rfl _ _ _ _

end Host3

end Cert.KernelIdeal.Hand

end
-- ==== Proof.KI.ValHost5.lean ====
import proofs.«403111_j50835232915932_1_alg».proof.Proof.Gen.KernelIdeal.Launch
import proofs.«403111_j50835232915932_1_alg».proof.Proof.Gen.KernelIdeal.Regions
import proofs.«403111_j50835232915932_1_alg».proof.Proof.KI.ValDefs
import Idealize.ShloMosaic.Lib.StableHlo.Run

set_option maxRecDepth 16384

noncomputable section

namespace Cert.KernelIdeal.Hand

open Idealize.ShloMosaic Idealize.ShloMosaic.TcCoe
open Cert.KernelIdeal Cert.KernelIdeal.Gen Idealize.ShloMosaic.ValueIdx

section Host5
variable (W : Valuation τ sig (Elt Ideal))

theorem host5_of (r : Ref sig .tc) (h : r ∉ (hostOps5_W : List (Ref sig .tc))) :
    StableHlo.after hostOps5 W (Proc.devRef .tc r) = W (Proc.devRef .tc r) :=
  StableHlo.after_of_writes_sub hostOps5 W hostOps5_writes h

theorem host5_v126 : (StableHlo.after hostOps5 W (Proc.devRef .tc main_v126) : S128x10.Idx → EReal)
      = lsmK (W (Proc.devRef .tc main_v125)) := by
  unfold lsmK
  after_results
  rfl

end Host5

end Cert.KernelIdeal.Hand

end
-- ==== Proof.KI.TileDot.lean ====
import proofs.«403111_j50835232915932_1_alg».proof.Proof.Gen.KernelIdeal.Skeleton
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

theorem zeroOffsets : (![0, 0] : Fin 2 → Nat) = fun _ => 0 := funext fun a => by fin_cases a <;> rfl

theorem tileDot_lhs_row (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

theorem tileDot_lhs_col (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c

theorem tileDot_rhs_row (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c

theorem tileDot_rhs_col (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem tileDot_apply {φ₁ φ₂ : FTy} (A : FVec Ideal S2000x128 φ₁) (B : FVec Ideal S128x128 φ₂) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact tileDot_lhs_row _ _
    | ⟨1, _⟩ => exact (tileDot_lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (tileDot_rhs_row _ _).trans hk
    | ⟨1, _⟩ => exact tileDot_rhs_col _ _)
  rw [el, er]

end Cert.KernelIdeal.Hand

end
-- ==== Proof.KI.PayConv0.lean ====
import proofs.«403111_j50835232915932_1_alg».proof.Proof.KI.TileDot
import proofs.«403111_j50835232915932_1_alg».proof.Proof.Spec
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

theorem pay0_apply (x0 x1 : Vec Ideal S2000x128 .f32) (x2 : Vec Ideal S128x128 .f32) (x3 x4 x5 x6 x7 : Vec Ideal S1x128 .f32)
    (p : Fin 2000) (q : Fin 128) :
    k0_pay1 (F := Ideal) x0 x1 x2 x3 x7 x6 x4 x5 (ix2 p q)
      = max (((((∑ k : Fin 128, (x0 (ix2 p k) + x1 (ix2 p k)) * x2 (ix2 k q)) + x3 (ix2 0 q)) - x6 (ix2 0 q))
          * Ideal.rsqrt (x7 (ix2 0 q) + Cert.Spec.eps)) * x4 (ix2 0 q) + x5 (ix2 0 q)) 0 := by
  unfold k0_pay1
  simp only [shapeCast_self]
  rw [maximumf_apply, broadcast_apply, addf_apply, mulf_apply, mulf_apply, subf_apply, addf_apply, tileDot_apply]
  simp only [broadcastTo_1b_ab_apply, truncf_apply, addf_apply]

  show max (_ * Ideal.rsqrt (x7 (ix2 0 q) + _) * _ + _) (Ideal.ofBits .f32 0x00000000#32) = _
  rw [Ideal.ofBits_zero_f32]
  rfl

end Cert.KernelIdeal.Hand

end
-- ==== Proof.KI.ValConv0.lean ====
import proofs.«403111_j50835232915932_1_alg».proof.Proof.KI.Conv0
import proofs.«403111_j50835232915932_1_alg».proof.Proof.KI.PayConv0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

abbrev featArr0 (c : Dev nD) : Vec Ideal S100000x128 .f32 := V c (Pipeline.arrRef spec0 0)

abbrev aggArr0 (c : Dev nD) : Vec Ideal S100000x128 .f32 := V c (Pipeline.arrRef spec0 1)

abbrev weightArr0 (c : Dev nD) : Vec Ideal S128x128 .f32 := V c (Pipeline.arrRef spec0 2)

abbrev biasArr0 (c : Dev nD) : Vec Ideal S1x128 .f32 := V c (Pipeline.arrRef spec0 3)

abbrev gammaArr0 (c : Dev nD) : Vec Ideal S1x128 .f32 := V c (Pipeline.arrRef spec0 4)

abbrev betaArr0 (c : Dev nD) : Vec Ideal S1x128 .f32 := V c (Pipeline.arrRef spec0 5)

abbrev meanArr0 (c : Dev nD) : Vec Ideal S1x128 .f32 := V c (Pipeline.arrRef spec0 6)

abbrev varArr0 (c : Dev nD) : Vec Ideal S1x128 .f32 := V c (Pipeline.arrRef spec0 7)

abbrev layerOut0 (c : Dev nD) : Vec Ideal S100000x128 .f32 :=
  Cert.Spec.conv (featArr0 V c) (aggArr0 V c) (weightArr0 V c) (fun j => biasArr0 V c (ix2 0 (j 0))) (fun j => gammaArr0 V c (ix2 0 (j 0)))
    (fun j => betaArr0 V c (ix2 0 (j 0))) (fun j => meanArr0 V c (ix2 0 (j 0))) (fun j => varArr0 V c (ix2 0 (j 0)))

theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 ∧ True :=
  (by decide +kernel : ∀ t : Fin grid0.N, _)

theorem featTile0_apply (c : Dev nD) (t : Fin cfg0.N) (p : Fin 2000) (k : Fin 128) (r : Fin 100000) (hr : r.val = 2000 * t.val + p.val) :
    (iblk0 V c 0 t : Vec Ideal S2000x128 .f32) (ix2 p k) = featArr0 V c (ix2 r k) := by
  obtain ⟨e0, e1, -⟩ := blockIdx0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

theorem aggTile0_apply (c : Dev nD) (t : Fin cfg0.N) (p : Fin 2000) (k : Fin 128) (r : Fin 100000) (hr : r.val = 2000 * t.val + p.val) :
    (iblk0 V c 1 t : Vec Ideal S2000x128 .f32) (ix2 p k) = aggArr0 V c (ix2 r k) := by
  obtain ⟨-, -, e0, e1, -⟩ := blockIdx0 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

theorem weightTile0_eq (c : Dev nD) (t : Fin cfg0.N) : (iblk0 V c 2 t : Vec Ideal S128x128 .f32) = weightArr0 V c := by
  obtain ⟨-, -, -, -, e0, e1, -⟩ := blockIdx0 t
  funext y
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem biasTile0_eq (c : Dev nD) (t : Fin cfg0.N) : (iblk0 V c 3 t : Vec Ideal S1x128 .f32) = biasArr0 V c := by
  obtain ⟨-, -, -, -, -, -, e0, e1, -⟩ := blockIdx0 t
  funext y
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

theorem gammaTile0_eq (c : Dev nD) (t : Fin cfg0.N) : (iblk0 V c 4 t : Vec Ideal S1x128 .f32) = gammaArr0 V c := by
  obtain ⟨-, -, -, -, -, -, -, -, e0, e1, -⟩ := blockIdx0 t
  funext y
  unfold iblk0
  rw [View.read_apply]
  show V c (Pipeline.arrRef spec0 4) _ = V c (Pipeline.arrRef spec0 4) _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

theorem betaTile0_eq (c : Dev nD) (t : Fin cfg0.N) : (iblk0 V c 5 t : Vec Ideal S1x128 .f32) = betaArr0 V c := by
  obtain ⟨-, -, -, -, -, -, -, -, -, -, e0, e1, -⟩ := blockIdx0 t
  funext y
  unfold iblk0
  rw [View.read_apply]
  show V c (Pipeline.arrRef spec0 5) _ = V c (Pipeline.arrRef spec0 5) _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

theorem meanTile0_eq (c : Dev nD) (t : Fin cfg0.N) : (iblk0 V c 6 t : Vec Ideal S1x128 .f32) = meanArr0 V c := by
  obtain ⟨-, -, -, -, -, -, -, -, -, -, -, -, e0, e1, -⟩ := blockIdx0 t
  funext y
  unfold iblk0
  rw [View.read_apply]
  show V c (Pipeline.arrRef spec0 6) _ = V c (Pipeline.arrRef spec0 6) _
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

theorem varTile0_eq (c : Dev nD) (t : Fin cfg0.N) : (iblk0 V c 7 t : Vec Ideal S1x128 .f32) = varArr0 V c := by
  obtain ⟨-, -, -, -, -, -, -, -, -, -, -, -, -, -, e0, e1, -⟩ := blockIdx0 t
  funext y
  unfold iblk0
  rw [View.read_apply]
  show V c (Pipeline.arrRef spec0 7) _ = V c (Pipeline.arrRef spec0 7) _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

theorem convTile0_at (h a : Vec Ideal S100000x128 .f32) (W : Vec Ideal S128x128 .f32) (b g s μ v : Vec Ideal S1x128 .f32)
    (x0 x1 : Vec Ideal S2000x128 .f32) (x2 : Vec Ideal S128x128 .f32) (x3 x4 x5 x6 x7 : Vec Ideal S1x128 .f32)
    (j : S2000x128.Idx) (i : S100000x128.Idx) (p : Fin 2000) (q : Fin 128) (r : Fin 100000)
    (hj : j = ix2 p q) (hi : i = ix2 r q)
    (e0 : ∀ k : Fin 128, x0 (ix2 p k) = h (ix2 r k)) (e1 : ∀ k : Fin 128, x1 (ix2 p k) = a (ix2 r k))
    (e2 : x2 = W) (e3 : x3 = b) (e4 : x4 = g) (e5 : x5 = s) (e6 : x6 = μ) (e7 : x7 = v) :
    k0_pay1 (F := Ideal) x0 x1 x2 x3 x7 x6 x4 x5 j
      = Cert.Spec.conv h a W (fun d => b (ix2 0 (d 0))) (fun d => g (ix2 0 (d 0))) (fun d => s (ix2 0 (d 0)))
          (fun d => μ (ix2 0 (d 0))) (fun d => v (ix2 0 (d 0))) i := by
  subst hj hi e2 e3 e4 e5 e6 e7
  rw [pay0_apply]
  have hs : (∑ k : Fin 128, (x0 (ix2 p k) + x1 (ix2 p k)) * x2 (ix2 k q))
      = ∑ k : Fin 128, (h (ix2 r k) + a (ix2 r k)) * x2 (ix2 k q) :=
    Finset.sum_congr rfl fun k _ => by rw [e0 k, e1 k]
  rw [hs]
  rfl

theorem flushed0_8_eq (c : Dev nD) (t : Fin cfg0.N) :
    (dat0 V c).flushed 8 t = ((cfg0.win 8).blk t).view.read (Elt Ideal) (layerOut0 V c) := by
  show (cfg0.win 8).cut (grid0.coords t) ((dat0 V c).after 8 t) = _
  rw [after0_8]
  unfold out0_8
  rw [View.canon_unit_zero zeroOffsets]
  simp only [View.ld_unit_zero (S := S2000x128) zeroOffsets, View.ld_unit_zero (S := S128x128) zeroOffsets,
    View.ld_unit_zero (S := S1x128) zeroOffsets]
  obtain ⟨-, -, -, -, -, -, -, -, -, -, -, -, -, -, -, -, o0, o1, -⟩ := blockIdx0 t
  have hN : cfg0.N = 50 := N_0
  have ht : t.val < 50 := lt_of_lt_of_eq t.isLt hN
  funext y
  have hp : (y 0).val < 2000 := (y 0).isLt
  have hq : (y 1).val < 128 := (y 1).isLt
  have hj : (cfg0.win 8).xinj (grid0.coords t) y = ix2 (⟨(y 0).val, hp⟩ : Fin 2000) (⟨(y 1).val, hq⟩ : Fin 128) :=
    funext fun a => by match a with | ⟨0, _⟩ => rfl | ⟨1, _⟩ => rfl
  have hi : ((cfg0.win 8).blk t).view.emb y
      = ix2 (⟨2000 * t.val + (y 0).val, by omega⟩ : Fin 100000) (⟨(y 1).val, hq⟩ : Fin 128) :=
    funext fun a => Fin.ext (by
      match a with
      | ⟨0, _⟩ => show win0_8.index t (0 : Fin 2) * 2000 + 1 * (y 0).val = 2000 * t.val + (y 0).val; rw [o0]; omega
      | ⟨1, _⟩ => show win0_8.index t (1 : Fin 2) * 128 + 1 * (y 1).val = (y 1).val; rw [o1]; omega)
  exact convTile0_at (featArr0 V c) (aggArr0 V c) (weightArr0 V c) (biasArr0 V c) (gammaArr0 V c) (betaArr0 V c) (meanArr0 V c) (varArr0 V c)
    (iblk0 V c 0 t) (iblk0 V c 1 t) (iblk0 V c 2 t) (iblk0 V c 3 t) (iblk0 V c 4 t) (iblk0 V c 5 t) (iblk0 V c 6 t) (iblk0 V c 7 t)
    ((cfg0.win 8).xinj (grid0.coords t) y) (((cfg0.win 8).blk t).view.emb y)
    ⟨(y 0).val, hp⟩ ⟨(y 1).val, hq⟩ ⟨2000 * t.val + (y 0).val, by omega⟩ hj hi
    (fun k => featTile0_apply V c t _ k _ rfl) (fun k => aggTile0_apply V c t _ k _ rfl)
    (weightTile0_eq V c t) (biasTile0_eq V c t) (gammaTile0_eq V c t) (betaTile0_eq V c t) (meanTile0_eq V c t) (varTile0_eq V c t)

theorem mem_tile0_8 (t : Fin cfg0.N) (i : S100000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole (Pipeline.arrRef spec0 8)).slice (win0_8.rect t)).set ↔ _
  rw [View.set_slice_whole, Rect.mem_set_unit]
  exact Iff.rfl

theorem tiles_cover0_8 (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, -, -, -, -, -, -, -, -, -, -, -, -, o0, o1, -⟩ := blockIdx0 ⟨(i 0).val / 2000, ht⟩
  refine ⟨⟨(i 0).val / 2000, ht⟩, flush0_8 _, ?_⟩
  rw [mem_tile0_8]
  intro a
  match a with
  | ⟨0, _⟩ =>
    show win0_8.index ⟨(i 0).val / 2000, ht⟩ (0 : Fin 2) * 2000 ≤ (i 0).val
      ∧ (i 0).val < win0_8.index ⟨(i 0).val / 2000, ht⟩ (0 : Fin 2) * 2000 + 2000
    rw [o0]; show (i 0).val / 2000 * 2000 ≤ (i 0).val ∧ (i 0).val < (i 0).val / 2000 * 2000 + 2000; omega
  | ⟨1, _⟩ =>
    show win0_8.index ⟨(i 0).val / 2000, ht⟩ (1 : Fin 2) * 128 ≤ (i 1).val
      ∧ (i 1).val < win0_8.index ⟨(i 0).val / 2000, ht⟩ (1 : Fin 2) * 128 + 128
    rw [o1]; omega

theorem arr0_8 (c : Dev nD) : (dat0 V c).arrAt 8 cfg0.N
    = Cert.Spec.conv (V c (Pipeline.arrRef spec0 0)) (V c (Pipeline.arrRef spec0 1)) (V c (Pipeline.arrRef spec0 2))
        (fun j => V c (Pipeline.arrRef spec0 3) (ix2 0 (j 0))) (fun j => V c (Pipeline.arrRef spec0 4) (ix2 0 (j 0)))
        (fun j => V c (Pipeline.arrRef spec0 5) (ix2 0 (j 0))) (fun j => V c (Pipeline.arrRef spec0 6) (ix2 0 (j 0)))
        (fun j => V c (Pipeline.arrRef spec0 7) (ix2 0 (j 0))) :=
  (dat0 V c).arrAt_eq_of_cover 8 (layerOut0 V c) (fun t _ => flushed0_8_eq V c t) tiles_cover0_8

end Cert.KernelIdeal.Hand

end
-- ==== Proof.KI.PayConv1.lean ====
import proofs.«403111_j50835232915932_1_alg».proof.Proof.KI.TileDot
import proofs.«403111_j50835232915932_1_alg».proof.Proof.Spec
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

theorem pay1_apply (x0 x1 : Vec Ideal S2000x128 .f32) (x2 : Vec Ideal S128x128 .f32) (x3 x4 x5 x6 x7 : Vec Ideal S1x128 .f32)
    (p : Fin 2000) (q : Fin 128) :
    k1_pay1 (F := Ideal) x0 x1 x2 x3 x7 x6 x4 x5 (ix2 p q)
      = max (((((∑ k : Fin 128, (x0 (ix2 p k) + x1 (ix2 p k)) * x2 (ix2 k q)) + x3 (ix2 0 q)) - x6 (ix2 0 q))
          * Ideal.rsqrt (x7 (ix2 0 q) + Cert.Spec.eps)) * x4 (ix2 0 q) + x5 (ix2 0 q)) 0 := by
  unfold k1_pay1
  simp only [shapeCast_self]
  rw [maximumf_apply, broadcast_apply, addf_apply, mulf_apply, mulf_apply, subf_apply, addf_apply, tileDot_apply]
  simp only [broadcastTo_1b_ab_apply, truncf_apply, addf_apply]

  show max (_ * Ideal.rsqrt (x7 (ix2 0 q) + _) * _ + _) (Ideal.ofBits .f32 0x00000000#32) = _
  rw [Ideal.ofBits_zero_f32]
  rfl

end Cert.KernelIdeal.Hand

end
-- ==== Proof.KI.ValConv1.lean ====
import proofs.«403111_j50835232915932_1_alg».proof.Proof.KI.Conv1
import proofs.«403111_j50835232915932_1_alg».proof.Proof.KI.PayConv1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

abbrev featArr1 (c : Dev nD) : Vec Ideal S100000x128 .f32 := V c (Pipeline.arrRef spec1 0)

abbrev aggArr1 (c : Dev nD) : Vec Ideal S100000x128 .f32 := V c (Pipeline.arrRef spec1 1)

abbrev weightArr1 (c : Dev nD) : Vec Ideal S128x128 .f32 := V c (Pipeline.arrRef spec1 2)

abbrev biasArr1 (c : Dev nD) : Vec Ideal S1x128 .f32 := V c (Pipeline.arrRef spec1 3)

abbrev gammaArr1 (c : Dev nD) : Vec Ideal S1x128 .f32 := V c (Pipeline.arrRef spec1 4)

abbrev betaArr1 (c : Dev nD) : Vec Ideal S1x128 .f32 := V c (Pipeline.arrRef spec1 5)

abbrev meanArr1 (c : Dev nD) : Vec Ideal S1x128 .f32 := V c (Pipeline.arrRef spec1 6)

abbrev varArr1 (c : Dev nD) : Vec Ideal S1x128 .f32 := V c (Pipeline.arrRef spec1 7)

abbrev layerOut1 (c : Dev nD) : Vec Ideal S100000x128 .f32 :=
  Cert.Spec.conv (featArr1 V c) (aggArr1 V c) (weightArr1 V c) (fun j => biasArr1 V c (ix2 0 (j 0))) (fun j => gammaArr1 V c (ix2 0 (j 0)))
    (fun j => betaArr1 V c (ix2 0 (j 0))) (fun j => meanArr1 V c (ix2 0 (j 0))) (fun j => varArr1 V c (ix2 0 (j 0)))

theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 ∧ True :=
  (by decide +kernel : ∀ t : Fin grid1.N, _)

theorem featTile1_apply (c : Dev nD) (t : Fin cfg1.N) (p : Fin 2000) (k : Fin 128) (r : Fin 100000) (hr : r.val = 2000 * t.val + p.val) :
    (iblk1 V c 0 t : Vec Ideal S2000x128 .f32) (ix2 p k) = featArr1 V c (ix2 r k) := by
  obtain ⟨e0, e1, -⟩ := blockIdx1 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

theorem aggTile1_apply (c : Dev nD) (t : Fin cfg1.N) (p : Fin 2000) (k : Fin 128) (r : Fin 100000) (hr : r.val = 2000 * t.val + p.val) :
    (iblk1 V c 1 t : Vec Ideal S2000x128 .f32) (ix2 p k) = aggArr1 V c (ix2 r k) := by
  obtain ⟨-, -, e0, e1, -⟩ := blockIdx1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 128 + 1 * k.val = k.val; rw [e1]; omega

theorem weightTile1_eq (c : Dev nD) (t : Fin cfg1.N) : (iblk1 V c 2 t : Vec Ideal S128x128 .f32) = weightArr1 V c := by
  obtain ⟨-, -, -, -, e0, e1, -⟩ := blockIdx1 t
  funext y
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

theorem biasTile1_eq (c : Dev nD) (t : Fin cfg1.N) : (iblk1 V c 3 t : Vec Ideal S1x128 .f32) = biasArr1 V c := by
  obtain ⟨-, -, -, -, -, -, e0, e1, -⟩ := blockIdx1 t
  funext y
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

theorem gammaTile1_eq (c : Dev nD) (t : Fin cfg1.N) : (iblk1 V c 4 t : Vec Ideal S1x128 .f32) = gammaArr1 V c := by
  obtain ⟨-, -, -, -, -, -, -, -, e0, e1, -⟩ := blockIdx1 t
  funext y
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

theorem betaTile1_eq (c : Dev nD) (t : Fin cfg1.N) : (iblk1 V c 5 t : Vec Ideal S1x128 .f32) = betaArr1 V c := by
  obtain ⟨-, -, -, -, -, -, -, -, -, -, e0, e1, -⟩ := blockIdx1 t
  funext y
  unfold iblk1
  rw [View.read_apply]
  show V c (Pipeline.arrRef spec1 5) _ = V c (Pipeline.arrRef spec1 5) _
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

theorem meanTile1_eq (c : Dev nD) (t : Fin cfg1.N) : (iblk1 V c 6 t : Vec Ideal S1x128 .f32) = meanArr1 V c := by
  obtain ⟨-, -, -, -, -, -, -, -, -, -, -, -, e0, e1, -⟩ := blockIdx1 t
  funext y
  unfold iblk1
  rw [View.read_apply]
  show V c (Pipeline.arrRef spec1 6) _ = V c (Pipeline.arrRef spec1 6) _
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

theorem varTile1_eq (c : Dev nD) (t : Fin cfg1.N) : (iblk1 V c 7 t : Vec Ideal S1x128 .f32) = varArr1 V c := by
  obtain ⟨-, -, -, -, -, -, -, -, -, -, -, -, -, -, e0, e1, -⟩ := blockIdx1 t
  funext y
  unfold iblk1
  rw [View.read_apply]
  show V c (Pipeline.arrRef spec1 7) _ = V c (Pipeline.arrRef spec1 7) _
  congr 1
  funext a
  apply Fin.ext
  match a with
  | ⟨0, _⟩ => show win1_7.index t (0 : Fin 2) * 1 + 1 * (y 0).val = (y 0).val; rw [e0]; omega
  | ⟨1, _⟩ => show win1_7.index t (1 : Fin 2) * 128 + 1 * (y 1).val = (y 1).val; rw [e1]; omega

theorem convTile1_at (h a : Vec Ideal S100000x128 .f32) (W : Vec Ideal S128x128 .f32) (b g s μ v : Vec Ideal S1x128 .f32)
    (x0 x1 : Vec Ideal S2000x128 .f32) (x2 : Vec Ideal S128x128 .f32) (x3 x4 x5 x6 x7 : Vec Ideal S1x128 .f32)
    (j : S2000x128.Idx) (i : S100000x128.Idx) (p : Fin 2000) (q : Fin 128) (r : Fin 100000)
    (hj : j = ix2 p q) (hi : i = ix2 r q)
    (e0 : ∀ k : Fin 128, x0 (ix2 p k) = h (ix2 r k)) (e1 : ∀ k : Fin 128, x1 (ix2 p k) = a (ix2 r k))
    (e2 : x2 = W) (e3 : x3 = b) (e4 : x4 = g) (e5 : x5 = s) (e6 : x6 = μ) (e7 : x7 = v) :
    k1_pay1 (F := Ideal) x0 x1 x2 x3 x7 x6 x4 x5 j
      = Cert.Spec.conv h a W (fun d => b (ix2 0 (d 0))) (fun d => g (ix2 0 (d 0))) (fun d => s (ix2 0 (d 0)))
          (fun d => μ (ix2 0 (d 0))) (fun d => v (ix2 0 (d 0))) i := by
  subst hj hi e2 e3 e4 e5 e6 e7
  rw [pay1_apply]
  have hs : (∑ k : Fin 128, (x0 (ix2 p k) + x1 (ix2 p k)) * x2 (ix2 k q))
      = ∑ k : Fin 128, (h (ix2 r k) + a (ix2 r k)) * x2 (ix2 k q) :=
    Finset.sum_congr rfl fun k _ => by rw [e0 k, e1 k]
  rw [hs]
  rfl

theorem flushed1_8_eq (c : Dev nD) (t : Fin cfg1.N) :
    (dat1 V c).flushed 8 t = ((cfg1.win 8).blk t).view.read (Elt Ideal) (layerOut1 V c) := by
  show (cfg1.win 8).cut (grid1.coords t) ((dat1 V c).after 8 t) = _
  rw [after1_8]
  unfold out1_8
  rw [View.canon_unit_zero zeroOffsets]
  simp only [View.ld_unit_zero (S := S2000x128) zeroOffsets, View.ld_unit_zero (S := S128x128) zeroOffsets,
    View.ld_unit_zero (S := S1x128) zeroOffsets]
  obtain ⟨-, -, -, -, -, -, -, -, -, -, -, -, -, -, -, -, o0, o1, -⟩ := blockIdx1 t
  have hN : cfg1.N = 50 := N_1
  have ht : t.val < 50 := lt_of_lt_of_eq t.isLt hN
  funext y
  have hp : (y 0).val < 2000 := (y 0).isLt
  have hq : (y 1).val < 128 := (y 1).isLt
  have hj : (cfg1.win 8).xinj (grid1.coords t) y = ix2 (⟨(y 0).val, hp⟩ : Fin 2000) (⟨(y 1).val, hq⟩ : Fin 128) :=
    funext fun a => by match a with | ⟨0, _⟩ => rfl | ⟨1, _⟩ => rfl
  have hi : ((cfg1.win 8).blk t).view.emb y
      = ix2 (⟨2000 * t.val + (y 0).val, by omega⟩ : Fin 100000) (⟨(y 1).val, hq⟩ : Fin 128) :=
    funext fun a => Fin.ext (by
      match a with
      | ⟨0, _⟩ => show win1_8.index t (0 : Fin 2) * 2000 + 1 * (y 0).val = 2000 * t.val + (y 0).val; rw [o0]; omega
      | ⟨1, _⟩ => show win1_8.index t (1 : Fin 2) * 128 + 1 * (y 1).val = (y 1).val; rw [o1]; omega)
  exact convTile1_at (featArr1 V c) (aggArr1 V c) (weightArr1 V c) (biasArr1 V c) (gammaArr1 V c) (betaArr1 V c) (meanArr1 V c) (varArr1 V c)
    (iblk1 V c 0 t) (iblk1 V c 1 t) (iblk1 V c 2 t) (iblk1 V c 3 t) (iblk1 V c 4 t) (iblk1 V c 5 t) (iblk1 V c 6 t) (iblk1 V c 7 t)
    ((cfg1.win 8).xinj (grid1.coords t) y) (((cfg1.win 8).blk t).view.emb y)
    ⟨(y 0).val, hp⟩ ⟨(y 1).val, hq⟩ ⟨2000 * t.val + (y 0).val, by omega⟩ hj hi
    (fun k => featTile1_apply V c t _ k _ rfl) (fun k => aggTile1_apply V c t _ k _ rfl)
    (weightTile1_eq V c t) (biasTile1_eq V c t) (gammaTile1_eq V c t) (betaTile1_eq V c t) (meanTile1_eq V c t) (varTile1_eq V c t)

theorem mem_tile1_8 (t : Fin cfg1.N) (i : S100000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole (Pipeline.arrRef spec1 8)).slice (win1_8.rect t)).set ↔ _
  rw [View.set_slice_whole, Rect.mem_set_unit]
  exact Iff.rfl

theorem tiles_cover1_8 (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  have hN : cfg1.N = 50 := N_1
  have ht : (i 0).val / 2000 < cfg1.N := by rw [hN]; omega
  obtain ⟨-, -, -, -, -, -, -, -, -, -, -, -, -, -, -, -, o0, o1, -⟩ := blockIdx1 ⟨(i 0).val / 2000, ht⟩
  refine ⟨⟨(i 0).val / 2000, ht⟩, flush1_8 _, ?_⟩
  rw [mem_tile1_8]
  intro a
  match a with
  | ⟨0, _⟩ =>
    show win1_8.index ⟨(i 0).val / 2000, ht⟩ (0 : Fin 2) * 2000 ≤ (i 0).val
      ∧ (i 0).val < win1_8.index ⟨(i 0).val / 2000, ht⟩ (0 : Fin 2) * 2000 + 2000
    rw [o0]; show (i 0).val / 2000 * 2000 ≤ (i 0).val ∧ (i 0).val < (i 0).val / 2000 * 2000 + 2000; omega
  | ⟨1, _⟩ =>
    show win1_8.index ⟨(i 0).val / 2000, ht⟩ (1 : Fin 2) * 128 ≤ (i 1).val
      ∧ (i 1).val < win1_8.index ⟨(i 0).val / 2000, ht⟩ (1 : Fin 2) * 128 + 128
    rw [o1]; omega

theorem arr1_8 (c : Dev nD) : (dat1 V c).arrAt 8 cfg1.N
    = Cert.Spec.conv (V c (Pipeline.arrRef spec1 0)) (V c (Pipeline.arrRef spec1 1)) (V c (Pipeline.arrRef spec1 2))
        (fun j => V c (Pipeline.arrRef spec1 3) (ix2 0 (j 0))) (fun j => V c (Pipeline.arrRef spec1 4) (ix2 0 (j 0)))
        (fun j => V c (Pipeline.arrRef spec1 5) (ix2 0 (j 0))) (fun j => V c (Pipeline.arrRef spec1 6) (ix2 0 (j 0)))
        (fun j => V c (Pipeline.arrRef spec1 7) (ix2 0 (j 0))) :=
  (dat1 V c).arrAt_eq_of_cover 8 (layerOut1 V c) (fun t _ => flushed1_8_eq V c t) tiles_cover1_8

end Cert.KernelIdeal.Hand

end
-- ==== Proof.KI.PayConv2.lean ====
import proofs.«403111_j50835232915932_1_alg».proof.Proof.KI.TileDot
import proofs.«403111_j50835232915932_1_alg».proof.Proof.Spec
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

theorem pay2_apply (x0 x1 : Vec Ideal S2000x128 .f32) (x2 : Vec Ideal S128x128 .f32) (x3 x4 x5 x6 x7 : Vec Ideal S1x128 .f32)
    (p : Fin 2000) (q : Fin 128) :
    k2_pay1 (F := Ideal) x0 x1 x2 x3 x7 x6 x4 x5 (ix2 p q)
      = max (((((∑ k : Fin 128, (x0 (ix2 p k) + x1 (ix2 p k)) * x2 (ix2 k q)) + x3 (ix2 0 q)) - x6 (ix2 0 q))
          * Ideal.rsqrt (x7 (ix2 0 q) + Cert.Spec.eps)) * x4 (ix2 0 q) + x5 (ix2 0 q)) 0 := by
  unfold k2_pay1
  simp only [shapeCast_self]
  rw [maximumf_apply, broadcast_apply, addf_apply, mulf_apply, mulf_apply, subf_apply, addf_apply, tileDot_apply]
  simp only [broadcastTo_1b_ab_apply, truncf_apply, addf_apply]

  show max (_ * Ideal.rsqrt (x7 (ix2 0 q) + _) * _ + _) (Ideal.ofBits .f32 0x00000000#32) = _
  rw [Ideal.ofBits_zero_f32]
  rfl

end Cert.KernelIdeal.Hand

end
-- ==== Proof.KI.ValConv2.lean ====
import proofs.«403111_j50835232915932_1_alg».proof.Proof.KI.Conv2
import proofs.«403111_j50835232915932_1_alg».proof.Proof.KI.PayConv2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

abbrev featArr2 (c : Dev nD) : Vec Ideal S100000x128 .f32 := V c (Pipeline.arrRef spec2 0)

abbrev aggArr2 (c : Dev nD) : Vec Ideal S100000x128 .f32 := V c (Pipeline.arrRef spec2 1)

abbrev weightArr2 (c : Dev nD) : Vec Ideal S128x128 .f32 := V c (Pipeline.arrRef spec2 2)

abbrev biasArr2 (c : Dev nD) : Vec Ideal S1x128 .f32 := V c (Pipeline.arrRef spec2 3)

abbrev gammaArr2 (c : Dev nD) : Vec Ideal S1x128 .f32 := V c (Pipeline.arrRef spec2 4)

abbrev betaArr2 (c : Dev nD) : Vec Ideal S1x128 .f32 := V c (Pipeline.arrRef spec2 5)

abbrev meanArr2 (c : Dev nD) : Vec Ideal S1x128 .f32 := V c (Pipeline.arrRef spec2 6)

abbrev varArr2 (c : Dev nD) : Vec Ideal S1x128 .f32 := V c (Pipeline.arrRef spec2 7)

abbrev layerOut2 (c : Dev nD) : Vec Ideal S100000x128 .f32 :=
  Cert.Spec.conv (featArr2 V c) (aggArr2 V c) (weightArr2 V c) (fun j => biasArr2 V c (ix2 0 (j 0))) (fun j => gammaArr2 V c (ix2 0 (j 0)))
    (fun j => betaArr2 V c (ix2 0 (j 0))) (fun j => meanArr2 V c (ix2 0 (j 0))) (fun j => varArr2 V c (ix2 0 (j 0)))

theorem blockIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 ∧ True :=
  (by decide +kernel : ∀ t : Fin grid2.N, _)

theorem featTile2_apply (c : Dev nD) (t : Fin cfg2.N) (p : Fin 2000) (k : Fin 128) (r : Fin 100000) (hr : r.val = 2000 * t.val + p.val) :
    (iblk2 V c 0 t : Vec Ideal S2000x128 .f32) (ix2 p k) = featArr2 V c (ix2 r k) := by
  obtain ⟨e0, e1, -⟩ := blockIdx2 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

theorem aggTile2_apply (c : Dev nD) (t : Fin cfg2.N) (p : Fin 2000) (k : Fin 128) (r : Fin 100000) (hr : r.val = 2000 * t.val + p.val) :
    (iblk2 V c 1 t : Vec Ideal S2000x128 .f32) (ix2 p k) = aggArr2 V c (ix2 r k) := by
  obtain ⟨-, -, e0, e1, -⟩ := blockIdx2 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 2000 + 1 * p.val = r.val; rw [e0, hr]; omega
  | ⟨1, _⟩ => show win2_1.index t (1 : Fin 2) * 128 + 1 * k.val = k.val; rw [e1]; omega

theorem weightTile2_eq (c : Dev nD) (t : Fin cfg2.N) : (iblk2 V c 2 t : Vec Ideal S128x128 .f32) = weightArr2 V c := by
  obtain ⟨-, -, -, -, e0, e1, -⟩ := blockIdx2 t
  funext y
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

theorem biasTile2_eq (c : Dev nD) (t : Fin cfg2.N) : (iblk2 V c 3 t : Vec Ideal S1x128 .f32) = biasArr2 V c := by
  obtain ⟨-, -, -, -, -, -, e0, e1, -⟩ := blockIdx2 t
  funext y
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

theorem gammaTile2_eq (c : Dev nD) (t : Fin cfg2.N) : (iblk2 V c 4 t : Vec Ideal S1x128 .f32) = gammaArr2 V c := by
  obtain ⟨-, -, -, -, -, -, -, -, e0, e1, -⟩ := blockIdx2 t
  funext y
  unfold iblk2
  rw [View.read_apply]
  show V c (Pipeline.arrRef spec2 4) _ = V c (Pipeline.arrRef spec2 4) _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

theorem betaTile2_eq (c : Dev nD) (t : Fin cfg2.N) : (iblk2 V c 5 t : Vec Ideal S1x128 .f32) = betaArr2 V c := by
  obtain ⟨-, -, -, -, -, -, -, -, -, -, e0, e1, -⟩ := blockIdx2 t
  funext y
  unfold iblk2
  rw [View.read_apply]
  show V c (Pipeline.arrRef spec2 5) _ = V c (Pipeline.arrRef spec2 5) _
  congr 1
  funext a
  apply Fin.ext
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

theorem meanTile2_eq (c : Dev nD) (t : Fin cfg2.N) : (iblk2 V c 6 t : Vec Ideal S1x128 .f32) = meanArr2 V c := by
  obtain ⟨-, -, -, -, -, -, -, -, -, -, -, -, e0, e1, -⟩ := blockIdx2 t
  funext y
  unfold iblk2
  rw [View.read_apply]
  show V c (Pipeline.arrRef spec2 6) _ = V c (Pipeline.arrRef spec2 6) _
  congr 1
  funext a
  apply Fin.ext
  match a with
  | ⟨0, _⟩ => show win2_6.index t (0 : Fin 2) * 1 + 1 * (y 0).val = (y 0).val; rw [e0]; omega
  | ⟨1, _⟩ => show win2_6.index t (1 : Fin 2) * 128 + 1 * (y 1).val = (y 1).val; rw [e1]; omega

theorem varTile2_eq (c : Dev nD) (t : Fin cfg2.N) : (iblk2 V c 7 t : Vec Ideal S1x128 .f32) = varArr2 V c := by
  obtain ⟨-, -, -, -, -, -, -, -, -, -, -, -, -, -, e0, e1, -⟩ := blockIdx2 t
  funext y
  unfold iblk2
  rw [View.read_apply]
  show V c (Pipeline.arrRef spec2 7) _ = V c (Pipeline.arrRef spec2 7) _
  congr 1
  funext a
  apply Fin.ext
  match a with
  | ⟨0, _⟩ => show win2_7.index t (0 : Fin 2) * 1 + 1 * (y 0).val = (y 0).val; rw [e0]; omega
  | ⟨1, _⟩ => show win2_7.index t (1 : Fin 2) * 128 + 1 * (y 1).val = (y 1).val; rw [e1]; omega

theorem convTile2_at (h a : Vec Ideal S100000x128 .f32) (W : Vec Ideal S128x128 .f32) (b g s μ v : Vec Ideal S1x128 .f32)
    (x0 x1 : Vec Ideal S2000x128 .f32) (x2 : Vec Ideal S128x128 .f32) (x3 x4 x5 x6 x7 : Vec Ideal S1x128 .f32)
    (j : S2000x128.Idx) (i : S100000x128.Idx) (p : Fin 2000) (q : Fin 128) (r : Fin 100000)
    (hj : j = ix2 p q) (hi : i = ix2 r q)
    (e0 : ∀ k : Fin 128, x0 (ix2 p k) = h (ix2 r k)) (e1 : ∀ k : Fin 128, x1 (ix2 p k) = a (ix2 r k))
    (e2 : x2 = W) (e3 : x3 = b) (e4 : x4 = g) (e5 : x5 = s) (e6 : x6 = μ) (e7 : x7 = v) :
    k2_pay1 (F := Ideal) x0 x1 x2 x3 x7 x6 x4 x5 j
      = Cert.Spec.conv h a W (fun d => b (ix2 0 (d 0))) (fun d => g (ix2 0 (d 0))) (fun d => s (ix2 0 (d 0)))
          (fun d => μ (ix2 0 (d 0))) (fun d => v (ix2 0 (d 0))) i := by
  subst hj hi e2 e3 e4 e5 e6 e7
  rw [pay2_apply]
  have hs : (∑ k : Fin 128, (x0 (ix2 p k) + x1 (ix2 p k)) * x2 (ix2 k q))
      = ∑ k : Fin 128, (h (ix2 r k) + a (ix2 r k)) * x2 (ix2 k q) :=
    Finset.sum_congr rfl fun k _ => by rw [e0 k, e1 k]
  rw [hs]
  rfl

theorem flushed2_8_eq (c : Dev nD) (t : Fin cfg2.N) :
    (dat2 V c).flushed 8 t = ((cfg2.win 8).blk t).view.read (Elt Ideal) (layerOut2 V c) := by
  show (cfg2.win 8).cut (grid2.coords t) ((dat2 V c).after 8 t) = _
  rw [after2_8]
  unfold out2_8
  rw [View.canon_unit_zero zeroOffsets]
  simp only [View.ld_unit_zero (S := S2000x128) zeroOffsets, View.ld_unit_zero (S := S128x128) zeroOffsets,
    View.ld_unit_zero (S := S1x128) zeroOffsets]
  obtain ⟨-, -, -, -, -, -, -, -, -, -, -, -, -, -, -, -, o0, o1, -⟩ := blockIdx2 t
  have hN : cfg2.N = 50 := N_2
  have ht : t.val < 50 := lt_of_lt_of_eq t.isLt hN
  funext y
  have hp : (y 0).val < 2000 := (y 0).isLt
  have hq : (y 1).val < 128 := (y 1).isLt
  have hj : (cfg2.win 8).xinj (grid2.coords t) y = ix2 (⟨(y 0).val, hp⟩ : Fin 2000) (⟨(y 1).val, hq⟩ : Fin 128) :=
    funext fun a => by match a with | ⟨0, _⟩ => rfl | ⟨1, _⟩ => rfl
  have hi : ((cfg2.win 8).blk t).view.emb y
      = ix2 (⟨2000 * t.val + (y 0).val, by omega⟩ : Fin 100000) (⟨(y 1).val, hq⟩ : Fin 128) :=
    funext fun a => Fin.ext (by
      match a with
      | ⟨0, _⟩ => show win2_8.index t (0 : Fin 2) * 2000 + 1 * (y 0).val = 2000 * t.val + (y 0).val; rw [o0]; omega
      | ⟨1, _⟩ => show win2_8.index t (1 : Fin 2) * 128 + 1 * (y 1).val = (y 1).val; rw [o1]; omega)
  exact convTile2_at (featArr2 V c) (aggArr2 V c) (weightArr2 V c) (biasArr2 V c) (gammaArr2 V c) (betaArr2 V c) (meanArr2 V c) (varArr2 V c)
    (iblk2 V c 0 t) (iblk2 V c 1 t) (iblk2 V c 2 t) (iblk2 V c 3 t) (iblk2 V c 4 t) (iblk2 V c 5 t) (iblk2 V c 6 t) (iblk2 V c 7 t)
    ((cfg2.win 8).xinj (grid2.coords t) y) (((cfg2.win 8).blk t).view.emb y)
    ⟨(y 0).val, hp⟩ ⟨(y 1).val, hq⟩ ⟨2000 * t.val + (y 0).val, by omega⟩ hj hi
    (fun k => featTile2_apply V c t _ k _ rfl) (fun k => aggTile2_apply V c t _ k _ rfl)
    (weightTile2_eq V c t) (biasTile2_eq V c t) (gammaTile2_eq V c t) (betaTile2_eq V c t) (meanTile2_eq V c t) (varTile2_eq V c t)

theorem mem_tile2_8 (t : Fin cfg2.N) (i : S100000x128.Idx) :
    i ∈ ((cfg2.win 8).blk t).view.set ↔ ∀ a : Fin 2, win2_8.index t a * S2000x128.size a ≤ (i a).val
      ∧ (i a).val < win2_8.index t a * S2000x128.size a + S2000x128.size a := by
  show i ∈ ((View.whole (Pipeline.arrRef spec2 8)).slice (win2_8.rect t)).set ↔ _
  rw [View.set_slice_whole, Rect.mem_set_unit]
  exact Iff.rfl

theorem tiles_cover2_8 (i : S100000x128.Idx) :
    ∃ t : Fin cfg2.N, (cfg2.win 8).flush t = true ∧ i ∈ ((cfg2.win 8).blk t).view.set := by
  have hi0 : (i 0).val < 100000 := (i 0).isLt
  have hi1 : (i 1).val < 128 := (i 1).isLt
  have hN : cfg2.N = 50 := N_2
  have ht : (i 0).val / 2000 < cfg2.N := by rw [hN]; omega
  obtain ⟨-, -, -, -, -, -, -, -, -, -, -, -, -, -, -, -, o0, o1, -⟩ := blockIdx2 ⟨(i 0).val / 2000, ht⟩
  refine ⟨⟨(i 0).val / 2000, ht⟩, flush2_8 _, ?_⟩
  rw [mem_tile2_8]
  intro a
  match a with
  | ⟨0, _⟩ =>
    show win2_8.index ⟨(i 0).val / 2000, ht⟩ (0 : Fin 2) * 2000 ≤ (i 0).val
      ∧ (i 0).val < win2_8.index ⟨(i 0).val / 2000, ht⟩ (0 : Fin 2) * 2000 + 2000
    rw [o0]; show (i 0).val / 2000 * 2000 ≤ (i 0).val ∧ (i 0).val < (i 0).val / 2000 * 2000 + 2000; omega
  | ⟨1, _⟩ =>
    show win2_8.index ⟨(i 0).val / 2000, ht⟩ (1 : Fin 2) * 128 ≤ (i 1).val
      ∧ (i 1).val < win2_8.index ⟨(i 0).val / 2000, ht⟩ (1 : Fin 2) * 128 + 128
    rw [o1]; omega

theorem arr2_8 (c : Dev nD) : (dat2 V c).arrAt 8 cfg2.N
    = Cert.Spec.conv (V c (Pipeline.arrRef spec2 0)) (V c (Pipeline.arrRef spec2 1)) (V c (Pipeline.arrRef spec2 2))
        (fun j => V c (Pipeline.arrRef spec2 3) (ix2 0 (j 0))) (fun j => V c (Pipeline.arrRef spec2 4) (ix2 0 (j 0)))
        (fun j => V c (Pipeline.arrRef spec2 5) (ix2 0 (j 0))) (fun j => V c (Pipeline.arrRef spec2 6) (ix2 0 (j 0)))
        (fun j => V c (Pipeline.arrRef spec2 7) (ix2 0 (j 0))) :=
  (dat2 V c).arrAt_eq_of_cover 8 (layerOut2 V c) (fun t _ => flushed2_8_eq V c t) tiles_cover2_8

end Cert.KernelIdeal.Hand

end
-- ==== Proof.KI.PayConv3.lean ====
import proofs.«403111_j50835232915932_1_alg».proof.Proof.KI.TileDot
import proofs.«403111_j50835232915932_1_alg».proof.Proof.Spec
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

theorem pay3_apply (x0 x1 : Vec Ideal S2000x128 .f32) (x2 : Vec Ideal S128x128 .f32) (x3 x4 x5 x6 x7 : Vec Ideal S1x128 .f32)
    (p : Fin 2000) (q : Fin 128) :
    k3_pay1 (F := Ideal) x0 x1 x2 x3 x7 x6 x4 x5 (ix2 p q)
      = max (((((∑ k : Fin 128, (x0 (ix2 p k) + x1 (ix2 p k)) * x2 (ix2 k q)) + x3 (ix2 0 q)) - x6 (ix2 0 q))
          * Ideal.rsqrt (x7 (ix2 0 q) + Cert.Spec.eps)) * x4 (ix2 0 q) + x5 (ix2 0 q)) 0 := by
  unfold k3_pay1
  simp only [shapeCast_self]
  rw [maximumf_apply, broadcast_apply, addf_apply, mulf_apply, mulf_apply, subf_apply, addf_apply, tileDot_apply]
  simp only [broadcastTo_1b_ab_apply, truncf_apply, addf_apply]

  show max (_ * Ideal.rsqrt (x7 (ix2 0 q) + _) * _ + _) (Ideal.ofBits .f32 0x00000000#32) = _
  rw [Ideal.ofBits_zero_f32]
  rfl

end Cert.KernelIdeal.Hand

end
-- ==== Proof.KI.ValConv3.lean ====
import proofs.«403111_j50835232915932_1_alg».proof.Proof.KI.Conv3
import proofs.«403111_j50835232915932_1_alg».proof.Proof.KI.PayConv3
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

abbrev featArr3 (c : Dev nD) : Vec Ideal S100000x128 .f32 := V c (Pipeline.arrRef spec3 0)

abbrev aggArr3 (c : Dev nD) : Vec Ideal S100000x128 .f32 := V c (Pipeline.arrRef spec3 1)

abbrev weightArr3 (c : Dev nD) : Vec Ideal S128x128 .f32 := V c (Pipeline.arrRef spec3 2)

abbrev biasArr3 (c : Dev nD) : Vec Ideal S1x128 .f32 := V c (Pipeline.arrRef spec3 3)

abbrev gammaArr3 (c : Dev nD) : Vec Ideal S1x128 .f32 := V c (Pipeline.arrRef spec3 4)

abbrev betaArr3 (c : Dev nD) : Vec Ideal S1x128 .f32 := V c (Pipeline.arrRef spec3 5)

abbrev meanArr3 (c : Dev nD) : Vec Ideal S1x128 .f32 := V c (Pipeline.arrRef spec3 6)

abbrev varArr3 (c : Dev nD) : Vec Ideal S1x128 .f32 := V c (Pipeline.arrRef spec3 7)

abbrev layerOut3 (c : Dev nD) : Vec Ideal S100000x128 .f32 :=
  Cert.Spec.conv (featArr3 V c) (aggArr3 V c) (weightArr3 V c) (fun j => biasArr3 V c (ix2 0 (j 0))) (fun j => gammaArr3 V c (ix2 0 (j 0)))
    (fun j => betaArr3 V c (ix2 0 (j 0))) (fun j => meanArr3 V c (ix2 0 (j 0))) (fun j => varArr3 V c (ix2 0 (j 0)))

theorem blockIdx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 ∧ True :=
  (by decide +kernel : ∀ t : Fin grid3.N, _)

theorem featTile3_apply (c : Dev nD) (t : Fin cfg3.N) (p : Fin 2000) (k : Fin 128) (r : Fin 100000) (hr : r.val = 2000 * t.val + p.val) :
    (iblk3 V c 0 t : Vec Ideal S2000x128 .f32) (ix2 p k) = featArr3 V c (ix2 r k) := by
  obtain ⟨e0, e1, -⟩ := blockIdx3 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 2000 + 1 * p.val = r.val; rw [e0, hr]; omega
  | ⟨1, _⟩ => show win3_0.index t (1 : Fin 2) * 128 + 1 * k.val = k.val; rw [e1]; omega

theorem aggTile3_apply (c : Dev nD) (t : Fin cfg3.N) (p : Fin 2000) (k : Fin 128) (r : Fin 100000) (hr : r.val = 2000 * t.val + p.val) :
    (iblk3 V c 1 t : Vec Ideal S2000x128 .f32) (ix2 p k) = aggArr3 V c (ix2 r k) := by
  obtain ⟨-, -, e0, e1, -⟩ := blockIdx3 t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 2000 + 1 * p.val = r.val; rw [e0, hr]; omega
  | ⟨1, _⟩ => show win3_1.index t (1 : Fin 2) * 128 + 1 * k.val = k.val; rw [e1]; omega

theorem weightTile3_eq (c : Dev nD) (t : Fin cfg3.N) : (iblk3 V c 2 t : Vec Ideal S128x128 .f32) = weightArr3 V c := by
  obtain ⟨-, -, -, -, e0, e1, -⟩ := blockIdx3 t
  funext y
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 128 + 1 * (y 0).val = (y 0).val; rw [e0]; omega
  | ⟨1, _⟩ => show win3_2.index t (1 : Fin 2) * 128 + 1 * (y 1).val = (y 1).val; rw [e1]; omega

theorem biasTile3_eq (c : Dev nD) (t : Fin cfg3.N) : (iblk3 V c 3 t : Vec Ideal S1x128 .f32) = biasArr3 V c := by
  obtain ⟨-, -, -, -, -, -, e0, e1, -⟩ := blockIdx3 t
  funext y
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

theorem gammaTile3_eq (c : Dev nD) (t : Fin cfg3.N) : (iblk3 V c 4 t : Vec Ideal S1x128 .f32) = gammaArr3 V c := by
  obtain ⟨-, -, -, -, -, -, -, -, e0, e1, -⟩ := blockIdx3 t
  funext y
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

theorem betaTile3_eq (c : Dev nD) (t : Fin cfg3.N) : (iblk3 V c 5 t : Vec Ideal S1x128 .f32) = betaArr3 V c := by
  obtain ⟨-, -, -, -, -, -, -, -, -, -, e0, e1, -⟩ := blockIdx3 t
  funext y
  unfold iblk3
  rw [View.read_apply]
  show V c (Pipeline.arrRef spec3 5) _ = V c (Pipeline.arrRef spec3 5) _
  congr 1
  funext a
  apply Fin.ext
  match a with
  | ⟨0, _⟩ => show win3_5.index t (0 : Fin 2) * 1 + 1 * (y 0).val = (y 0).val; rw [e0]; omega
  | ⟨1, _⟩ => show win3_5.index t (1 : Fin 2) * 128 + 1 * (y 1).val = (y 1).val; rw [e1]; omega

theorem meanTile3_eq (c : Dev nD) (t : Fin cfg3.N) : (iblk3 V c 6 t : Vec Ideal S1x128 .f32) = meanArr3 V c := by
  obtain ⟨-, -, -, -, -, -, -, -, -, -, -, -, e0, e1, -⟩ := blockIdx3 t
  funext y
  unfold iblk3
  rw [View.read_apply]
  show V c (Pipeline.arrRef spec3 6) _ = V c (Pipeline.arrRef spec3 6) _
  congr 1
  funext a
  apply Fin.ext
  match a with
  | ⟨0, _⟩ => show win3_6.index t (0 : Fin 2) * 1 + 1 * (y 0).val = (y 0).val; rw [e0]; omega
  | ⟨1, _⟩ => show win3_6.index t (1 : Fin 2) * 128 + 1 * (y 1).val = (y 1).val; rw [e1]; omega

theorem varTile3_eq (c : Dev nD) (t : Fin cfg3.N) : (iblk3 V c 7 t : Vec Ideal S1x128 .f32) = varArr3 V c := by
  obtain ⟨-, -, -, -, -, -, -, -, -, -, -, -, -, -, e0, e1, -⟩ := blockIdx3 t
  funext y
  unfold iblk3
  rw [View.read_apply]
  show V c (Pipeline.arrRef spec3 7) _ = V c (Pipeline.arrRef spec3 7) _
  congr 1
  funext a
  apply Fin.ext
  match a with
  | ⟨0, _⟩ => show win3_7.index t (0 : Fin 2) * 1 + 1 * (y 0).val = (y 0).val; rw [e0]; omega
  | ⟨1, _⟩ => show win3_7.index t (1 : Fin 2) * 128 + 1 * (y 1).val = (y 1).val; rw [e1]; omega

theorem convTile3_at (h a : Vec Ideal S100000x128 .f32) (W : Vec Ideal S128x128 .f32) (b g s μ v : Vec Ideal S1x128 .f32)
    (x0 x1 : Vec Ideal S2000x128 .f32) (x2 : Vec Ideal S128x128 .f32) (x3 x4 x5 x6 x7 : Vec Ideal S1x128 .f32)
    (j : S2000x128.Idx) (i : S100000x128.Idx) (p : Fin 2000) (q : Fin 128) (r : Fin 100000)
    (hj : j = ix2 p q) (hi : i = ix2 r q)
    (e0 : ∀ k : Fin 128, x0 (ix2 p k) = h (ix2 r k)) (e1 : ∀ k : Fin 128, x1 (ix2 p k) = a (ix2 r k))
    (e2 : x2 = W) (e3 : x3 = b) (e4 : x4 = g) (e5 : x5 = s) (e6 : x6 = μ) (e7 : x7 = v) :
    k3_pay1 (F := Ideal) x0 x1 x2 x3 x7 x6 x4 x5 j
      = Cert.Spec.conv h a W (fun d => b (ix2 0 (d 0))) (fun d => g (ix2 0 (d 0))) (fun d => s (ix2 0 (d 0)))
          (fun d => μ (ix2 0 (d 0))) (fun d => v (ix2 0 (d 0))) i := by
  subst hj hi e2 e3 e4 e5 e6 e7
  rw [pay3_apply]
  have hs : (∑ k : Fin 128, (x0 (ix2 p k) + x1 (ix2 p k)) * x2 (ix2 k q))
      = ∑ k : Fin 128, (h (ix2 r k) + a (ix2 r k)) * x2 (ix2 k q) :=
    Finset.sum_congr rfl fun k _ => by rw [e0 k, e1 k]
  rw [hs]
  rfl

theorem flushed3_8_eq (c : Dev nD) (t : Fin cfg3.N) :
    (dat3 V c).flushed 8 t = ((cfg3.win 8).blk t).view.read (Elt Ideal) (layerOut3 V c) := by
  show (cfg3.win 8).cut (grid3.coords t) ((dat3 V c).after 8 t) = _
  rw [after3_8]
  unfold out3_8
  rw [View.canon_unit_zero zeroOffsets]
  simp only [View.ld_unit_zero (S := S2000x128) zeroOffsets, View.ld_unit_zero (S := S128x128) zeroOffsets,
    View.ld_unit_zero (S := S1x128) zeroOffsets]
  obtain ⟨-, -, -, -, -, -, -, -, -, -, -, -, -, -, -, -, o0, o1, -⟩ := blockIdx3 t
  have hN : cfg3.N = 50 := N_3
  have ht : t.val < 50 := lt_of_lt_of_eq t.isLt hN
  funext y
  have hp : (y 0).val < 2000 := (y 0).isLt
  have hq : (y 1).val < 128 := (y 1).isLt
  have hj : (cfg3.win 8).xinj (grid3.coords t) y = ix2 (⟨(y 0).val, hp⟩ : Fin 2000) (⟨(y 1).val, hq⟩ : Fin 128) :=
    funext fun a => by match a with | ⟨0, _⟩ => rfl | ⟨1, _⟩ => rfl
  have hi : ((cfg3.win 8).blk t).view.emb y
      = ix2 (⟨2000 * t.val + (y 0).val, by omega⟩ : Fin 100000) (⟨(y 1).val, hq⟩ : Fin 128) :=
    funext fun a => Fin.ext (by
      match a with
      | ⟨0, _⟩ => show win3_8.index t (0 : Fin 2) * 2000 + 1 * (y 0).val = 2000 * t.val + (y 0).val; rw [o0]; omega
      | ⟨1, _⟩ => show win3_8.index t (1 : Fin 2) * 128 + 1 * (y 1).val = (y 1).val; rw [o1]; omega)
  exact convTile3_at (featArr3 V c) (aggArr3 V c) (weightArr3 V c) (biasArr3 V c) (gammaArr3 V c) (betaArr3 V c) (meanArr3 V c) (varArr3 V c)
    (iblk3 V c 0 t) (iblk3 V c 1 t) (iblk3 V c 2 t) (iblk3 V c 3 t) (iblk3 V c 4 t) (iblk3 V c 5 t) (iblk3 V c 6 t) (iblk3 V c 7 t)
    ((cfg3.win 8).xinj (grid3.coords t) y) (((cfg3.win 8).blk t).view.emb y)
    ⟨(y 0).val, hp⟩ ⟨(y 1).val, hq⟩ ⟨2000 * t.val + (y 0).val, by omega⟩ hj hi
    (fun k => featTile3_apply V c t _ k _ rfl) (fun k => aggTile3_apply V c t _ k _ rfl)
    (weightTile3_eq V c t) (biasTile3_eq V c t) (gammaTile3_eq V c t) (betaTile3_eq V c t) (meanTile3_eq V c t) (varTile3_eq V c t)

theorem mem_tile3_8 (t : Fin cfg3.N) (i : S100000x128.Idx) :
    i ∈ ((cfg3.win 8).blk t).view.set ↔ ∀ a : Fin 2, win3_8.index t a * S2000x128.size a ≤ (i a).val
      ∧ (i a).val < win3_8.index t a * S2000x128.size a + S2000x128.size a := by
  show i ∈ ((View.whole (Pipeline.arrRef spec3 8)).slice (win3_8.rect t)).set ↔ _
  rw [View.set_slice_whole, Rect.mem_set_unit]
  exact Iff.rfl

theorem tiles_cover3_8 (i : S100000x128.Idx) :
    ∃ t : Fin cfg3.N, (cfg3.win 8).flush t = true ∧ i ∈ ((cfg3.win 8).blk t).view.set := by
  have hi0 : (i 0).val < 100000 := (i 0).isLt
  have hi1 : (i 1).val < 128 := (i 1).isLt
  have hN : cfg3.N = 50 := N_3
  have ht : (i 0).val / 2000 < cfg3.N := by rw [hN]; omega
  obtain ⟨-, -, -, -, -, -, -, -, -, -, -, -, -, -, -, -, o0, o1, -⟩ := blockIdx3 ⟨(i 0).val / 2000, ht⟩
  refine ⟨⟨(i 0).val / 2000, ht⟩, flush3_8 _, ?_⟩
  rw [mem_tile3_8]
  intro a
  match a with
  | ⟨0, _⟩ =>
    show win3_8.index ⟨(i 0).val / 2000, ht⟩ (0 : Fin 2) * 2000 ≤ (i 0).val
      ∧ (i 0).val < win3_8.index ⟨(i 0).val / 2000, ht⟩ (0 : Fin 2) * 2000 + 2000
    rw [o0]; show (i 0).val / 2000 * 2000 ≤ (i 0).val ∧ (i 0).val < (i 0).val / 2000 * 2000 + 2000; omega
  | ⟨1, _⟩ =>
    show win3_8.index ⟨(i 0).val / 2000, ht⟩ (1 : Fin 2) * 128 ≤ (i 1).val
      ∧ (i 1).val < win3_8.index ⟨(i 0).val / 2000, ht⟩ (1 : Fin 2) * 128 + 128
    rw [o1]; omega

theorem arr3_8 (c : Dev nD) : (dat3 V c).arrAt 8 cfg3.N
    = Cert.Spec.conv (V c (Pipeline.arrRef spec3 0)) (V c (Pipeline.arrRef spec3 1)) (V c (Pipeline.arrRef spec3 2))
        (fun j => V c (Pipeline.arrRef spec3 3) (ix2 0 (j 0))) (fun j => V c (Pipeline.arrRef spec3 4) (ix2 0 (j 0)))
        (fun j => V c (Pipeline.arrRef spec3 5) (ix2 0 (j 0))) (fun j => V c (Pipeline.arrRef spec3 6) (ix2 0 (j 0)))
        (fun j => V c (Pipeline.arrRef spec3 7) (ix2 0 (j 0))) :=
  (dat3 V c).arrAt_eq_of_cover 8 (layerOut3 V c) (fun t _ => flushed3_8_eq V c t) tiles_cover3_8

end Cert.KernelIdeal.Hand

end
-- ==== Proof.KI.PayPool.lean ====
import proofs.«403111_j50835232915932_1_alg».proof.Proof.Gen.KernelIdeal.Skeleton
import proofs.«403111_j50835232915932_1_alg».proof.Proof.Spec
import Idealize.ShloMosaic.Lib.Pipeline.Value
import Idealize.ShloMosaic.Lib.ValueIdx
import Idealize.ShloMosaic.PureOps.Ideal.Laws

set_option synthInstance.maxSize 4096

noncomputable section

namespace Cert.KernelIdeal.Hand

open Cert.KernelIdeal Cert.KernelIdeal.Gen Idealize.ShloMosaic Idealize.ShloMosaic.ValueIdx Idealize.SL.Sem

theorem poolPay1_apply (g : Fin 128) (f : Fin 512) : k4_pay1 (F := Ideal) (ix2 g f) = 0 := by
  unfold k4_pay1
  rw [shapeCast_self]
  exact Ideal.ofBits_zero_f32

theorem lhs_pool_0 (i : S128x512.Idx) (q : dot_S2000x128_S2000x512_S128x512_0_0_1_1_n_n.contr.Idx) :
    (dot_S2000x128_S2000x512_S128x512_0_0_1_1_n_n.lhsIdx i q 0).val = (q ⟨0, by decide⟩).val :=
  dot_S2000x128_S2000x512_S128x512_0_0_1_1_n_n.lhsIdx_val_of_single rfl i q
theorem lhs_pool_1 (i : S128x512.Idx) (q : dot_S2000x128_S2000x512_S128x512_0_0_1_1_n_n.contr.Idx) :
    (dot_S2000x128_S2000x512_S128x512_0_0_1_1_n_n.lhsIdx i q 1).val = (i 0).val := by
  unfold DotDims.lhsIdx
  rw [dif_neg (show ¬(1 : Fin S2000x128.rank) ∈ dot_S2000x128_S2000x512_S128x512_0_0_1_1_n_n.lhsBatch by decide), dif_pos (show (1 : Fin S2000x128.rank) ∈ dot_S2000x128_S2000x512_S128x512_0_0_1_1_n_n.lhsNonContracting by decide)]
  rfl
theorem rhs_pool_0 (i : S128x512.Idx) (q : dot_S2000x128_S2000x512_S128x512_0_0_1_1_n_n.contr.Idx) :
    (dot_S2000x128_S2000x512_S128x512_0_0_1_1_n_n.rhsIdx i q 0).val = (q ⟨0, by decide⟩).val :=
  dot_S2000x128_S2000x512_S128x512_0_0_1_1_n_n.rhsIdx_val_of_single rfl i q
theorem rhs_pool_1 (i : S128x512.Idx) (q : dot_S2000x128_S2000x512_S128x512_0_0_1_1_n_n.contr.Idx) :
    (dot_S2000x128_S2000x512_S128x512_0_0_1_1_n_n.rhsIdx i q 1).val = (i 1).val := by
  unfold DotDims.rhsIdx
  rw [dif_neg (show ¬(1 : Fin S2000x512.rank) ∈ dot_S2000x128_S2000x512_S128x512_0_0_1_1_n_n.rhsBatch by decide), dif_pos (show (1 : Fin S2000x512.rank) ∈ dot_S2000x128_S2000x512_S128x512_0_0_1_1_n_n.rhsNonContracting by decide)]
  rfl

theorem pool_matmul_apply (l : FVec Ideal S2000x128 .bf16) (r : FVec Ideal S2000x512 .bf16) (g : Fin 128) (f : Fin 512) :
    matmul dot_S2000x128_S2000x512_S128x512_0_0_1_1_n_n none l r (constant (F := Ideal) S128x512 .f32 0x00000000#32) (ix2 g f)
      = ∑ k : Fin 2000, l (ix2 k g) * r (ix2 k f) := by
  simp only [matmul]
  rw [Ideal.matmul_constant_zero_apply, ← Equiv.sum_comp (contrEquiv1 dot_S2000x128_S2000x512_S128x512_0_0_1_1_n_n 2000 rfl rfl).symm]
  refine Finset.sum_congr rfl fun k _ => ?_
  have hk := contrEquiv1_symm_val dot_S2000x128_S2000x512_S128x512_0_0_1_1_n_n 2000 rfl rfl k
  have el : dot_S2000x128_S2000x512_S128x512_0_0_1_1_n_n.lhsIdx (ix2 g f) ((contrEquiv1 dot_S2000x128_S2000x512_S128x512_0_0_1_1_n_n 2000 rfl rfl).symm k) = ix2 k g := funext fun a => Fin.ext (by
    match a with
    | ⟨0, _⟩ => exact (lhs_pool_0 _ _).trans hk
    | ⟨1, _⟩ => exact lhs_pool_1 _ _)
  have er : dot_S2000x128_S2000x512_S128x512_0_0_1_1_n_n.rhsIdx (ix2 g f) ((contrEquiv1 dot_S2000x128_S2000x512_S128x512_0_0_1_1_n_n 2000 rfl rfl).symm k) = ix2 k f := funext fun a => Fin.ext (by
    match a with
    | ⟨0, _⟩ => exact (rhs_pool_0 _ _).trans hk
    | ⟨1, _⟩ => exact rhs_pool_1 _ _)
  rw [el, er]

theorem onehot_apply (b : Vec Ideal S2000x1 .i32) (k : Fin 2000) (g : Fin 128) :
    (truncf .bf16 (sitofp .f32 (extui 32 (cmpi .eq (broadcastTo S2000x128 (shapeCast S2000x1 b shapeCasts_S2000x1_S2000x1) broadcasts_S2000x1_S2000x128)
        (iota .tc S2000x128 32 [1] iota_S2000x128_d1_w32)) natLt_1_32) : FVec Ideal S2000x128 .f32) bitsLt_bf16_f32 : FVec Ideal S2000x128 .bf16) (ix2 k g)
      = if b (ix2 k 0) = BitVec.ofNat 32 g.val then 1 else 0 := by
  rw [truncf_apply, sitofp_apply, extui_apply]
  show FloatOps.sitofp (F := Ideal) .f32 ((IntOp.cmpi .eq (broadcastTo S2000x128 (shapeCast S2000x1 b shapeCasts_S2000x1_S2000x1) broadcasts_S2000x1_S2000x128 (ix2 k g))
      (iota .tc S2000x128 32 [1] iota_S2000x128_d1_w32 (ix2 k g))).setWidth 32) = _
  rw [broadcastTo_apply _ broadcasts_S2000x1_S2000x128 (ix2 k g) (ix2 k 0) (fun a => match a with
    | ⟨0, _⟩ => by show k.val = if (2000 : Nat) = 1 then 0 else k.val; rw [if_neg (by decide)]
    | ⟨1, _⟩ => by show 0 = if (1 : Nat) = 1 then 0 else g.val; rw [if_pos rfl]),
    iota_single_apply, shapeCast_self]
  show ((((IntOp.cmpi .eq (b (ix2 k 0)) (BitVec.ofNat 32 g.val)).setWidth 32).toInt : ℝ) : EReal) = _
  by_cases h : b (ix2 k 0) = BitVec.ofNat 32 g.val
  · rw [if_pos h, h]
    simp [IntOp.cmpi]
  · rw [if_neg h]
    have : (b (ix2 k 0) == BitVec.ofNat 32 g.val) = false := beq_eq_false_iff_ne.mpr h
    simp [IntOp.cmpi, this]

theorem poolPay2_apply (b : Vec Ideal S2000x1 .i32) (x : Vec Ideal S2000x512 .bf16) (acc : Vec Ideal S128x512 .f32) (g : Fin 128) (f : Fin 512) :
    k4_pay2 (F := Ideal) b x acc (ix2 g f)
      = acc (ix2 g f) + ∑ k : Fin 2000, if b (ix2 k 0) = BitVec.ofNat 32 g.val then x (ix2 k f) else 0 := by
  unfold k4_pay2
  rw [shapeCast_self, addf_apply, pool_matmul_apply]
  refine congrArg (acc (ix2 g f) + ·) (Finset.sum_congr rfl fun k _ => ?_)
  rw [onehot_apply, shapeCast_self]
  by_cases h : b (ix2 k 0) = BitVec.ofNat 32 g.val
  · rw [if_pos h, if_pos h, one_mul]
  · rw [if_neg h, if_neg h, zero_mul]

theorem lhs_hidden_0 (i : S128x256.Idx) (q : dot_S128x512_S512x256_S128x256_1_0_0_1_n_n.contr.Idx) :
    (dot_S128x512_S512x256_S128x256_1_0_0_1_n_n.lhsIdx i q 0).val = (i 0).val := by
  unfold DotDims.lhsIdx
  rw [dif_neg (show ¬(0 : Fin S128x512.rank) ∈ dot_S128x512_S512x256_S128x256_1_0_0_1_n_n.lhsBatch by decide), dif_pos (show (0 : Fin S128x512.rank) ∈ dot_S128x512_S512x256_S128x256_1_0_0_1_n_n.lhsNonContracting by decide)]
  rfl
theorem lhs_hidden_1 (i : S128x256.Idx) (q : dot_S128x512_S512x256_S128x256_1_0_0_1_n_n.contr.Idx) :
    (dot_S128x512_S512x256_S128x256_1_0_0_1_n_n.lhsIdx i q 1).val = (q ⟨0, by decide⟩).val :=
  dot_S128x512_S512x256_S128x256_1_0_0_1_n_n.lhsIdx_val_of_single rfl i q
theorem rhs_hidden_0 (i : S128x256.Idx) (q : dot_S128x512_S512x256_S128x256_1_0_0_1_n_n.contr.Idx) :
    (dot_S128x512_S512x256_S128x256_1_0_0_1_n_n.rhsIdx i q 0).val = (q ⟨0, by decide⟩).val :=
  dot_S128x512_S512x256_S128x256_1_0_0_1_n_n.rhsIdx_val_of_single rfl i q
theorem rhs_hidden_1 (i : S128x256.Idx) (q : dot_S128x512_S512x256_S128x256_1_0_0_1_n_n.contr.Idx) :
    (dot_S128x512_S512x256_S128x256_1_0_0_1_n_n.rhsIdx i q 1).val = (i 1).val := by
  unfold DotDims.rhsIdx
  rw [dif_neg (show ¬(1 : Fin S512x256.rank) ∈ dot_S128x512_S512x256_S128x256_1_0_0_1_n_n.rhsBatch by decide), dif_pos (show (1 : Fin S512x256.rank) ∈ dot_S128x512_S512x256_S128x256_1_0_0_1_n_n.rhsNonContracting by decide)]
  rfl

theorem hidden_matmul_apply (l : FVec Ideal S128x512 .bf16) (r : FVec Ideal S512x256 .bf16) (g : Fin 128) (u : Fin 256) :
    matmul dot_S128x512_S512x256_S128x256_1_0_0_1_n_n none l r (constant (F := Ideal) S128x256 .f32 0x00000000#32) (ix2 g u)
      = ∑ k : Fin 512, l (ix2 g k) * r (ix2 k u) := by
  simp only [matmul]
  rw [Ideal.matmul_constant_zero_apply, ← Equiv.sum_comp (contrEquiv1 dot_S128x512_S512x256_S128x256_1_0_0_1_n_n 512 rfl rfl).symm]
  refine Finset.sum_congr rfl fun k _ => ?_
  have hk := contrEquiv1_symm_val dot_S128x512_S512x256_S128x256_1_0_0_1_n_n 512 rfl rfl k
  have el : dot_S128x512_S512x256_S128x256_1_0_0_1_n_n.lhsIdx (ix2 g u) ((contrEquiv1 dot_S128x512_S512x256_S128x256_1_0_0_1_n_n 512 rfl rfl).symm k) = ix2 g k := funext fun a => Fin.ext (by
    match a with
    | ⟨0, _⟩ => exact lhs_hidden_0 _ _
    | ⟨1, _⟩ => exact (lhs_hidden_1 _ _).trans hk)
  have er : dot_S128x512_S512x256_S128x256_1_0_0_1_n_n.rhsIdx (ix2 g u) ((contrEquiv1 dot_S128x512_S512x256_S128x256_1_0_0_1_n_n 512 rfl rfl).symm k) = ix2 k u := funext fun a => Fin.ext (by
    match a with
    | ⟨0, _⟩ => exact (rhs_hidden_0 _ _).trans hk
    | ⟨1, _⟩ => exact rhs_hidden_1 _ _)
  rw [el, er]

theorem lhs_logits_0 (i : S128x10.Idx) (q : dot_S128x256_S256x10_S128x10_1_0_0_1_n_n.contr.Idx) :
    (dot_S128x256_S256x10_S128x10_1_0_0_1_n_n.lhsIdx i q 0).val = (i 0).val := by
  unfold DotDims.lhsIdx
  rw [dif_neg (show ¬(0 : Fin S128x256.rank) ∈ dot_S128x256_S256x10_S128x10_1_0_0_1_n_n.lhsBatch by decide), dif_pos (show (0 : Fin S128x256.rank) ∈ dot_S128x256_S256x10_S128x10_1_0_0_1_n_n.lhsNonContracting by decide)]
  rfl
theorem lhs_logits_1 (i : S128x10.Idx) (q : dot_S128x256_S256x10_S128x10_1_0_0_1_n_n.contr.Idx) :
    (dot_S128x256_S256x10_S128x10_1_0_0_1_n_n.lhsIdx i q 1).val = (q ⟨0, by decide⟩).val :=
  dot_S128x256_S256x10_S128x10_1_0_0_1_n_n.lhsIdx_val_of_single rfl i q
theorem rhs_logits_0 (i : S128x10.Idx) (q : dot_S128x256_S256x10_S128x10_1_0_0_1_n_n.contr.Idx) :
    (dot_S128x256_S256x10_S128x10_1_0_0_1_n_n.rhsIdx i q 0).val = (q ⟨0, by decide⟩).val :=
  dot_S128x256_S256x10_S128x10_1_0_0_1_n_n.rhsIdx_val_of_single rfl i q
theorem rhs_logits_1 (i : S128x10.Idx) (q : dot_S128x256_S256x10_S128x10_1_0_0_1_n_n.contr.Idx) :
    (dot_S128x256_S256x10_S128x10_1_0_0_1_n_n.rhsIdx i q 1).val = (i 1).val := by
  unfold DotDims.rhsIdx
  rw [dif_neg (show ¬(1 : Fin S256x10.rank) ∈ dot_S128x256_S256x10_S128x10_1_0_0_1_n_n.rhsBatch by decide), dif_pos (show (1 : Fin S256x10.rank) ∈ dot_S128x256_S256x10_S128x10_1_0_0_1_n_n.rhsNonContracting by decide)]
  rfl

theorem logits_matmul_apply (l : FVec Ideal S128x256 .bf16) (r : FVec Ideal S256x10 .bf16) (g : Fin 128) (u : Fin 10) :
    matmul dot_S128x256_S256x10_S128x10_1_0_0_1_n_n none l r (constant (F := Ideal) S128x10 .f32 0x00000000#32) (ix2 g u)
      = ∑ k : Fin 256, l (ix2 g k) * r (ix2 k u) := by
  simp only [matmul]
  rw [Ideal.matmul_constant_zero_apply, ← Equiv.sum_comp (contrEquiv1 dot_S128x256_S256x10_S128x10_1_0_0_1_n_n 256 rfl rfl).symm]
  refine Finset.sum_congr rfl fun k _ => ?_
  have hk := contrEquiv1_symm_val dot_S128x256_S256x10_S128x10_1_0_0_1_n_n 256 rfl rfl k
  have el : dot_S128x256_S256x10_S128x10_1_0_0_1_n_n.lhsIdx (ix2 g u) ((contrEquiv1 dot_S128x256_S256x10_S128x10_1_0_0_1_n_n 256 rfl rfl).symm k) = ix2 g k := funext fun a => Fin.ext (by
    match a with
    | ⟨0, _⟩ => exact lhs_logits_0 _ _
    | ⟨1, _⟩ => exact (lhs_logits_1 _ _).trans hk)
  have er : dot_S128x256_S256x10_S128x10_1_0_0_1_n_n.rhsIdx (ix2 g u) ((contrEquiv1 dot_S128x256_S256x10_S128x10_1_0_0_1_n_n 256 rfl rfl).symm k) = ix2 k u := funext fun a => Fin.ext (by
    match a with
    | ⟨0, _⟩ => exact (rhs_logits_0 _ _).trans hk
    | ⟨1, _⟩ => exact rhs_logits_1 _ _)
  rw [el, er]

theorem poolPay3_apply (acc : Vec Ideal S128x512 .f32) (w1 : Vec Ideal S512x256 .f32) (b1 : Vec Ideal S1x256 .f32)
    (w2 : Vec Ideal S256x10 .f32) (b2 : Vec Ideal S1x10 .f32) (g : Fin 128) (o : Fin 10) :
    k4_pay3 (F := Ideal) acc w1 b1 w2 b2 (ix2 g o)
      = Cert.Spec.logitsAt (fun i => Cert.Spec.hiddenAt acc w1 (fun u => b1 (ix2 0 (u 0))) (i 0) (i 1)) w2
          (fun o' => b2 (ix2 0 (o' 0))) g o := by
  unfold k4_pay3
  rw [addf_apply, logits_matmul_apply,
    broadcastTo_apply _ broadcasts_S1x10_S128x10 (ix2 g o) (ix2 0 o) (fun a => match a with
      | ⟨0, _⟩ => by show 0 = if (1 : Nat) = 1 then 0 else g.val; rw [if_pos rfl]
      | ⟨1, _⟩ => by show o.val = if (10 : Nat) = 1 then 0 else o.val; rw [if_neg (by decide)]),
    shapeCast_self b2]
  unfold Cert.Spec.logitsAt
  refine congrArg₂ (· + ·) (Finset.sum_congr rfl fun k _ => congrArg₂ (· * ·) ?_ rfl) rfl
  rw [truncf_apply, maximumf_apply, addf_apply, hidden_matmul_apply, broadcast_apply,
    broadcastTo_apply _ broadcasts_S1x256_S128x256 (ix2 g k) (ix2 0 k) (fun a => match a with
      | ⟨0, _⟩ => by show 0 = if (1 : Nat) = 1 then 0 else g.val; rw [if_pos rfl]
      | ⟨1, _⟩ => by show k.val = if (256 : Nat) = 1 then 0 else k.val; rw [if_neg (by decide)]),
    shapeCast_self b1]
  show max ((∑ k' : Fin 512, acc (ix2 g k') * w1 (ix2 k' k)) + b1 (ix2 0 k)) (Ideal.ofBits .f32 0x00000000#32) = _
  rw [Ideal.ofBits_zero_f32]
  rfl

end Cert.KernelIdeal.Hand

end
-- ==== Proof.KI.PoolSum.lean ====
import proofs.«403111_j50835232915932_1_alg».proof.Proof.Spec
import Mathlib.Algebra.BigOperators.Fin
import Mathlib.Logic.Equiv.Fin.Basic

noncomputable section

namespace Cert.KernelIdeal.Hand

open scoped BigOperators

theorem accum_eq_range (N : ℕ) (a s : ℕ → EReal)
    (hstep : ∀ n, n < N → a (n + 1) = (if n = 0 then 0 else a n) + s n) :
    ∀ n, n < N → a (n + 1) = ∑ t ∈ Finset.range (n + 1), s t := by
  intro n
  induction n with
  | zero =>
    intro h
    rw [hstep 0 h, if_pos rfl, zero_add, Finset.sum_range_one]
  | succ n ih =>
    intro h
    rw [hstep (n + 1) h, if_neg (Nat.succ_ne_zero n), ih (Nat.lt_of_succ_lt h), ← Finset.sum_range_succ]

theorem accum_from_zero_eq_range (N : ℕ) (a s : ℕ → EReal) (h0 : a 0 = 0)
    (hstep : ∀ n, n < N → a (n + 1) = a n + s n) :
    ∀ n, n ≤ N → a n = ∑ t ∈ Finset.range n, s t := by
  intro n
  induction n with
  | zero =>
    intro _
    rw [h0, Finset.sum_range_zero]
  | succ n ih =>
    intro h
    rw [hstep n h, ih (Nat.le_of_succ_le h), ← Finset.sum_range_succ]

theorem sum_blocks_eq_sum_rows (Fn : Fin 100000 → EReal) :
    ∑ t : Fin 50, ∑ k : Fin 2000, Fn ⟨2000 * t.val + k.val, by have := t.isLt; have := k.isLt; omega⟩ = ∑ n : Fin 100000, Fn n := by
  rw [← Fintype.sum_prod_type (f := fun p : Fin 50 × Fin 2000 => Fn ⟨2000 * p.1.val + p.2.val, by have := p.1.isLt; have := p.2.isLt; omega⟩)]
  refine Fintype.sum_equiv (finProdFinEquiv (m := 50) (n := 2000)) _ Fn fun p => congrArg Fn (Fin.ext ?_)
  show 2000 * p.1.val + p.2.val = p.2.val + 2000 * p.1.val
  omega

theorem pool_accum (a s : ℕ → EReal) (Fn : Fin 100000 → EReal)
    (hstep : ∀ n, n < 50 → a (n + 1) = (if n = 0 then 0 else a n) + s n)
    (hs : ∀ t (h : t < 50), s t = ∑ k : Fin 2000, Fn ⟨2000 * t + k.val, by have := k.isLt; omega⟩) :
    a 50 = ∑ n : Fin 100000, Fn n := by
  rw [accum_eq_range 50 a s hstep 49 (by decide), Finset.sum_range, ← sum_blocks_eq_sum_rows]
  exact Finset.sum_congr rfl fun t _ => hs t.val t.isLt

theorem pool_accum_from_zero (a s : ℕ → EReal) (Fn : Fin 100000 → EReal) (h0 : a 0 = 0)
    (hstep : ∀ n, n < 50 → a (n + 1) = a n + s n)
    (hs : ∀ t (h : t < 50), s t = ∑ k : Fin 2000, Fn ⟨2000 * t + k.val, by have := k.isLt; omega⟩) :
    a 50 = ∑ n : Fin 100000, Fn n := by
  rw [accum_from_zero_eq_range 50 a s h0 hstep 50 (Nat.le_refl 50), Finset.sum_range, ← sum_blocks_eq_sum_rows]
  exact Finset.sum_congr rfl fun t _ => hs t.val t.isLt

end Cert.KernelIdeal.Hand

end
-- ==== Proof.KI.ValPool.lean ====
import proofs.«403111_j50835232915932_1_alg».proof.Proof.KI.Pool
import proofs.«403111_j50835232915932_1_alg».proof.Proof.KI.PayPool
import proofs.«403111_j50835232915932_1_alg».proof.Proof.KI.PoolSum

set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

abbrev batchCol (c : Dev nD) : S100000x1.Idx → BitVec 32 := V c (Pipeline.arrRef spec4 0)

abbrev featArr (c : Dev nD) : S100000x512.Idx → EReal := V c (Pipeline.arrRef spec4 1)

abbrev w1Arr (c : Dev nD) : S512x256.Idx → EReal := V c (Pipeline.arrRef spec4 2)

abbrev b1Row (c : Dev nD) : S1x256.Idx → EReal := V c (Pipeline.arrRef spec4 3)

abbrev w2Arr (c : Dev nD) : S256x10.Idx → EReal := V c (Pipeline.arrRef spec4 4)

abbrev b2Row (c : Dev nD) : S1x10.Idx → EReal := V c (Pipeline.arrRef spec4 5)

theorem pool_index_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

theorem batch_block_apply (c : Dev nD) (t : Fin cfg4.N) (k : Fin 2000) :
    (iblk4 V c 0 t : Vec Ideal S2000x1 .i32) (ix2 k 0)
      = batchCol V c (ix2 ⟨2000 * t.val + k.val, by have := k.isLt; have ht : t.val < 50 := N_4 ▸ t.isLt; omega⟩ 0) := by
  obtain ⟨e0, e1, -⟩ := pool_index_facts t
  unfold iblk4
  rw [View.read_apply]
  show V c (Pipeline.arrRef spec4 0) _ = V c (Pipeline.arrRef spec4 0) _
  congr 1
  funext a
  apply Fin.ext
  match a with
  | ⟨0, _⟩ => show win4_0.index t 0 * 2000 + 1 * k.val = 2000 * t.val + k.val; rw [e0]; omega
  | ⟨1, _⟩ => show win4_0.index t 1 * 1 + 1 * 0 = 0; rw [e1]

theorem feat_block_apply (c : Dev nD) (t : Fin cfg4.N) (k : Fin 2000) (f : Fin 512) :
    (iblk4 V c 1 t : Vec Ideal S2000x512 .bf16) (ix2 k f)
      = featArr V c (ix2 ⟨2000 * t.val + k.val, by have := k.isLt; have ht : t.val < 50 := N_4 ▸ t.isLt; omega⟩ f) := by
  obtain ⟨-, -, e0, e1, -⟩ := pool_index_facts t
  unfold iblk4
  rw [View.read_apply]
  show V c (Pipeline.arrRef spec4 1) _ = V c (Pipeline.arrRef spec4 1) _
  congr 1
  funext a
  apply Fin.ext
  match a with
  | ⟨0, _⟩ => show win4_1.index t 0 * 2000 + 1 * k.val = 2000 * t.val + k.val; rw [e0]; omega
  | ⟨1, _⟩ => show win4_1.index t 1 * 512 + 1 * f.val = f.val; rw [e1]; omega

theorem w1_block_eq (c : Dev nD) (t : Fin cfg4.N) : (iblk4 V c 2 t : Vec Ideal S512x256 .f32) = w1Arr V c := by
  obtain ⟨-, -, -, -, e0, e1, -⟩ := pool_index_facts t
  funext j
  unfold iblk4
  rw [View.read_apply]
  show V c (Pipeline.arrRef spec4 2) _ = V c (Pipeline.arrRef spec4 2) _
  congr 1
  funext a
  apply Fin.ext
  match a with
  | ⟨0, _⟩ => show win4_2.index t 0 * 512 + 1 * (j 0).val = (j 0).val; rw [e0]; omega
  | ⟨1, _⟩ => show win4_2.index t 1 * 256 + 1 * (j 1).val = (j 1).val; rw [e1]; omega

theorem b1_block_eq (c : Dev nD) (t : Fin cfg4.N) : (iblk4 V c 3 t : Vec Ideal S1x256 .f32) = b1Row V c := by
  obtain ⟨-, -, -, -, -, -, e0, e1, -⟩ := pool_index_facts t
  funext j
  unfold iblk4
  rw [View.read_apply]
  show V c (Pipeline.arrRef spec4 3) _ = V c (Pipeline.arrRef spec4 3) _
  congr 1
  funext a
  apply Fin.ext
  match a with
  | ⟨0, _⟩ => show win4_3.index t 0 * 1 + 1 * (j 0).val = (j 0).val; rw [e0]; omega
  | ⟨1, _⟩ => show win4_3.index t 1 * 256 + 1 * (j 1).val = (j 1).val; rw [e1]; omega

theorem w2_block_eq (c : Dev nD) (t : Fin cfg4.N) : (iblk4 V c 4 t : Vec Ideal S256x10 .f32) = w2Arr V c := by
  obtain ⟨-, -, -, -, -, -, -, -, e0, e1, -⟩ := pool_index_facts t
  funext j
  unfold iblk4
  rw [View.read_apply]
  show V c (Pipeline.arrRef spec4 4) _ = V c (Pipeline.arrRef spec4 4) _
  congr 1
  funext a
  apply Fin.ext
  match a with
  | ⟨0, _⟩ => show win4_4.index t 0 * 256 + 1 * (j 0).val = (j 0).val; rw [e0]; omega
  | ⟨1, _⟩ => show win4_4.index t 1 * 10 + 1 * (j 1).val = (j 1).val; rw [e1]; omega

theorem b2_block_eq (c : Dev nD) (t : Fin cfg4.N) : (iblk4 V c 5 t : Vec Ideal S1x10 .f32) = b2Row V c := by
  obtain ⟨-, -, -, -, -, -, -, -, -, -, e0, e1⟩ := pool_index_facts t
  funext j
  unfold iblk4
  rw [View.read_apply]
  show V c (Pipeline.arrRef spec4 5) _ = V c (Pipeline.arrRef spec4 5) _
  congr 1
  funext a
  apply Fin.ext
  match a with
  | ⟨0, _⟩ => show win4_5.index t 0 * 1 + 1 * (j 0).val = (j 0).val; rw [e0]; omega
  | ⟨1, _⟩ => show win4_5.index t 1 * 10 + 1 * (j 1).val = (j 1).val; rw [e1]; omega

abbrev rowTerm (c : Dev nD) (g : Fin 128) (f : Fin 512) (n : Fin 100000) : EReal :=
  if batchCol V c (ix2 n 0) = BitVec.ofNat 32 g.val then featArr V c (ix2 n f) else 0

theorem accAt4_last_apply (c : Dev nD) (g : Fin 128) (f : Fin 512) :
    accAt4 V c 50 (ix2 g f) = ∑ n : Fin 100000, rowTerm V c g f n := by
  refine pool_accum_from_zero (fun n => accAt4 V c n (ix2 g f))
    (fun t => if h : t < cfg4.N then
        ∑ k : Fin 2000, (if (iblk4 V c 0 ⟨t, h⟩ : Vec Ideal S2000x1 .i32) (ix2 k 0) = BitVec.ofNat 32 g.val
          then (iblk4 V c 1 ⟨t, h⟩ : Vec Ideal S2000x512 .bf16) (ix2 k f) else 0)
      else 0)
    (rowTerm V c g f) ?_ ?_ ?_
  · show accAt4 V c 0 (ix2 g f) = 0
    rw [accAt4_zero]
    exact poolPay1_apply g f
  · intro n hn
    have hn' : n < cfg4.N := by show n < grid4.N; rw [N_4]; exact hn
    show accAt4 V c (n + 1) (ix2 g f) = accAt4 V c n (ix2 g f) + _
    rw [dif_pos hn', accAt4_succ V c ⟨n, hn'⟩]
    exact poolPay2_apply (iblk4 V c 0 ⟨n, hn'⟩) (iblk4 V c 1 ⟨n, hn'⟩) (accAt4 V c n) g f
  · intro t h
    have h' : t < cfg4.N := by show t < grid4.N; rw [N_4]; exact h
    rw [dif_pos h']
    refine Finset.sum_congr rfl fun k _ => ?_
    rw [batch_block_apply V c ⟨t, h'⟩ k, feat_block_apply V c ⟨t, h'⟩ k f]

abbrev poolLogits (c : Dev nD) : S128x10.Idx → EReal := fun i =>
  Cert.Spec.logitsAt (fun gu => Cert.Spec.hiddenAt (fun gf => ∑ n : Fin 100000,
        if batchCol V c (ix2 n 0) = BitVec.ofNat 32 (gf 0).val then featArr V c (ix2 n (gf 1)) else 0)
      (w1Arr V c) (fun u => b1Row V c (ix2 0 (u 0))) (gu 0) (gu 1))
    (w2Arr V c) (fun o => b2Row V c (ix2 0 (o 0))) (i 0) (i 1)

theorem out4_6_val (c : Dev nD) : out4_6 V c = poolLogits V c := by
  funext i
  obtain ⟨g, o, rfl⟩ : ∃ (g : Fin 128) (o : Fin 10), i = ix2 g o := ⟨i 0, i 1, eq_ix2 i⟩
  have hacc : (accAt4 V c 50 : S128x512.Idx → EReal) = fun gf => ∑ n : Fin 100000,
      if batchCol V c (ix2 n 0) = BitVec.ofNat 32 (gf 0).val then featArr V c (ix2 n (gf 1)) else 0 := by
    funext gf
    obtain ⟨g', f', rfl⟩ : ∃ (g' : Fin 128) (f' : Fin 512), gf = ix2 g' f' := ⟨gf 0, gf 1, eq_ix2 gf⟩
    exact accAt4_last_apply V c g' f'
  unfold out4_6
  refine (poolPay3_apply (accAt4 V c 50) (iblk4 V c 2 tLast4) (iblk4 V c 3 tLast4) (iblk4 V c 4 tLast4) (iblk4 V c 5 tLast4) g o).trans ?_
  rw [hacc, w1_block_eq V c tLast4, b1_block_eq V c tLast4, w2_block_eq V c tLast4, b2_block_eq V c tLast4]

theorem arr4_val (c : Dev nD) : (dat4 V c).arrAt 6 cfg4.N = poolLogits V c :=
  (arr4_6 V c).trans (out4_6_val V c)

end Cert.KernelIdeal.Hand

end
-- ==== Proof.KI.ValHost4.lean ====
import proofs.«403111_j50835232915932_1_alg».proof.Proof.Gen.KernelIdeal.Launch
import proofs.«403111_j50835232915932_1_alg».proof.Proof.Spec
import Idealize.ShloMosaic.Lib.StableHlo.Run
import Idealize.ShloMosaic.Lib.Pipeline.Value
import Idealize.ShloMosaic.Lib.ValueIdx

set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.ValueIdx Idealize.ShloMosaic.StableHlo Idealize.SL.Sem

theorem concat4_apply (x0 x1 x2 x3 : S100000x128.Idx → EReal) (n : Fin 100000) (f : Fin 512) :
    concatenate S100000x512 1 [⟨S100000x128, x0⟩, ⟨S100000x128, x1⟩, ⟨S100000x128, x2⟩, ⟨S100000x128, x3⟩]
        concatenates_S100000x128_S100000x128_S100000x128_S100000x128_S100000x512_d1 (ix2 n f)
      = (![x0, x1, x2, x3] : Fin 4 → S100000x128.Idx → EReal) ⟨f.val / 128, by have := f.isLt; omega⟩
          (ix2 n ⟨f.val % 128, Nat.mod_lt _ (by decide)⟩) := by
  have hf := f.isLt
  obtain h | h | h | h : f.val / 128 = 0 ∨ f.val / 128 = 1 ∨ f.val / 128 = 2 ∨ f.val / 128 = 3 := by omega
  · rw [show (⟨f.val / 128, by omega⟩ : Fin 4) = 0 from Fin.ext h]
    show _ = x0 _
    exact concatenate_apply_piece 1 [⟨S100000x128, x0⟩, ⟨S100000x128, x1⟩, ⟨S100000x128, x2⟩, ⟨S100000x128, x3⟩] concatenates_S100000x128_S100000x128_S100000x128_S100000x128_S100000x512_d1 (ix2 n f) 0 (by show (0 : Nat) < 4; omega) S100000x128 x0 rfl rfl 0 rfl
      (ix2 n ⟨f.val % 128, Nat.mod_lt _ (by decide)⟩)
      (fun b hb => match b with | ⟨0, _⟩ => rfl | ⟨1, _⟩ => absurd rfl hb)
      (by show 0 + f.val % 128 = f.val; omega)
  · rw [show (⟨f.val / 128, by omega⟩ : Fin 4) = 1 from Fin.ext h]
    show _ = x1 _
    exact concatenate_apply_piece 1 [⟨S100000x128, x0⟩, ⟨S100000x128, x1⟩, ⟨S100000x128, x2⟩, ⟨S100000x128, x3⟩] concatenates_S100000x128_S100000x128_S100000x128_S100000x128_S100000x512_d1 (ix2 n f) 1 (by show (1 : Nat) < 4; omega) S100000x128 x1 rfl rfl 128 rfl
      (ix2 n ⟨f.val % 128, Nat.mod_lt _ (by decide)⟩)
      (fun b hb => match b with | ⟨0, _⟩ => rfl | ⟨1, _⟩ => absurd rfl hb)
      (by show 128 + f.val % 128 = f.val; omega)
  · rw [show (⟨f.val / 128, by omega⟩ : Fin 4) = 2 from Fin.ext h]
    show _ = x2 _
    exact concatenate_apply_piece 1 [⟨S100000x128, x0⟩, ⟨S100000x128, x1⟩, ⟨S100000x128, x2⟩, ⟨S100000x128, x3⟩] concatenates_S100000x128_S100000x128_S100000x128_S100000x128_S100000x512_d1 (ix2 n f) 2 (by show (2 : Nat) < 4; omega) S100000x128 x2 rfl rfl 256 rfl
      (ix2 n ⟨f.val % 128, Nat.mod_lt _ (by decide)⟩)
      (fun b hb => match b with | ⟨0, _⟩ => rfl | ⟨1, _⟩ => absurd rfl hb)
      (by show 256 + f.val % 128 = f.val; omega)
  · rw [show (⟨f.val / 128, by omega⟩ : Fin 4) = 3 from Fin.ext h]
    show _ = x3 _
    exact concatenate_apply_piece 1 [⟨S100000x128, x0⟩, ⟨S100000x128, x1⟩, ⟨S100000x128, x2⟩, ⟨S100000x128, x3⟩] concatenates_S100000x128_S100000x128_S100000x128_S100000x128_S100000x512_d1 (ix2 n f) 3 (by show (3 : Nat) < 4; omega) S100000x128 x3 rfl rfl 384 rfl
      (ix2 n ⟨f.val % 128, Nat.mod_lt _ (by decide)⟩)
      (fun b hb => match b with | ⟨0, _⟩ => rfl | ⟨1, _⟩ => absurd rfl hb)
      (by show 384 + f.val % 128 = f.val; omega)

variable (W : Valuation τ sig (Elt Ideal))

abbrev layersOf : Fin 4 → S100000x128.Idx → EReal :=
  ![(W (Proc.devRef .tc main_v35) : S100000x128.Idx → EReal), (W (Proc.devRef .tc main_v63) : S100000x128.Idx → EReal),
    (W (Proc.devRef .tc main_v91) : S100000x128.Idx → EReal), (W (Proc.devRef .tc main_v119) : S100000x128.Idx → EReal)]

theorem host4_features_apply (n : Fin 100000) (f : Fin 512) :
    (StableHlo.after hostOps4 W (Proc.devRef .tc main_v121) : S100000x512.Idx → EReal) (ix2 n f)
      = layersOf W ⟨f.val / 128, by have := f.isLt; omega⟩ (ix2 n ⟨f.val % 128, Nat.mod_lt _ (by decide)⟩) := by
  have e : @Eq (S100000x512.Idx → EReal) (StableHlo.after hostOps4 W (Proc.devRef .tc main_v121))
      (truncf (F := Ideal) .bf16 (concatenate S100000x512 1 [⟨S100000x128, (W (Proc.devRef .tc main_v35) : S100000x128.Idx → EReal)⟩,
          ⟨S100000x128, (W (Proc.devRef .tc main_v63) : S100000x128.Idx → EReal)⟩,
          ⟨S100000x128, (W (Proc.devRef .tc main_v91) : S100000x128.Idx → EReal)⟩,
          ⟨S100000x128, (W (Proc.devRef .tc main_v119) : S100000x128.Idx → EReal)⟩] concatenates_S100000x128_S100000x128_S100000x128_S100000x128_S100000x512_d1) bitsLt_bf16_f32) := by
    after_results
    rfl
  rw [e, truncf_apply, concat4_apply]

theorem host4_batch_apply (n : Fin 100000) :
    (StableHlo.after hostOps4 W (Proc.devRef .tc main_v122) : S100000x1.Idx → BitVec 32) (ix2 n 0)
      = (W (Proc.devRef .tc main_arg3) : S100000.Idx → BitVec 32) (ix1 n) := by
  have e : @Eq (S100000x1.Idx → BitVec 32) (StableHlo.after hostOps4 W (Proc.devRef .tc main_v122))
      (shapeCast S100000x1 (W (Proc.devRef .tc main_arg3) : S100000.Idx → BitVec 32) shapeCasts_S100000_S100000x1) := by
    after_results
    rfl
  rw [e]
  refine shapeCast_apply _ _ (ix2 n 0) (ix1 n) ?_
  rw [Shape.rowMajor_val_one, Shape.rowMajor_val_two]
  show n.val = n.val * 1 + 0
  omega

theorem host4_bias1_apply (u : Fin 256) :
    (StableHlo.after hostOps4 W (Proc.devRef .tc main_v123) : S1x256.Idx → EReal) (ix2 0 u)
      = (W (Proc.devRef .tc main_arg11) : S256.Idx → EReal) (ix1 u) := by
  have e : @Eq (S1x256.Idx → EReal) (StableHlo.after hostOps4 W (Proc.devRef .tc main_v123))
      (shapeCast S1x256 (W (Proc.devRef .tc main_arg11) : S256.Idx → EReal) shapeCasts_S256_S1x256) := by
    after_results
    rfl
  rw [e]
  refine shapeCast_apply _ _ (ix2 0 u) (ix1 u) ?_
  rw [Shape.rowMajor_val_one, Shape.rowMajor_val_two]
  show u.val = 0 * 256 + u.val
  omega

theorem host4_bias2_apply (o : Fin 10) :
    (StableHlo.after hostOps4 W (Proc.devRef .tc main_v124) : S1x10.Idx → EReal) (ix2 0 o)
      = (W (Proc.devRef .tc main_arg13) : S10.Idx → EReal) (ix1 o) := by
  have e : @Eq (S1x10.Idx → EReal) (StableHlo.after hostOps4 W (Proc.devRef .tc main_v124))
      (shapeCast S1x10 (W (Proc.devRef .tc main_arg13) : S10.Idx → EReal) shapeCasts_S10_S1x10) := by
    after_results
    rfl
  rw [e]
  refine shapeCast_apply _ _ (ix2 0 o) (ix1 o) ?_
  rw [Shape.rowMajor_val_one, Shape.rowMajor_val_two]
  show o.val = 0 * 10 + o.val
  omega

theorem host4_weight1 : StableHlo.after hostOps4 W (Proc.devRef .tc main_arg10) = W (Proc.devRef .tc main_arg10) := by
  after_results

theorem host4_weight2 : StableHlo.after hostOps4 W (Proc.devRef .tc main_arg12) = W (Proc.devRef .tc main_arg12) := by
  after_results

end Cert.KernelIdeal.Hand

end
-- ==== Proof.KI.ValJoin4.lean ====
import proofs.«403111_j50835232915932_1_alg».proof.Proof.KI.ValPool
import proofs.«403111_j50835232915932_1_alg».proof.Proof.KI.ValHost4

set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.ValueIdx Idealize.ShloMosaic.StableHlo Idealize.SL.Sem

theorem poolLogits_eq_spec (V : (c : Dev nD) → (b : Ref sig .tc) → Buf (Elt Ideal) ((c : Thread nD τ).loc b)) (c : Dev nD)
    (batch : Cert.Spec.SN.Idx → BitVec 32) (hs : Fin 4 → Cert.Spec.SNxC.Idx → EReal)
    (lin1W : Cert.Spec.S4CxH.Idx → EReal) (lin1b : Cert.Spec.SH.Idx → EReal)
    (lin2W : Cert.Spec.SHxO.Idx → EReal) (lin2b : Cert.Spec.SO.Idx → EReal)
    (hb : ∀ n : Fin 100000, batchCol V c (ix2 n 0) = batch (ix1 n))
    (hf : ∀ (n : Fin 100000) (f : Fin 512), featArr V c (ix2 n f)
      = hs ⟨f.val / 128, by have := f.isLt; omega⟩ (ix2 n ⟨f.val % 128, Nat.mod_lt _ (by decide)⟩))
    (hw1 : w1Arr V c = lin1W) (hb1 : ∀ u : Fin 256, b1Row V c (ix2 0 u) = lin1b (ix1 u))
    (hw2 : w2Arr V c = lin2W) (hb2 : ∀ o : Fin 10, b2Row V c (ix2 0 o) = lin2b (ix1 o)) :
    poolLogits V c = fun i => Cert.Spec.logitsAt (fun gu => Cert.Spec.hiddenAt
        (fun gf => Cert.Spec.pooledAt batch hs (gf 0) (gf 1)) lin1W lin1b (gu 0) (gu 1)) lin2W lin2b (i 0) (i 1) := by
  have key : poolLogits V c = fun i => Cert.Spec.logitsAt (fun gu => Cert.Spec.hiddenAt (fun gf => ∑ n : Fin 100000,
        if batchCol V c (ix2 n 0) = BitVec.ofNat 32 (gf 0).val then featArr V c (ix2 n (gf 1)) else 0)
      (w1Arr V c) (fun u => b1Row V c (ix2 0 (u 0))) (gu 0) (gu 1))
    (w2Arr V c) (fun o => b2Row V c (ix2 0 (o 0))) (i 0) (i 1) := rfl
  have hp : (fun gf : Cert.Spec.SGx4C.Idx => ∑ n : Fin 100000,
        if batchCol V c (ix2 n 0) = BitVec.ofNat 32 (gf 0).val then featArr V c (ix2 n (gf 1)) else 0)
      = fun gf => Cert.Spec.pooledAt batch hs (gf 0) (gf 1) := by
    funext gf
    unfold Cert.Spec.pooledAt Cert.Spec.poolAt
    exact Finset.sum_congr rfl fun n _ => by rw [hb n, hf n (gf 1)]
  have h1 : (fun u : Cert.Spec.SH.Idx => b1Row V c (ix2 0 (u 0))) = lin1b :=
    funext fun u => (hb1 (u 0)).trans (congrArg lin1b (eq_ix1 u).symm)
  have h2 : (fun o : Cert.Spec.SO.Idx => b2Row V c (ix2 0 (o 0))) = lin2b :=
    funext fun o => (hb2 (o 0)).trans (congrArg lin2b (eq_ix1 o).symm)
  rw [key, hp, h1, h2, hw1, hw2]

theorem poolLogits_after_host4 (W : Dev nD → Valuation τ sig (Elt Ideal)) (c : Dev nD) :
    poolLogits (fun c b => StableHlo.after hostOps4 (W c) (Proc.devRef .tc b)) c
      = fun i => Cert.Spec.logitsAt (fun gu => Cert.Spec.hiddenAt
          (fun gf => Cert.Spec.pooledAt (W c (Proc.devRef .tc main_arg3)) (layersOf (W c)) (gf 0) (gf 1))
          (W c (Proc.devRef .tc main_arg10)) (W c (Proc.devRef .tc main_arg11)) (gu 0) (gu 1))
        (W c (Proc.devRef .tc main_arg12)) (W c (Proc.devRef .tc main_arg13)) (i 0) (i 1) :=
  poolLogits_eq_spec _ c _ _ _ _ _ _
    (fun n => host4_batch_apply (W c) n) (fun n f => host4_features_apply (W c) n f)
    (host4_weight1 (W c)) (fun u => host4_bias1_apply (W c) u)
    (host4_weight2 (W c)) (fun o => host4_bias2_apply (W c) o)

end Cert.KernelIdeal.Hand

end
-- ==== Proof.KI.ValMain.lean ====
import proofs.«403111_j50835232915932_1_alg».proof.Proof.KI.Fold
import proofs.«403111_j50835232915932_1_alg».proof.Proof.KI.ValDefs
import proofs.«403111_j50835232915932_1_alg».proof.Proof.KI.ValHost0
import proofs.«403111_j50835232915932_1_alg».proof.Proof.KI.ValHost1
import proofs.«403111_j50835232915932_1_alg».proof.Proof.KI.ValHost2
import proofs.«403111_j50835232915932_1_alg».proof.Proof.KI.ValHost3
import proofs.«403111_j50835232915932_1_alg».proof.Proof.KI.ValHost5
import proofs.«403111_j50835232915932_1_alg».proof.Proof.KI.ValConv0
import proofs.«403111_j50835232915932_1_alg».proof.Proof.KI.ValConv1
import proofs.«403111_j50835232915932_1_alg».proof.Proof.KI.ValConv2
import proofs.«403111_j50835232915932_1_alg».proof.Proof.KI.ValConv3
import proofs.«403111_j50835232915932_1_alg».proof.Proof.KI.ValJoin4

set_option maxRecDepth 16384

noncomputable section

namespace Cert.KernelIdeal.Hand

open Idealize.ShloMosaic Idealize.ShloMosaic.TcCoe
open Cert.KernelIdeal Cert.KernelIdeal.Gen Idealize.ShloMosaic.ValueIdx

open Idealize.ShloMosaic.Pipeline (Dat)

variable (m : (ℓ : Loc nD τ sig) → Buf (Elt Ideal) ℓ) (ρ : Dev nD → PrngReg)

theorem conv_congr {h h' a a' : Cert.Spec.SNxC.Idx → EReal} {w w' : Cert.Spec.SCxC.Idx → EReal}
    {b b' g g' s s' μ μ' v v' : Cert.Spec.SC.Idx → EReal}
    (eh : h = h') (ea : a = a') (ew : w = w') (eb : b = b') (eg : g = g') (es : s = s') (eμ : μ = μ') (ev : v = v') :
    Cert.Spec.conv h a w b g s μ v = Cert.Spec.conv h' a' w' b' g' s' μ' v' := by
  subst eh ea ew eb eg es eμ ev; rfl

theorem agg_congr {h h' : Cert.Spec.SNxC.Idx → EReal} {p p' q q' : Cert.Spec.SE.Idx → BitVec 32}
    (eh : h = h') (ep : p = p') (eq : q = q') : aggK h p q = aggK h' p' q' := by
  subst eh ep eq; rfl

theorem W2_keep (c : Dev nD) (r : Ref sig .tc) (h0 : r ∉ hostOps0_W) (g0 : ∀ w, Pipeline.arrRef spec0 w ≠ r) :
    W2 m ρ c (Proc.devRef .tc r) = W0 m ρ c (Proc.devRef .tc r) :=
  (W2_of_ne m ρ c r g0).trans (W1_of m ρ c r h0)

theorem W4_keep (c : Dev nD) (r : Ref sig .tc) (h0 : r ∉ hostOps0_W) (g0 : ∀ w, Pipeline.arrRef spec0 w ≠ r)
    (h1 : r ∉ hostOps1_W) (g1 : ∀ w, Pipeline.arrRef spec1 w ≠ r) :
    W4 m ρ c (Proc.devRef .tc r) = W0 m ρ c (Proc.devRef .tc r) :=
  (W4_of_ne m ρ c r g1).trans ((W3_of m ρ c r h1).trans (W2_keep m ρ c r h0 g0))

theorem W6_keep (c : Dev nD) (r : Ref sig .tc) (h0 : r ∉ hostOps0_W) (g0 : ∀ w, Pipeline.arrRef spec0 w ≠ r)
    (h1 : r ∉ hostOps1_W) (g1 : ∀ w, Pipeline.arrRef spec1 w ≠ r)
    (h2 : r ∉ hostOps2_W) (g2 : ∀ w, Pipeline.arrRef spec2 w ≠ r) :
    W6 m ρ c (Proc.devRef .tc r) = W0 m ρ c (Proc.devRef .tc r) :=
  (W6_of_ne m ρ c r g2).trans ((W5_of m ρ c r h2).trans (W4_keep m ρ c r h0 g0 h1 g1))

theorem W8_keep (c : Dev nD) (r : Ref sig .tc) (h0 : r ∉ hostOps0_W) (g0 : ∀ w, Pipeline.arrRef spec0 w ≠ r)
    (h1 : r ∉ hostOps1_W) (g1 : ∀ w, Pipeline.arrRef spec1 w ≠ r)
    (h2 : r ∉ hostOps2_W) (g2 : ∀ w, Pipeline.arrRef spec2 w ≠ r)
    (h3 : r ∉ hostOps3_W) (g3 : ∀ w, Pipeline.arrRef spec3 w ≠ r) :
    W8 m ρ c (Proc.devRef .tc r) = W0 m ρ c (Proc.devRef .tc r) :=
  (W8_of_ne m ρ c r g3).trans ((W7_of m ρ c r h3).trans (W6_keep m ρ c r h0 g0 h1 g1 h2 g2))

theorem val_v35 (c : Dev nD) :
    (W2 m ρ c (Proc.devRef .tc main_v35) : S100000x128.Idx → EReal) = Cert.Spec.h1x aggK (inputsK m c) := by
  refine (W2_arr m ρ c 8).trans ((arr0_8 (V1 m ρ) c).trans ?_)
  unfold Cert.Spec.h1x Cert.Spec.layer
  exact conv_congr (W1_of m ρ c main_arg0 (by decide)) (host0_v29 (W0 m ρ c)) (host0_v9 (W0 m ρ c))
    (funext fun j => host0_v30 (W0 m ρ c) (j 0)) (funext fun j => host0_v31 (W0 m ρ c) (j 0)) (funext fun j => host0_v32 (W0 m ρ c) (j 0))
    (funext fun j => host0_v33 (W0 m ρ c) (j 0)) (funext fun j => host0_v34 (W0 m ρ c) (j 0))

theorem W2_v1 (c : Dev nD) : (W2 m ρ c (Proc.devRef .tc main_v1) : S1600000.Idx → BitVec 32) = Cert.Spec.edgeRow (inputsK m c).ex 0 :=
  (W2_of_ne m ρ c main_v1 (by decide)).trans (host0_v1 (W0 m ρ c))
theorem W2_v3 (c : Dev nD) : (W2 m ρ c (Proc.devRef .tc main_v3) : S1600000.Idx → BitVec 32) = Cert.Spec.edgeRow (inputsK m c).ex 1 :=
  (W2_of_ne m ρ c main_v3 (by decide)).trans (host0_v3 (W0 m ρ c))

theorem val_v63 (c : Dev nD) :
    (W4 m ρ c (Proc.devRef .tc main_v63) : S100000x128.Idx → EReal) = Cert.Spec.h2x aggK (inputsK m c) := by
  have e35 : (W3 m ρ c (Proc.devRef .tc main_v35) : S100000x128.Idx → EReal) = Cert.Spec.h1x aggK (inputsK m c) :=
    (W3_of m ρ c main_v35 (by decide)).trans (val_v35 m ρ c)
  refine (W4_arr m ρ c 8).trans ((arr1_8 (V3 m ρ) c).trans ?_)
  unfold Cert.Spec.h2x Cert.Spec.layer
  exact conv_congr e35
    ((host1_v57 (W2 m ρ c)).trans (agg_congr (val_v35 m ρ c) (W2_v1 m ρ c) (W2_v3 m ρ c)))
    ((host1_v37 (W2 m ρ c)).trans (funext fun kj => congrFun (W2_keep m ρ c main_arg4 (by decide) (by decide)) _))
    (funext fun j => (host1_v58 (W2 m ρ c) (j 0)).trans (congrFun (W2_keep m ρ c main_arg5 (by decide) (by decide)) _))
    (funext fun j => (host1_v59 (W2 m ρ c) (j 0)).trans (congrFun (W2_keep m ρ c main_arg6 (by decide) (by decide)) _))
    (funext fun j => (host1_v60 (W2 m ρ c) (j 0)).trans (congrFun (W2_keep m ρ c main_arg7 (by decide) (by decide)) _))
    (funext fun j => (host1_v61 (W2 m ρ c) (j 0)).trans (congrFun (W2_keep m ρ c main_arg8 (by decide) (by decide)) _))
    (funext fun j => (host1_v62 (W2 m ρ c) (j 0)).trans (congrFun (W2_keep m ρ c main_arg9 (by decide) (by decide)) _))

theorem W4_arg0 (c : Dev nD) : (W4 m ρ c (Proc.devRef .tc main_arg0) : S100000x128.Idx → EReal) = (inputsK m c).x :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)

theorem W4_v5 (c : Dev nD) : (W4 m ρ c (Proc.devRef .tc main_v5) : S1600000.Idx → BitVec 32) = Cert.Spec.edgeRow (inputsK m c).ey 0 :=
  (W4_of_ne m ρ c main_v5 (by decide)).trans ((W3_of m ρ c main_v5 (by decide)).trans
    ((W2_of_ne m ρ c main_v5 (by decide)).trans (host0_v5 (W0 m ρ c))))
theorem W4_v7 (c : Dev nD) : (W4 m ρ c (Proc.devRef .tc main_v7) : S1600000.Idx → BitVec 32) = Cert.Spec.edgeRow (inputsK m c).ey 1 :=
  (W4_of_ne m ρ c main_v7 (by decide)).trans ((W3_of m ρ c main_v7 (by decide)).trans
    ((W2_of_ne m ρ c main_v7 (by decide)).trans (host0_v7 (W0 m ρ c))))

theorem val_v91 (c : Dev nD) :
    (W6 m ρ c (Proc.devRef .tc main_v91) : S100000x128.Idx → EReal) = Cert.Spec.h1y aggK (inputsK m c) := by
  have e0 : (W5 m ρ c (Proc.devRef .tc main_arg0) : S100000x128.Idx → EReal) = (inputsK m c).x :=
    (W5_of m ρ c main_arg0 (by decide)).trans (W4_arg0 m ρ c)
  refine (W6_arr m ρ c 8).trans ((arr2_8 (V5 m ρ) c).trans ?_)
  unfold Cert.Spec.h1y Cert.Spec.layer
  exact conv_congr e0
    ((host2_v85 (W4 m ρ c)).trans (agg_congr (W4_arg0 m ρ c) (W4_v5 m ρ c) (W4_v7 m ρ c)))
    ((host2_v65 (W4 m ρ c)).trans (funext fun kj => congrFun (W4_keep m ρ c main_arg4 (by decide) (by decide) (by decide) (by decide)) _))
    (funext fun j => (host2_v86 (W4 m ρ c) (j 0)).trans (congrFun (W4_keep m ρ c main_arg5 (by decide) (by decide) (by decide) (by decide)) _))
    (funext fun j => (host2_v87 (W4 m ρ c) (j 0)).trans (congrFun (W4_keep m ρ c main_arg6 (by decide) (by decide) (by decide) (by decide)) _))
    (funext fun j => (host2_v88 (W4 m ρ c) (j 0)).trans (congrFun (W4_keep m ρ c main_arg7 (by decide) (by decide) (by decide) (by decide)) _))
    (funext fun j => (host2_v89 (W4 m ρ c) (j 0)).trans (congrFun (W4_keep m ρ c main_arg8 (by decide) (by decide) (by decide) (by decide)) _))
    (funext fun j => (host2_v90 (W4 m ρ c) (j 0)).trans (congrFun (W4_keep m ρ c main_arg9 (by decide) (by decide) (by decide) (by decide)) _))

theorem W6_v5 (c : Dev nD) : (W6 m ρ c (Proc.devRef .tc main_v5) : S1600000.Idx → BitVec 32) = Cert.Spec.edgeRow (inputsK m c).ey 0 :=
  (W6_of_ne m ρ c main_v5 (by decide)).trans ((W5_of m ρ c main_v5 (by decide)).trans (W4_v5 m ρ c))
theorem W6_v7 (c : Dev nD) : (W6 m ρ c (Proc.devRef .tc main_v7) : S1600000.Idx → BitVec 32) = Cert.Spec.edgeRow (inputsK m c).ey 1 :=
  (W6_of_ne m ρ c main_v7 (by decide)).trans ((W5_of m ρ c main_v7 (by decide)).trans (W4_v7 m ρ c))

theorem val_v119 (c : Dev nD) :
    (W8 m ρ c (Proc.devRef .tc main_v119) : S100000x128.Idx → EReal) = Cert.Spec.h2y aggK (inputsK m c) := by
  have e91 : (W7 m ρ c (Proc.devRef .tc main_v91) : S100000x128.Idx → EReal) = Cert.Spec.h1y aggK (inputsK m c) :=
    (W7_of m ρ c main_v91 (by decide)).trans (val_v91 m ρ c)
  refine (W8_arr m ρ c 8).trans ((arr3_8 (V7 m ρ) c).trans ?_)
  unfold Cert.Spec.h2y Cert.Spec.layer
  exact conv_congr e91
    ((host3_v113 (W6 m ρ c)).trans (agg_congr (val_v91 m ρ c) (W6_v5 m ρ c) (W6_v7 m ρ c)))
    ((host3_v93 (W6 m ρ c)).trans (funext fun kj => congrFun (W6_keep m ρ c main_arg4 (by decide) (by decide) (by decide) (by decide) (by decide) (by decide)) _))
    (funext fun j => (host3_v114 (W6 m ρ c) (j 0)).trans (congrFun (W6_keep m ρ c main_arg5 (by decide) (by decide) (by decide) (by decide) (by decide) (by decide)) _))
    (funext fun j => (host3_v115 (W6 m ρ c) (j 0)).trans (congrFun (W6_keep m ρ c main_arg6 (by decide) (by decide) (by decide) (by decide) (by decide) (by decide)) _))
    (funext fun j => (host3_v116 (W6 m ρ c) (j 0)).trans (congrFun (W6_keep m ρ c main_arg7 (by decide) (by decide) (by decide) (by decide) (by decide) (by decide)) _))
    (funext fun j => (host3_v117 (W6 m ρ c) (j 0)).trans (congrFun (W6_keep m ρ c main_arg8 (by decide) (by decide) (by decide) (by decide) (by decide) (by decide)) _))
    (funext fun j => (host3_v118 (W6 m ρ c) (j 0)).trans (congrFun (W6_keep m ρ c main_arg9 (by decide) (by decide) (by decide) (by decide) (by decide) (by decide)) _))

theorem W8_v35 (c : Dev nD) : (W8 m ρ c (Proc.devRef .tc main_v35) : S100000x128.Idx → EReal) = Cert.Spec.h1x aggK (inputsK m c) :=
  calc W8 m ρ c (Proc.devRef .tc main_v35)
    _ = W7 m ρ c (Proc.devRef .tc main_v35) := W8_of_ne m ρ c main_v35 (by decide)
    _ = W6 m ρ c (Proc.devRef .tc main_v35) := W7_of m ρ c main_v35 (by decide)
    _ = W5 m ρ c (Proc.devRef .tc main_v35) := W6_of_ne m ρ c main_v35 (by decide)
    _ = W4 m ρ c (Proc.devRef .tc main_v35) := W5_of m ρ c main_v35 (by decide)
    _ = W3 m ρ c (Proc.devRef .tc main_v35) := (W4_arr m ρ c 0).trans (((dat1 (V3 m ρ) c).arrAt_in 0 rfl _).trans (A_eq1 (V3 m ρ) c 0))
    _ = W2 m ρ c (Proc.devRef .tc main_v35) := W3_of m ρ c main_v35 (by decide)
    _ = Cert.Spec.h1x aggK (inputsK m c) := val_v35 m ρ c

theorem W8_v63 (c : Dev nD) : (W8 m ρ c (Proc.devRef .tc main_v63) : S100000x128.Idx → EReal) = Cert.Spec.h2x aggK (inputsK m c) :=
  calc W8 m ρ c (Proc.devRef .tc main_v63)
    _ = W7 m ρ c (Proc.devRef .tc main_v63) := W8_of_ne m ρ c main_v63 (by decide)
    _ = W6 m ρ c (Proc.devRef .tc main_v63) := W7_of m ρ c main_v63 (by decide)
    _ = W5 m ρ c (Proc.devRef .tc main_v63) := W6_of_ne m ρ c main_v63 (by decide)
    _ = W4 m ρ c (Proc.devRef .tc main_v63) := W5_of m ρ c main_v63 (by decide)
    _ = Cert.Spec.h2x aggK (inputsK m c) := val_v63 m ρ c

theorem W8_v91 (c : Dev nD) : (W8 m ρ c (Proc.devRef .tc main_v91) : S100000x128.Idx → EReal) = Cert.Spec.h1y aggK (inputsK m c) :=
  calc W8 m ρ c (Proc.devRef .tc main_v91)
    _ = W7 m ρ c (Proc.devRef .tc main_v91) := (W8_arr m ρ c 0).trans (((dat3 (V7 m ρ) c).arrAt_in 0 rfl _).trans (A_eq3 (V7 m ρ) c 0))
    _ = W6 m ρ c (Proc.devRef .tc main_v91) := W7_of m ρ c main_v91 (by decide)
    _ = Cert.Spec.h1y aggK (inputsK m c) := val_v91 m ρ c

theorem W8_layers (c : Dev nD) : layersOf (W8 m ρ c) = Cert.Spec.feats aggK (inputsK m c) := by
  unfold Cert.Spec.feats
  show (![_, _, _, _] : Fin 4 → S100000x128.Idx → EReal) = _
  rw [W8_v35 m ρ c, W8_v63 m ρ c, W8_v91 m ρ c, val_v119 m ρ c]

theorem val_v125 (c : Dev nD) :
    (W10 m ρ c (Proc.devRef .tc main_v125) : S128x10.Idx → EReal) = Cert.Spec.logits aggK (inputsK m c) := by
  refine (W10_arr m ρ c 6).trans ((arr4_val (V9 m ρ) c).trans ((poolLogits_after_host4 (W8 m ρ) c).trans ?_))
  rw [W8_layers m ρ c,
    W8_keep m ρ c main_arg3 (by decide) (by decide) (by decide) (by decide) (by decide) (by decide) (by decide) (by decide),
    W8_keep m ρ c main_arg10 (by decide) (by decide) (by decide) (by decide) (by decide) (by decide) (by decide) (by decide),
    W8_keep m ρ c main_arg11 (by decide) (by decide) (by decide) (by decide) (by decide) (by decide) (by decide) (by decide),
    W8_keep m ρ c main_arg12 (by decide) (by decide) (by decide) (by decide) (by decide) (by decide) (by decide) (by decide),
    W8_keep m ρ c main_arg13 (by decide) (by decide) (by decide) (by decide) (by decide) (by decide) (by decide) (by decide)]
  rfl

theorem kernel_val (c : Dev nD) :
    (W11 m ρ c (Proc.devRef .tc main_v125) : S128x10.Idx → EReal) = Cert.Spec.logits aggK (inputsK m c)
      ∧ (W11 m ρ c (Proc.devRef .tc main_v126) : S128x10.Idx → EReal) = lsmK (Cert.Spec.logits aggK (inputsK m c)) :=
  ⟨(W11_of m ρ c main_v125 (by decide)).trans (val_v125 m ρ c),
    (host5_v126 (W10 m ρ c)).trans (congrArg lsmK (val_v125 m ρ c))⟩

end Cert.KernelIdeal.Hand

end
-- ==== Proof.RefRead.lean ====
import proofs.«403111_j50835232915932_1_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- The arguments of @main, once for every stage below.
variable (x0 : (⟨S100000x128, .f32⟩ : BufTy).Contents (Elt F))
  (x1 : (⟨S2x1600000, .i32⟩ : BufTy).Contents (Elt F))
  (x2 : (⟨S2x1600000, .i32⟩ : BufTy).Contents (Elt F))
  (x3 : (⟨S100000, .i32⟩ : BufTy).Contents (Elt F))
  (x4 : (⟨S4x128x128, .f32⟩ : BufTy).Contents (Elt F))
  (x5 : (⟨S4x128, .f32⟩ : BufTy).Contents (Elt F))
  (x6 : (⟨S4x128, .f32⟩ : BufTy).Contents (Elt F))
  (x7 : (⟨S4x128, .f32⟩ : BufTy).Contents (Elt F))
  (x8 : (⟨S4x128, .f32⟩ : BufTy).Contents (Elt F))
  (x9 : (⟨S4x128, .f32⟩ : BufTy).Contents (Elt F))
  (x10 : (⟨S512x256, .f32⟩ : BufTy).Contents (Elt F))
  (x11 : (⟨S256, .f32⟩ : BufTy).Contents (Elt F))
  (x12 : (⟨S256x10, .f32⟩ : BufTy).Contents (Elt F))
  (x13 : (⟨S10, .f32⟩ : BufTy).Contents (Elt F))

def val_main_v0 : (⟨S1x1600000, .i32⟩ : BufTy).Contents (Elt F) :=
  extractStridedSlice S1x1600000 ![0, 0] (x1) slices_S2x1600000_S1x1600000_0_0

def val_main_v1 : (⟨S1600000, .i32⟩ : BufTy).Contents (Elt F) :=
  shapeCast _ (val_main_v0 (F := F) x1) shapeCasts_S1x1600000_S1600000

def val_main_v2 : (⟨S1x1600000, .i32⟩ : BufTy).Contents (Elt F) :=
  extractStridedSlice S1x1600000 ![1, 0] (x1) slices_S2x1600000_S1x1600000_1_0

def val_main_v3 : (⟨S1600000, .i32⟩ : BufTy).Contents (Elt F) :=
  shapeCast _ (val_main_v2 (F := F) x1) shapeCasts_S1x1600000_S1600000

def val_main_v4 : (⟨S1x1600000, .i32⟩ : BufTy).Contents (Elt F) :=
  extractStridedSlice S1x1600000 ![0, 0] (x2) slices_S2x1600000_S1x1600000_0_0

def val_main_v5 : (⟨S1600000, .i32⟩ : BufTy).Contents (Elt F) :=
  shapeCast _ (val_main_v4 (F := F) x2) shapeCasts_S1x1600000_S1600000

def val_main_v6 : (⟨S1x1600000, .i32⟩ : BufTy).Contents (Elt F) :=
  extractStridedSlice S1x1600000 ![1, 0] (x2) slices_S2x1600000_S1x1600000_1_0

def val_main_v7 : (⟨S1600000, .i32⟩ : BufTy).Contents (Elt F) :=
  shapeCast _ (val_main_v6 (F := F) x2) shapeCasts_S1x1600000_S1600000

def val_main_v8 : (⟨S1x128x128, .f32⟩ : BufTy).Contents (Elt F) :=
  extractStridedSlice S1x128x128 ![0, 0, 0] (x4) slices_S4x128x128_S1x128x128_0_0_0

def val_main_v9 : (⟨S128x128, .f32⟩ : BufTy).Contents (Elt F) :=
  shapeCast _ (val_main_v8 (F := F) x4) shapeCasts_S1x128x128_S128x128

def val_main_v10 : (⟨S1x128, .f32⟩ : BufTy).Contents (Elt F) :=
  extractStridedSlice S1x128 ![0, 0] (x5) slices_S4x128_S1x128_0_0

def val_main_v11 : (⟨S128, .f32⟩ : BufTy).Contents (Elt F) :=
  shapeCast _ (val_main_v10 (F := F) x5) shapeCasts_S1x128_S128

def val_main_v12 : (⟨S1x128, .f32⟩ : BufTy).Contents (Elt F) :=
  extractStridedSlice S1x128 ![0, 0] (x6) slices_S4x128_S1x128_0_0

def val_main_v13 : (⟨S128, .f32⟩ : BufTy).Contents (Elt F) :=
  shapeCast _ (val_main_v12 (F := F) x6) shapeCasts_S1x128_S128

def val_main_v14 : (⟨S1x128, .f32⟩ : BufTy).Contents (Elt F) :=
  extractStridedSlice S1x128 ![0, 0] (x7) slices_S4x128_S1x128_0_0

def val_main_v15 : (⟨S128, .f32⟩ : BufTy).Contents (Elt F) :=
  shapeCast _ (val_main_v14 (F := F) x7) shapeCasts_S1x128_S128

def val_main_v16 : (⟨S1x128, .f32⟩ : BufTy).Contents (Elt F) :=
  extractStridedSlice S1x128 ![0, 0] (x8) slices_S4x128_S1x128_0_0

def val_main_v17 : (⟨S128, .f32⟩ : BufTy).Contents (Elt F) :=
  shapeCast _ (val_main_v16 (F := F) x8) shapeCasts_S1x128_S128

def val_main_v18 : (⟨S1x128, .f32⟩ : BufTy).Contents (Elt F) :=
  extractStridedSlice S1x128 ![0, 0] (x9) slices_S4x128_S1x128_0_0

def val_main_v19 : (⟨S128, .f32⟩ : BufTy).Contents (Elt F) :=
  shapeCast _ (val_main_v18 (F := F) x9) shapeCasts_S1x128_S128

def val_main_c : (⟨S_, .i32⟩ : BufTy).Contents (Elt F) :=
  constantI S_ 32 0#32

def val_main_v20 : (⟨S1600000, .i32⟩ : BufTy).Contents (Elt F) :=
  broadcastInDim S1600000 ![] bcast_S_S1600000 (val_main_c (F := F))

def val_main_v21 : (⟨S1600000, .i1⟩ : BufTy).Contents (Elt F) :=
  cmpi .slt (val_main_v1 (F := F) x1) (val_main_v20 (F := F))

def val_main_c_0 : (⟨S_, .i32⟩ : BufTy).Contents (Elt F) :=
  constantI S_ 32 100000#32

def val_main_v22 : (⟨S1600000, .i32⟩ : BufTy).Contents (Elt F) :=
  broadcastInDim S1600000 ![] bcast_S_S1600000 (val_main_c_0 (F := F))

def val_main_v23 : (⟨S1600000, .i32⟩ : BufTy).Contents (Elt F) :=
  addi (val_main_v1 (F := F) x1) (val_main_v22 (F := F))

def val_main_v24 : (⟨S1600000, .i32⟩ : BufTy).Contents (Elt F) :=
  select (val_main_v21 (F := F) x1) (val_main_v23 (F := F) x1) (val_main_v1 (F := F) x1)

def val_main_v25 : (⟨S1600000x1, .i32⟩ : BufTy).Contents (Elt F) :=
  broadcastInDim S1600000x1 ![0] bcast_S1600000_S1600000x1_0 (val_main_v24 (F := F) x1)

def val_main_v26 : (⟨S1600000x128, .f32⟩ : BufTy).Contents (Elt F) :=
  Host.gather gather_S100000x128_S1600000x1_S1600000x128_1_0_n_n_0_1_1128 (x0) (val_main_v25 (F := F) x1)

def val_main_cst : (⟨S_, .f32⟩ : BufTy).Contents (Elt F) :=
  constant S_ .f32 0x00000000#32

def val_main_v27 : (⟨S100000x128, .f32⟩ : BufTy).Contents (Elt F) :=
  broadcastInDim S100000x128 ![] bcast_S_S100000x128 (val_main_cst (F := F))

def val_main_v28 : (⟨S1600000x1, .i32⟩ : BufTy).Contents (Elt F) :=
  broadcastInDim S1600000x1 ![0] bcast_S1600000_S1600000x1_0 (val_main_v3 (F := F) x1)

def val_main_v29 : (⟨S100000x128, .f32⟩ : BufTy).Contents (Elt F) :=
  Host.scatterAdd scatter_S100000x128_S1600000x1_S1600000x128_1_0_0_1 (val_main_v27 (F := F)) (val_main_v28 (F := F) x1) (val_main_v26 (F := F) x0 x1)

def val_main_v30 : (⟨S100000x128, .f32⟩ : BufTy).Contents (Elt F) :=
  addf (x0) (val_main_v29 (F := F) x0 x1)

def val_main_v31 : (⟨S100000x128, .f32⟩ : BufTy).Contents (Elt F) :=
  Host.dotGeneral dot_S100000x128_S128x128_S100000x128_1_0_0_1_n_n none (val_main_v30 (F := F) x0 x1) (val_main_v9 (F := F) x4)

def val_main_v32 : (⟨S1x128, .f32⟩ : BufTy).Contents (Elt F) :=
  broadcastInDim S1x128 ![1] bcast_S128_S1x128_1 (val_main_v11 (F := F) x5)

def val_main_v33 : (⟨S100000x128, .f32⟩ : BufTy).Contents (Elt F) :=
  broadcastInDim S100000x128 ![0, 1] bcast_S1x128_S100000x128_0_1 (val_main_v32 (F := F) x5)

def val_main_v34 : (⟨S100000x128, .f32⟩ : BufTy).Contents (Elt F) :=
  addf (val_main_v31 (F := F) x0 x1 x4) (val_main_v33 (F := F) x5)

def val_main_v35 : (⟨S1x128, .f32⟩ : BufTy).Contents (Elt F) :=
  broadcastInDim S1x128 ![1] bcast_S128_S1x128_1 (val_main_v17 (F := F) x8)

def val_main_v36 : (⟨S100000x128, .f32⟩ : BufTy).Contents (Elt F) :=
  broadcastInDim S100000x128 ![0, 1] bcast_S1x128_S100000x128_0_1 (val_main_v35 (F := F) x8)

def val_main_v37 : (⟨S100000x128, .f32⟩ : BufTy).Contents (Elt F) :=
  subf (val_main_v34 (F := F) x0 x1 x4 x5) (val_main_v36 (F := F) x8)

def val_main_cst_1 : (⟨S_, .f32⟩ : BufTy).Contents (Elt F) :=
  constant S_ .f32 0x3727C5AC#32

def val_main_v38 : (⟨S128, .f32⟩ : BufTy).Contents (Elt F) :=
  broadcastInDim S128 ![] bcast_S_S128 (val_main_cst_1 (F := F))

def val_main_v39 : (⟨S128, .f32⟩ : BufTy).Contents (Elt F) :=
  addf (val_main_v19 (F := F) x9) (val_main_v38 (F := F))

def val_main_v40 : (⟨S128, .f32⟩ : BufTy).Contents (Elt F) :=
  Host.rsqrt (val_main_v39 (F := F) x9)

def val_main_v41 : (⟨S1x128, .f32⟩ : BufTy).Contents (Elt F) :=
  broadcastInDim S1x128 ![1] bcast_S128_S1x128_1 (val_main_v40 (F := F) x9)

def val_main_v42 : (⟨S100000x128, .f32⟩ : BufTy).Contents (Elt F) :=
  broadcastInDim S100000x128 ![0, 1] bcast_S1x128_S100000x128_0_1 (val_main_v41 (F := F) x9)

def val_main_v43 : (⟨S100000x128, .f32⟩ : BufTy).Contents (Elt F) :=
  mulf (val_main_v37 (F := F) x0 x1 x4 x5 x8) (val_main_v42 (F := F) x9)

def val_main_v44 : (⟨S1x128, .f32⟩ : BufTy).Contents (Elt F) :=
  broadcastInDim S1x128 ![1] bcast_S128_S1x128_1 (val_main_v13 (F := F) x6)

def val_main_v45 : (⟨S100000x128, .f32⟩ : BufTy).Contents (Elt F) :=
  broadcastInDim S100000x128 ![0, 1] bcast_S1x128_S100000x128_0_1 (val_main_v44 (F := F) x6)

def val_main_v46 : (⟨S100000x128, .f32⟩ : BufTy).Contents (Elt F) :=
  mulf (val_main_v43 (F := F) x0 x1 x4 x5 x8 x9) (val_main_v45 (F := F) x6)

def val_main_v47 : (⟨S1x128, .f32⟩ : BufTy).Contents (Elt F) :=
  broadcastInDim S1x128 ![1] bcast_S128_S1x128_1 (val_main_v15 (F := F) x7)

def val_main_v48 : (⟨S100000x128, .f32⟩ : BufTy).Contents (Elt F) :=
  broadcastInDim S100000x128 ![0, 1] bcast_S1x128_S100000x128_0_1 (val_main_v47 (F := F) x7)

def val_main_v49 : (⟨S100000x128, .f32⟩ : BufTy).Contents (Elt F) :=
  addf (val_main_v46 (F := F) x0 x1 x4 x5 x6 x8 x9) (val_main_v48 (F := F) x7)

def val_main_call0_cst : (⟨S_, .f32⟩ : BufTy).Contents (Elt F) :=
  constant S_ .f32 0x00000000#32

def val_main_call0_v0 : (⟨S100000x128, .f32⟩ : BufTy).Contents (Elt F) :=
  broadcastInDim S100000x128 ![] bcast_S_S100000x128 (val_main_call0_cst (F := F))

def val_main_v50 : (⟨S100000x128, .f32⟩ : BufTy).Contents (Elt F) :=
  maximumf (val_main_v49 (F := F) x0 x1 x4 x5 x6 x7 x8 x9) (val_main_call0_v0 (F := F))

def val_main_v51 : (⟨S1x128x128, .f32⟩ : BufTy).Contents (Elt F) :=
  extractStridedSlice S1x128x128 ![1, 0, 0] (x4) slices_S4x128x128_S1x128x128_1_0_0

def val_main_v52 : (⟨S128x128, .f32⟩ : BufTy).Contents (Elt F) :=
  shapeCast _ (val_main_v51 (F := F) x4) shapeCasts_S1x128x128_S128x128

def val_main_v53 : (⟨S1x128, .f32⟩ : BufTy).Contents (Elt F) :=
  extractStridedSlice S1x128 ![1, 0] (x5) slices_S4x128_S1x128_1_0

def val_main_v54 : (⟨S128, .f32⟩ : BufTy).Contents (Elt F) :=
  shapeCast _ (val_main_v53 (F := F) x5) shapeCasts_S1x128_S128

def val_main_v55 : (⟨S1x128, .f32⟩ : BufTy).Contents (Elt F) :=
  extractStridedSlice S1x128 ![1, 0] (x6) slices_S4x128_S1x128_1_0

def val_main_v56 : (⟨S128, .f32⟩ : BufTy).Contents (Elt F) :=
  shapeCast _ (val_main_v55 (F := F) x6) shapeCasts_S1x128_S128

def val_main_v57 : (⟨S1x128, .f32⟩ : BufTy).Contents (Elt F) :=
  extractStridedSlice S1x128 ![1, 0] (x7) slices_S4x128_S1x128_1_0

def val_main_v58 : (⟨S128, .f32⟩ : BufTy).Contents (Elt F) :=
  shapeCast _ (val_main_v57 (F := F) x7) shapeCasts_S1x128_S128

def val_main_v59 : (⟨S1x128, .f32⟩ : BufTy).Contents (Elt F) :=
  extractStridedSlice S1x128 ![1, 0] (x8) slices_S4x128_S1x128_1_0

def val_main_v60 : (⟨S128, .f32⟩ : BufTy).Contents (Elt F) :=
  shapeCast _ (val_main_v59 (F := F) x8) shapeCasts_S1x128_S128

def val_main_v61 : (⟨S1x128, .f32⟩ : BufTy).Contents (Elt F) :=
  extractStridedSlice S1x128 ![1, 0] (x9) slices_S4x128_S1x128_1_0

def val_main_v62 : (⟨S128, .f32⟩ : BufTy).Contents (Elt F) :=
  shapeCast _ (val_main_v61 (F := F) x9) shapeCasts_S1x128_S128

def val_main_c_2 : (⟨S_, .i32⟩ : BufTy).Contents (Elt F) :=
  constantI S_ 32 0#32

def val_main_v63 : (⟨S1600000, .i32⟩ : BufTy).Contents (Elt F) :=
  broadcastInDim S1600000 ![] bcast_S_S1600000 (val_main_c_2 (F := F))

def val_main_v64 : (⟨S1600000, .i1⟩ : BufTy).Contents (Elt F) :=
  cmpi .slt (val_main_v1 (F := F) x1) (val_main_v63 (F := F))

def val_main_c_3 : (⟨S_, .i32⟩ : BufTy).Contents (Elt F) :=
  constantI S_ 32 100000#32

def val_main_v65 : (⟨S1600000, .i32⟩ : BufTy).Contents (Elt F) :=
  broadcastInDim S1600000 ![] bcast_S_S1600000 (val_main_c_3 (F := F))

def val_main_v66 : (⟨S1600000, .i32⟩ : BufTy).Contents (Elt F) :=
  addi (val_main_v1 (F := F) x1) (val_main_v65 (F := F))

def val_main_v67 : (⟨S1600000, .i32⟩ : BufTy).Contents (Elt F) :=
  select (val_main_v64 (F := F) x1) (val_main_v66 (F := F) x1) (val_main_v1 (F := F) x1)

def val_main_v68 : (⟨S1600000x1, .i32⟩ : BufTy).Contents (Elt F) :=
  broadcastInDim S1600000x1 ![0] bcast_S1600000_S1600000x1_0 (val_main_v67 (F := F) x1)

def val_main_v69 : (⟨S1600000x128, .f32⟩ : BufTy).Contents (Elt F) :=
  Host.gather gather_S100000x128_S1600000x1_S1600000x128_1_0_n_n_0_1_1128 (val_main_v50 (F := F) x0 x1 x4 x5 x6 x7 x8 x9) (val_main_v68 (F := F) x1)

def val_main_cst_4 : (⟨S_, .f32⟩ : BufTy).Contents (Elt F) :=
  constant S_ .f32 0x00000000#32

def val_main_v70 : (⟨S100000x128, .f32⟩ : BufTy).Contents (Elt F) :=
  broadcastInDim S100000x128 ![] bcast_S_S100000x128 (val_main_cst_4 (F := F))

def val_main_v71 : (⟨S1600000x1, .i32⟩ : BufTy).Contents (Elt F) :=
  broadcastInDim S1600000x1 ![0] bcast_S1600000_S1600000x1_0 (val_main_v3 (F := F) x1)

def val_main_v72 : (⟨S100000x128, .f32⟩ : BufTy).Contents (Elt F) :=
  Host.scatterAdd scatter_S100000x128_S1600000x1_S1600000x128_1_0_0_1 (val_main_v70 (F := F)) (val_main_v71 (F := F) x1) (val_main_v69 (F := F) x0 x1 x4 x5 x6 x7 x8 x9)

def val_main_v73 : (⟨S100000x128, .f32⟩ : BufTy).Contents (Elt F) :=
  addf (val_main_v50 (F := F) x0 x1 x4 x5 x6 x7 x8 x9) (val_main_v72 (F := F) x0 x1 x4 x5 x6 x7 x8 x9)

def val_main_v74 : (⟨S100000x128, .f32⟩ : BufTy).Contents (Elt F) :=
  Host.dotGeneral dot_S100000x128_S128x128_S100000x128_1_0_0_1_n_n none (val_main_v73 (F := F) x0 x1 x4 x5 x6 x7 x8 x9) (val_main_v52 (F := F) x4)

def val_main_v75 : (⟨S1x128, .f32⟩ : BufTy).Contents (Elt F) :=
  broadcastInDim S1x128 ![1] bcast_S128_S1x128_1 (val_main_v54 (F := F) x5)

def val_main_v76 : (⟨S100000x128, .f32⟩ : BufTy).Contents (Elt F) :=
  broadcastInDim S100000x128 ![0, 1] bcast_S1x128_S100000x128_0_1 (val_main_v75 (F := F) x5)

def val_main_v77 : (⟨S100000x128, .f32⟩ : BufTy).Contents (Elt F) :=
  addf (val_main_v74 (F := F) x0 x1 x4 x5 x6 x7 x8 x9) (val_main_v76 (F := F) x5)

def val_main_v78 : (⟨S1x128, .f32⟩ : BufTy).Contents (Elt F) :=
  broadcastInDim S1x128 ![1] bcast_S128_S1x128_1 (val_main_v60 (F := F) x8)

def val_main_v79 : (⟨S100000x128, .f32⟩ : BufTy).Contents (Elt F) :=
  broadcastInDim S100000x128 ![0, 1] bcast_S1x128_S100000x128_0_1 (val_main_v78 (F := F) x8)

def val_main_v80 : (⟨S100000x128, .f32⟩ : BufTy).Contents (Elt F) :=
  subf (val_main_v77 (F := F) x0 x1 x4 x5 x6 x7 x8 x9) (val_main_v79 (F := F) x8)

def val_main_cst_5 : (⟨S_, .f32⟩ : BufTy).Contents (Elt F) :=
  constant S_ .f32 0x3727C5AC#32

def val_main_v81 : (⟨S128, .f32⟩ : BufTy).Contents (Elt F) :=
  broadcastInDim S128 ![] bcast_S_S128 (val_main_cst_5 (F := F))

def val_main_v82 : (⟨S128, .f32⟩ : BufTy).Contents (Elt F) :=
  addf (val_main_v62 (F := F) x9) (val_main_v81 (F := F))

def val_main_v83 : (⟨S128, .f32⟩ : BufTy).Contents (Elt F) :=
  Host.rsqrt (val_main_v82 (F := F) x9)

def val_main_v84 : (⟨S1x128, .f32⟩ : BufTy).Contents (Elt F) :=
  broadcastInDim S1x128 ![1] bcast_S128_S1x128_1 (val_main_v83 (F := F) x9)

def val_main_v85 : (⟨S100000x128, .f32⟩ : BufTy).Contents (Elt F) :=
  broadcastInDim S100000x128 ![0, 1] bcast_S1x128_S100000x128_0_1 (val_main_v84 (F := F) x9)

def val_main_v86 : (⟨S100000x128, .f32⟩ : BufTy).Contents (Elt F) :=
  mulf (val_main_v80 (F := F) x0 x1 x4 x5 x6 x7 x8 x9) (val_main_v85 (F := F) x9)

def val_main_v87 : (⟨S1x128, .f32⟩ : BufTy).Contents (Elt F) :=
  broadcastInDim S1x128 ![1] bcast_S128_S1x128_1 (val_main_v56 (F := F) x6)

def val_main_v88 : (⟨S100000x128, .f32⟩ : BufTy).Contents (Elt F) :=
  broadcastInDim S100000x128 ![0, 1] bcast_S1x128_S100000x128_0_1 (val_main_v87 (F := F) x6)

def val_main_v89 : (⟨S100000x128, .f32⟩ : BufTy).Contents (Elt F) :=
  mulf (val_main_v86 (F := F) x0 x1 x4 x5 x6 x7 x8 x9) (val_main_v88 (F := F) x6)

def val_main_v90 : (⟨S1x128, .f32⟩ : BufTy).Contents (Elt F) :=
  broadcastInDim S1x128 ![1] bcast_S128_S1x128_1 (val_main_v58 (F := F) x7)

def val_main_v91 : (⟨S100000x128, .f32⟩ : BufTy).Contents (Elt F) :=
  broadcastInDim S100000x128 ![0, 1] bcast_S1x128_S100000x128_0_1 (val_main_v90 (F := F) x7)

def val_main_v92 : (⟨S100000x128, .f32⟩ : BufTy).Contents (Elt F) :=
  addf (val_main_v89 (F := F) x0 x1 x4 x5 x6 x7 x8 x9) (val_main_v91 (F := F) x7)

def val_main_call1_cst : (⟨S_, .f32⟩ : BufTy).Contents (Elt F) :=
  constant S_ .f32 0x00000000#32

def val_main_call1_v0 : (⟨S100000x128, .f32⟩ : BufTy).Contents (Elt F) :=
  broadcastInDim S100000x128 ![] bcast_S_S100000x128 (val_main_call1_cst (F := F))

def val_main_v93 : (⟨S100000x128, .f32⟩ : BufTy).Contents (Elt F) :=
  maximumf (val_main_v92 (F := F) x0 x1 x4 x5 x6 x7 x8 x9) (val_main_call1_v0 (F := F))

def val_main_v94 : (⟨S1x128x128, .f32⟩ : BufTy).Contents (Elt F) :=
  extractStridedSlice S1x128x128 ![2, 0, 0] (x4) slices_S4x128x128_S1x128x128_2_0_0

def val_main_v95 : (⟨S128x128, .f32⟩ : BufTy).Contents (Elt F) :=
  shapeCast _ (val_main_v94 (F := F) x4) shapeCasts_S1x128x128_S128x128

def val_main_v96 : (⟨S1x128, .f32⟩ : BufTy).Contents (Elt F) :=
  extractStridedSlice S1x128 ![2, 0] (x5) slices_S4x128_S1x128_2_0

def val_main_v97 : (⟨S128, .f32⟩ : BufTy).Contents (Elt F) :=
  shapeCast _ (val_main_v96 (F := F) x5) shapeCasts_S1x128_S128

def val_main_v98 : (⟨S1x128, .f32⟩ : BufTy).Contents (Elt F) :=
  extractStridedSlice S1x128 ![2, 0] (x6) slices_S4x128_S1x128_2_0

def val_main_v99 : (⟨S128, .f32⟩ : BufTy).Contents (Elt F) :=
  shapeCast _ (val_main_v98 (F := F) x6) shapeCasts_S1x128_S128

def val_main_v100 : (⟨S1x128, .f32⟩ : BufTy).Contents (Elt F) :=
  extractStridedSlice S1x128 ![2, 0] (x7) slices_S4x128_S1x128_2_0

def val_main_v101 : (⟨S128, .f32⟩ : BufTy).Contents (Elt F) :=
  shapeCast _ (val_main_v100 (F := F) x7) shapeCasts_S1x128_S128

def val_main_v102 : (⟨S1x128, .f32⟩ : BufTy).Contents (Elt F) :=
  extractStridedSlice S1x128 ![2, 0] (x8) slices_S4x128_S1x128_2_0

def val_main_v103 : (⟨S128, .f32⟩ : BufTy).Contents (Elt F) :=
  shapeCast _ (val_main_v102 (F := F) x8) shapeCasts_S1x128_S128

def val_main_v104 : (⟨S1x128, .f32⟩ : BufTy).Contents (Elt F) :=
  extractStridedSlice S1x128 ![2, 0] (x9) slices_S4x128_S1x128_2_0

def val_main_v105 : (⟨S128, .f32⟩ : BufTy).Contents (Elt F) :=
  shapeCast _ (val_main_v104 (F := F) x9) shapeCasts_S1x128_S128

def val_main_c_6 : (⟨S_, .i32⟩ : BufTy).Contents (Elt F) :=
  constantI S_ 32 0#32

def val_main_v106 : (⟨S1600000, .i32⟩ : BufTy).Contents (Elt F) :=
  broadcastInDim S1600000 ![] bcast_S_S1600000 (val_main_c_6 (F := F))

def val_main_v107 : (⟨S1600000, .i1⟩ : BufTy).Contents (Elt F) :=
  cmpi .slt (val_main_v5 (F := F) x2) (val_main_v106 (F := F))

def val_main_c_7 : (⟨S_, .i32⟩ : BufTy).Contents (Elt F) :=
  constantI S_ 32 100000#32

def val_main_v108 : (⟨S1600000, .i32⟩ : BufTy).Contents (Elt F) :=
  broadcastInDim S1600000 ![] bcast_S_S1600000 (val_main_c_7 (F := F))

def val_main_v109 : (⟨S1600000, .i32⟩ : BufTy).Contents (Elt F) :=
  addi (val_main_v5 (F := F) x2) (val_main_v108 (F := F))

def val_main_v110 : (⟨S1600000, .i32⟩ : BufTy).Contents (Elt F) :=
  select (val_main_v107 (F := F) x2) (val_main_v109 (F := F) x2) (val_main_v5 (F := F) x2)

def val_main_v111 : (⟨S1600000x1, .i32⟩ : BufTy).Contents (Elt F) :=
  broadcastInDim S1600000x1 ![0] bcast_S1600000_S1600000x1_0 (val_main_v110 (F := F) x2)

def val_main_v112 : (⟨S1600000x128, .f32⟩ : BufTy).Contents (Elt F) :=
  Host.gather gather_S100000x128_S1600000x1_S1600000x128_1_0_n_n_0_1_1128 (x0) (val_main_v111 (F := F) x2)

def val_main_cst_8 : (⟨S_, .f32⟩ : BufTy).Contents (Elt F) :=
  constant S_ .f32 0x00000000#32

def val_main_v113 : (⟨S100000x128, .f32⟩ : BufTy).Contents (Elt F) :=
  broadcastInDim S100000x128 ![] bcast_S_S100000x128 (val_main_cst_8 (F := F))

def val_main_v114 : (⟨S1600000x1, .i32⟩ : BufTy).Contents (Elt F) :=
  broadcastInDim S1600000x1 ![0] bcast_S1600000_S1600000x1_0 (val_main_v7 (F := F) x2)

def val_main_v115 : (⟨S100000x128, .f32⟩ : BufTy).Contents (Elt F) :=
  Host.scatterAdd scatter_S100000x128_S1600000x1_S1600000x128_1_0_0_1 (val_main_v113 (F := F)) (val_main_v114 (F := F) x2) (val_main_v112 (F := F) x0 x2)

def val_main_v116 : (⟨S100000x128, .f32⟩ : BufTy).Contents (Elt F) :=
  addf (x0) (val_main_v115 (F := F) x0 x2)

def val_main_v117 : (⟨S100000x128, .f32⟩ : BufTy).Contents (Elt F) :=
  Host.dotGeneral dot_S100000x128_S128x128_S100000x128_1_0_0_1_n_n none (val_main_v116 (F := F) x0 x2) (val_main_v95 (F := F) x4)

def val_main_v118 : (⟨S1x128, .f32⟩ : BufTy).Contents (Elt F) :=
  broadcastInDim S1x128 ![1] bcast_S128_S1x128_1 (val_main_v97 (F := F) x5)

def val_main_v119 : (⟨S100000x128, .f32⟩ : BufTy).Contents (Elt F) :=
  broadcastInDim S100000x128 ![0, 1] bcast_S1x128_S100000x128_0_1 (val_main_v118 (F := F) x5)

def val_main_v120 : (⟨S100000x128, .f32⟩ : BufTy).Contents (Elt F) :=
  addf (val_main_v117 (F := F) x0 x2 x4) (val_main_v119 (F := F) x5)

def val_main_v121 : (⟨S1x128, .f32⟩ : BufTy).Contents (Elt F) :=
  broadcastInDim S1x128 ![1] bcast_S128_S1x128_1 (val_main_v103 (F := F) x8)

def val_main_v122 : (⟨S100000x128, .f32⟩ : BufTy).Contents (Elt F) :=
  broadcastInDim S100000x128 ![0, 1] bcast_S1x128_S100000x128_0_1 (val_main_v121 (F := F) x8)

def val_main_v123 : (⟨S100000x128, .f32⟩ : BufTy).Contents (Elt F) :=
  subf (val_main_v120 (F := F) x0 x2 x4 x5) (val_main_v122 (F := F) x8)

def val_main_cst_9 : (⟨S_, .f32⟩ : BufTy).Contents (Elt F) :=
  constant S_ .f32 0x3727C5AC#32

def val_main_v124 : (⟨S128, .f32⟩ : BufTy).Contents (Elt F) :=
  broadcastInDim S128 ![] bcast_S_S128 (val_main_cst_9 (F := F))

def val_main_v125 : (⟨S128, .f32⟩ : BufTy).Contents (Elt F) :=
  addf (val_main_v105 (F := F) x9) (val_main_v124 (F := F))

def val_main_v126 : (⟨S128, .f32⟩ : BufTy).Contents (Elt F) :=
  Host.rsqrt (val_main_v125 (F := F) x9)

def val_main_v127 : (⟨S1x128, .f32⟩ : BufTy).Contents (Elt F) :=
  broadcastInDim S1x128 ![1] bcast_S128_S1x128_1 (val_main_v126 (F := F) x9)

def val_main_v128 : (⟨S100000x128, .f32⟩ : BufTy).Contents (Elt F) :=
  broadcastInDim S100000x128 ![0, 1] bcast_S1x128_S100000x128_0_1 (val_main_v127 (F := F) x9)

def val_main_v129 : (⟨S100000x128, .f32⟩ : BufTy).Contents (Elt F) :=
  mulf (val_main_v123 (F := F) x0 x2 x4 x5 x8) (val_main_v128 (F := F) x9)

def val_main_v130 : (⟨S1x128, .f32⟩ : BufTy).Contents (Elt F) :=
  broadcastInDim S1x128 ![1] bcast_S128_S1x128_1 (val_main_v99 (F := F) x6)

def val_main_v131 : (⟨S100000x128, .f32⟩ : BufTy).Contents (Elt F) :=
  broadcastInDim S100000x128 ![0, 1] bcast_S1x128_S100000x128_0_1 (val_main_v130 (F := F) x6)

def val_main_v132 : (⟨S100000x128, .f32⟩ : BufTy).Contents (Elt F) :=
  mulf (val_main_v129 (F := F) x0 x2 x4 x5 x8 x9) (val_main_v131 (F := F) x6)

def val_main_v133 : (⟨S1x128, .f32⟩ : BufTy).Contents (Elt F) :=
  broadcastInDim S1x128 ![1] bcast_S128_S1x128_1 (val_main_v101 (F := F) x7)

def val_main_v134 : (⟨S100000x128, .f32⟩ : BufTy).Contents (Elt F) :=
  broadcastInDim S100000x128 ![0, 1] bcast_S1x128_S100000x128_0_1 (val_main_v133 (F := F) x7)

def val_main_v135 : (⟨S100000x128, .f32⟩ : BufTy).Contents (Elt F) :=
  addf (val_main_v132 (F := F) x0 x2 x4 x5 x6 x8 x9) (val_main_v134 (F := F) x7)

def val_main_call2_cst : (⟨S_, .f32⟩ : BufTy).Contents (Elt F) :=
  constant S_ .f32 0x00000000#32

def val_main_call2_v0 : (⟨S100000x128, .f32⟩ : BufTy).Contents (Elt F) :=
  broadcastInDim S100000x128 ![] bcast_S_S100000x128 (val_main_call2_cst (F := F))

def val_main_v136 : (⟨S100000x128, .f32⟩ : BufTy).Contents (Elt F) :=
  maximumf (val_main_v135 (F := F) x0 x2 x4 x5 x6 x7 x8 x9) (val_main_call2_v0 (F := F))

def val_main_v137 : (⟨S1x128x128, .f32⟩ : BufTy).Contents (Elt F) :=
  extractStridedSlice S1x128x128 ![3, 0, 0] (x4) slices_S4x128x128_S1x128x128_3_0_0

def val_main_v138 : (⟨S128x128, .f32⟩ : BufTy).Contents (Elt F) :=
  shapeCast _ (val_main_v137 (F := F) x4) shapeCasts_S1x128x128_S128x128

def val_main_v139 : (⟨S1x128, .f32⟩ : BufTy).Contents (Elt F) :=
  extractStridedSlice S1x128 ![3, 0] (x5) slices_S4x128_S1x128_3_0

def val_main_v140 : (⟨S128, .f32⟩ : BufTy).Contents (Elt F) :=
  shapeCast _ (val_main_v139 (F := F) x5) shapeCasts_S1x128_S128

def val_main_v141 : (⟨S1x128, .f32⟩ : BufTy).Contents (Elt F) :=
  extractStridedSlice S1x128 ![3, 0] (x6) slices_S4x128_S1x128_3_0

def val_main_v142 : (⟨S128, .f32⟩ : BufTy).Contents (Elt F) :=
  shapeCast _ (val_main_v141 (F := F) x6) shapeCasts_S1x128_S128

def val_main_v143 : (⟨S1x128, .f32⟩ : BufTy).Contents (Elt F) :=
  extractStridedSlice S1x128 ![3, 0] (x7) slices_S4x128_S1x128_3_0

def val_main_v144 : (⟨S128, .f32⟩ : BufTy).Contents (Elt F) :=
  shapeCast _ (val_main_v143 (F := F) x7) shapeCasts_S1x128_S128

def val_main_v145 : (⟨S1x128, .f32⟩ : BufTy).Contents (Elt F) :=
  extractStridedSlice S1x128 ![3, 0] (x8) slices_S4x128_S1x128_3_0

def val_main_v146 : (⟨S128, .f32⟩ : BufTy).Contents (Elt F) :=
  shapeCast _ (val_main_v145 (F := F) x8) shapeCasts_S1x128_S128

def val_main_v147 : (⟨S1x128, .f32⟩ : BufTy).Contents (Elt F) :=
  extractStridedSlice S1x128 ![3, 0] (x9) slices_S4x128_S1x128_3_0

def val_main_v148 : (⟨S128, .f32⟩ : BufTy).Contents (Elt F) :=
  shapeCast _ (val_main_v147 (F := F) x9) shapeCasts_S1x128_S128

def val_main_c_10 : (⟨S_, .i32⟩ : BufTy).Contents (Elt F) :=
  constantI S_ 32 0#32

def val_main_v149 : (⟨S1600000, .i32⟩ : BufTy).Contents (Elt F) :=
  broadcastInDim S1600000 ![] bcast_S_S1600000 (val_main_c_10 (F := F))

def val_main_v150 : (⟨S1600000, .i1⟩ : BufTy).Contents (Elt F) :=
  cmpi .slt (val_main_v5 (F := F) x2) (val_main_v149 (F := F))

def val_main_c_11 : (⟨S_, .i32⟩ : BufTy).Contents (Elt F) :=
  constantI S_ 32 100000#32

def val_main_v151 : (⟨S1600000, .i32⟩ : BufTy).Contents (Elt F) :=
  broadcastInDim S1600000 ![] bcast_S_S1600000 (val_main_c_11 (F := F))

def val_main_v152 : (⟨S1600000, .i32⟩ : BufTy).Contents (Elt F) :=
  addi (val_main_v5 (F := F) x2) (val_main_v151 (F := F))

def val_main_v153 : (⟨S1600000, .i32⟩ : BufTy).Contents (Elt F) :=
  select (val_main_v150 (F := F) x2) (val_main_v152 (F := F) x2) (val_main_v5 (F := F) x2)

def val_main_v154 : (⟨S1600000x1, .i32⟩ : BufTy).Contents (Elt F) :=
  broadcastInDim S1600000x1 ![0] bcast_S1600000_S1600000x1_0 (val_main_v153 (F := F) x2)

def val_main_v155 : (⟨S1600000x128, .f32⟩ : BufTy).Contents (Elt F) :=
  Host.gather gather_S100000x128_S1600000x1_S1600000x128_1_0_n_n_0_1_1128 (val_main_v136 (F := F) x0 x2 x4 x5 x6 x7 x8 x9) (val_main_v154 (F := F) x2)

def val_main_cst_12 : (⟨S_, .f32⟩ : BufTy).Contents (Elt F) :=
  constant S_ .f32 0x00000000#32

def val_main_v156 : (⟨S100000x128, .f32⟩ : BufTy).Contents (Elt F) :=
  broadcastInDim S100000x128 ![] bcast_S_S100000x128 (val_main_cst_12 (F := F))

def val_main_v157 : (⟨S1600000x1, .i32⟩ : BufTy).Contents (Elt F) :=
  broadcastInDim S1600000x1 ![0] bcast_S1600000_S1600000x1_0 (val_main_v7 (F := F) x2)

def val_main_v158 : (⟨S100000x128, .f32⟩ : BufTy).Contents (Elt F) :=
  Host.scatterAdd scatter_S100000x128_S1600000x1_S1600000x128_1_0_0_1 (val_main_v156 (F := F)) (val_main_v157 (F := F) x2) (val_main_v155 (F := F) x0 x2 x4 x5 x6 x7 x8 x9)

def val_main_v159 : (⟨S100000x128, .f32⟩ : BufTy).Contents (Elt F) :=
  addf (val_main_v136 (F := F) x0 x2 x4 x5 x6 x7 x8 x9) (val_main_v158 (F := F) x0 x2 x4 x5 x6 x7 x8 x9)

def val_main_v160 : (⟨S100000x128, .f32⟩ : BufTy).Contents (Elt F) :=
  Host.dotGeneral dot_S100000x128_S128x128_S100000x128_1_0_0_1_n_n none (val_main_v159 (F := F) x0 x2 x4 x5 x6 x7 x8 x9) (val_main_v138 (F := F) x4)

def val_main_v161 : (⟨S1x128, .f32⟩ : BufTy).Contents (Elt F) :=
  broadcastInDim S1x128 ![1] bcast_S128_S1x128_1 (val_main_v140 (F := F) x5)

def val_main_v162 : (⟨S100000x128, .f32⟩ : BufTy).Contents (Elt F) :=
  broadcastInDim S100000x128 ![0, 1] bcast_S1x128_S100000x128_0_1 (val_main_v161 (F := F) x5)

def val_main_v163 : (⟨S100000x128, .f32⟩ : BufTy).Contents (Elt F) :=
  addf (val_main_v160 (F := F) x0 x2 x4 x5 x6 x7 x8 x9) (val_main_v162 (F := F) x5)

def val_main_v164 : (⟨S1x128, .f32⟩ : BufTy).Contents (Elt F) :=
  broadcastInDim S1x128 ![1] bcast_S128_S1x128_1 (val_main_v146 (F := F) x8)

def val_main_v165 : (⟨S100000x128, .f32⟩ : BufTy).Contents (Elt F) :=
  broadcastInDim S100000x128 ![0, 1] bcast_S1x128_S100000x128_0_1 (val_main_v164 (F := F) x8)

def val_main_v166 : (⟨S100000x128, .f32⟩ : BufTy).Contents (Elt F) :=
  subf (val_main_v163 (F := F) x0 x2 x4 x5 x6 x7 x8 x9) (val_main_v165 (F := F) x8)

def val_main_cst_13 : (⟨S_, .f32⟩ : BufTy).Contents (Elt F) :=
  constant S_ .f32 0x3727C5AC#32

def val_main_v167 : (⟨S128, .f32⟩ : BufTy).Contents (Elt F) :=
  broadcastInDim S128 ![] bcast_S_S128 (val_main_cst_13 (F := F))

def val_main_v168 : (⟨S128, .f32⟩ : BufTy).Contents (Elt F) :=
  addf (val_main_v148 (F := F) x9) (val_main_v167 (F := F))

def val_main_v169 : (⟨S128, .f32⟩ : BufTy).Contents (Elt F) :=
  Host.rsqrt (val_main_v168 (F := F) x9)

def val_main_v170 : (⟨S1x128, .f32⟩ : BufTy).Contents (Elt F) :=
  broadcastInDim S1x128 ![1] bcast_S128_S1x128_1 (val_main_v169 (F := F) x9)

def val_main_v171 : (⟨S100000x128, .f32⟩ : BufTy).Contents (Elt F) :=
  broadcastInDim S100000x128 ![0, 1] bcast_S1x128_S100000x128_0_1 (val_main_v170 (F := F) x9)

def val_main_v172 : (⟨S100000x128, .f32⟩ : BufTy).Contents (Elt F) :=
  mulf (val_main_v166 (F := F) x0 x2 x4 x5 x6 x7 x8 x9) (val_main_v171 (F := F) x9)

def val_main_v173 : (⟨S1x128, .f32⟩ : BufTy).Contents (Elt F) :=
  broadcastInDim S1x128 ![1] bcast_S128_S1x128_1 (val_main_v142 (F := F) x6)

def val_main_v174 : (⟨S100000x128, .f32⟩ : BufTy).Contents (Elt F) :=
  broadcastInDim S100000x128 ![0, 1] bcast_S1x128_S100000x128_0_1 (val_main_v173 (F := F) x6)

def val_main_v175 : (⟨S100000x128, .f32⟩ : BufTy).Contents (Elt F) :=
  mulf (val_main_v172 (F := F) x0 x2 x4 x5 x6 x7 x8 x9) (val_main_v174 (F := F) x6)

def val_main_v176 : (⟨S1x128, .f32⟩ : BufTy).Contents (Elt F) :=
  broadcastInDim S1x128 ![1] bcast_S128_S1x128_1 (val_main_v144 (F := F) x7)

def val_main_v177 : (⟨S100000x128, .f32⟩ : BufTy).Contents (Elt F) :=
  broadcastInDim S100000x128 ![0, 1] bcast_S1x128_S100000x128_0_1 (val_main_v176 (F := F) x7)

def val_main_v178 : (⟨S100000x128, .f32⟩ : BufTy).Contents (Elt F) :=
  addf (val_main_v175 (F := F) x0 x2 x4 x5 x6 x7 x8 x9) (val_main_v177 (F := F) x7)

def val_main_call3_cst : (⟨S_, .f32⟩ : BufTy).Contents (Elt F) :=
  constant S_ .f32 0x00000000#32

def val_main_call3_v0 : (⟨S100000x128, .f32⟩ : BufTy).Contents (Elt F) :=
  broadcastInDim S100000x128 ![] bcast_S_S100000x128 (val_main_call3_cst (F := F))

def val_main_v179 : (⟨S100000x128, .f32⟩ : BufTy).Contents (Elt F) :=
  maximumf (val_main_v178 (F := F) x0 x2 x4 x5 x6 x7 x8 x9) (val_main_call3_v0 (F := F))

def val_main_cst_14 : (⟨S_, .f32⟩ : BufTy).Contents (Elt F) :=
  constant S_ .f32 0x00000000#32

def val_main_v180 : (⟨S128x128, .f32⟩ : BufTy).Contents (Elt F) :=
  broadcastInDim S128x128 ![] bcast_S_S128x128 (val_main_cst_14 (F := F))

def val_main_v181 : (⟨S100000x1, .i32⟩ : BufTy).Contents (Elt F) :=
  broadcastInDim S100000x1 ![0] bcast_S100000_S100000x1_0 (x3)

def val_main_v182 : (⟨S128x128, .f32⟩ : BufTy).Contents (Elt F) :=
  Host.scatterAdd scatter_S128x128_S100000x1_S100000x128_1_0_0_1 (val_main_v180 (F := F)) (val_main_v181 (F := F) x3) (val_main_v50 (F := F) x0 x1 x4 x5 x6 x7 x8 x9)

def val_main_cst_15 : (⟨S_, .f32⟩ : BufTy).Contents (Elt F) :=
  constant S_ .f32 0x00000000#32

def val_main_v183 : (⟨S128x128, .f32⟩ : BufTy).Contents (Elt F) :=
  broadcastInDim S128x128 ![] bcast_S_S128x128 (val_main_cst_15 (F := F))

def val_main_v184 : (⟨S100000x1, .i32⟩ : BufTy).Contents (Elt F) :=
  broadcastInDim S100000x1 ![0] bcast_S100000_S100000x1_0 (x3)

def val_main_v185 : (⟨S128x128, .f32⟩ : BufTy).Contents (Elt F) :=
  Host.scatterAdd scatter_S128x128_S100000x1_S100000x128_1_0_0_1 (val_main_v183 (F := F)) (val_main_v184 (F := F) x3) (val_main_v93 (F := F) x0 x1 x4 x5 x6 x7 x8 x9)

def val_main_cst_16 : (⟨S_, .f32⟩ : BufTy).Contents (Elt F) :=
  constant S_ .f32 0x00000000#32

def val_main_v186 : (⟨S128x128, .f32⟩ : BufTy).Contents (Elt F) :=
  broadcastInDim S128x128 ![] bcast_S_S128x128 (val_main_cst_16 (F := F))

def val_main_v187 : (⟨S100000x1, .i32⟩ : BufTy).Contents (Elt F) :=
  broadcastInDim S100000x1 ![0] bcast_S100000_S100000x1_0 (x3)

def val_main_v188 : (⟨S128x128, .f32⟩ : BufTy).Contents (Elt F) :=
  Host.scatterAdd scatter_S128x128_S100000x1_S100000x128_1_0_0_1 (val_main_v186 (F := F)) (val_main_v187 (F := F) x3) (val_main_v136 (F := F) x0 x2 x4 x5 x6 x7 x8 x9)

def val_main_cst_17 : (⟨S_, .f32⟩ : BufTy).Contents (Elt F) :=
  constant S_ .f32 0x00000000#32

def val_main_v189 : (⟨S128x128, .f32⟩ : BufTy).Contents (Elt F) :=
  broadcastInDim S128x128 ![] bcast_S_S128x128 (val_main_cst_17 (F := F))

def val_main_v190 : (⟨S100000x1, .i32⟩ : BufTy).Contents (Elt F) :=
  broadcastInDim S100000x1 ![0] bcast_S100000_S100000x1_0 (x3)

def val_main_v191 : (⟨S128x128, .f32⟩ : BufTy).Contents (Elt F) :=
  Host.scatterAdd scatter_S128x128_S100000x1_S100000x128_1_0_0_1 (val_main_v189 (F := F)) (val_main_v190 (F := F) x3) (val_main_v179 (F := F) x0 x2 x4 x5 x6 x7 x8 x9)

def val_main_v192 : (⟨S128x512, .f32⟩ : BufTy).Contents (Elt F) :=
  concatenate S128x512 1 [⟨S128x128, (val_main_v182 (F := F) x0 x1 x3 x4 x5 x6 x7 x8 x9)⟩, ⟨S128x128, (val_main_v185 (F := F) x0 x1 x3 x4 x5 x6 x7 x8 x9)⟩, ⟨S128x128, (val_main_v188 (F := F) x0 x2 x3 x4 x5 x6 x7 x8 x9)⟩, ⟨S128x128, (val_main_v191 (F := F) x0 x2 x3 x4 x5 x6 x7 x8 x9)⟩] concatenates_S128x128_S128x128_S128x128_S128x128_S128x512_d1

def val_main_v193 : (⟨S128x256, .f32⟩ : BufTy).Contents (Elt F) :=
  Host.dotGeneral dot_S128x512_S512x256_S128x256_1_0_0_1_n_n none (val_main_v192 (F := F) x0 x1 x2 x3 x4 x5 x6 x7 x8 x9) (x10)

def val_main_v194 : (⟨S1x256, .f32⟩ : BufTy).Contents (Elt F) :=
  broadcastInDim S1x256 ![1] bcast_S256_S1x256_1 (x11)

def val_main_v195 : (⟨S128x256, .f32⟩ : BufTy).Contents (Elt F) :=
  broadcastInDim S128x256 ![0, 1] bcast_S1x256_S128x256_0_1 (val_main_v194 (F := F) x11)

def val_main_v196 : (⟨S128x256, .f32⟩ : BufTy).Contents (Elt F) :=
  addf (val_main_v193 (F := F) x0 x1 x2 x3 x4 x5 x6 x7 x8 x9 x10) (val_main_v195 (F := F) x11)

def val_main_call4_cst : (⟨S_, .f32⟩ : BufTy).Contents (Elt F) :=
  constant S_ .f32 0x00000000#32

def val_main_call4_v0 : (⟨S128x256, .f32⟩ : BufTy).Contents (Elt F) :=
  broadcastInDim S128x256 ![] bcast_S_S128x256 (val_main_call4_cst (F := F))

def val_main_v197 : (⟨S128x256, .f32⟩ : BufTy).Contents (Elt F) :=
  maximumf (val_main_v196 (F := F) x0 x1 x2 x3 x4 x5 x6 x7 x8 x9 x10 x11) (val_main_call4_v0 (F := F))

def val_main_v198 : (⟨S128x10, .f32⟩ : BufTy).Contents (Elt F) :=
  Host.dotGeneral dot_S128x256_S256x10_S128x10_1_0_0_1_n_n none (val_main_v197 (F := F) x0 x1 x2 x3 x4 x5 x6 x7 x8 x9 x10 x11) (x12)

def val_main_v199 : (⟨S1x10, .f32⟩ : BufTy).Contents (Elt F) :=
  broadcastInDim S1x10 ![1] bcast_S10_S1x10_1 (x13)

def val_main_v200 : (⟨S128x10, .f32⟩ : BufTy).Contents (Elt F) :=
  broadcastInDim S128x10 ![0, 1] bcast_S1x10_S128x10_0_1 (val_main_v199 (F := F) x13)

def val_main_v201 : (⟨S128x10, .f32⟩ : BufTy).Contents (Elt F) :=
  addf (val_main_v198 (F := F) x0 x1 x2 x3 x4 x5 x6 x7 x8 x9 x10 x11 x12) (val_main_v200 (F := F) x13)

def val_main_call5_cst : (⟨S_, .f32⟩ : BufTy).Contents (Elt F) :=
  constant S_ .f32 0xFF800000#32

def val_main_call5_v0 : (⟨S128, .f32⟩ : BufTy).Contents (Elt F) :=
  Host.reduce FloatOps.maximumf (val_main_v201 (F := F) x0 x1 x2 x3 x4 x5 x6 x7 x8 x9 x10 x11 x12 x13) (val_main_call5_cst (F := F)) reducesTo_S128x10_S128_d1 h_S_

def val_main_call5_cst_0 : (⟨S_, .f32⟩ : BufTy).Contents (Elt F) :=
  constant S_ .f32 0xFF800000#32

def val_main_call5_v1 : (⟨S128, .f32⟩ : BufTy).Contents (Elt F) :=
  broadcastInDim S128 ![] bcast_S_S128 (val_main_call5_cst_0 (F := F))

def val_main_call5_v2 : (⟨S128, .f32⟩ : BufTy).Contents (Elt F) :=
  maximumf (val_main_call5_v1 (F := F)) (val_main_call5_v0 (F := F) x0 x1 x2 x3 x4 x5 x6 x7 x8 x9 x10 x11 x12 x13)

def val_main_call5_v3 : (⟨S128x1, .f32⟩ : BufTy).Contents (Elt F) :=
  broadcastInDim S128x1 ![0] bcast_S128_S128x1_0 (val_main_call5_v2 (F := F) x0 x1 x2 x3 x4 x5 x6 x7 x8 x9 x10 x11 x12 x13)

def val_main_call5_v4 : (⟨S128x10, .f32⟩ : BufTy).Contents (Elt F) :=
  broadcastInDim S128x10 ![0, 1] bcast_S128x1_S128x10_0_1 (val_main_call5_v3 (F := F) x0 x1 x2 x3 x4 x5 x6 x7 x8 x9 x10 x11 x12 x13)

def val_main_call5_v5 : (⟨S128x10, .f32⟩ : BufTy).Contents (Elt F) :=
  subf (val_main_v201 (F := F) x0 x1 x2 x3 x4 x5 x6 x7 x8 x9 x10 x11 x12 x13) (val_main_call5_v4 (F := F) x0 x1 x2 x3 x4 x5 x6 x7 x8 x9 x10 x11 x12 x13)

def val_main_call5_v6 : (⟨S128x10, .f32⟩ : BufTy).Contents (Elt F) :=
  Host.exp (val_main_call5_v5 (F := F) x0 x1 x2 x3 x4 x5 x6 x7 x8 x9 x10 x11 x12 x13)

def val_main_call5_cst_1 : (⟨S_, .f32⟩ : BufTy).Contents (Elt F) :=
  constant S_ .f32 0x00000000#32

def val_main_call5_v7 : (⟨S128, .f32⟩ : BufTy).Contents (Elt F) :=
  Host.reduceAdd (val_main_call5_v6 (F := F) x0 x1 x2 x3 x4 x5 x6 x7 x8 x9 x10 x11 x12 x13) (val_main_call5_cst_1 (F := F)) reducesTo_S128x10_S128_d1 h_S_

def val_main_call5_v8 : (⟨S128x1, .f32⟩ : BufTy).Contents (Elt F) :=
  broadcastInDim S128x1 ![0] bcast_S128_S128x1_0 (val_main_call5_v7 (F := F) x0 x1 x2 x3 x4 x5 x6 x7 x8 x9 x10 x11 x12 x13)

def val_main_call5_v9 : (⟨S128x1, .f32⟩ : BufTy).Contents (Elt F) :=
  Host.log (val_main_call5_v8 (F := F) x0 x1 x2 x3 x4 x5 x6 x7 x8 x9 x10 x11 x12 x13)

def val_main_call5_v10 : (⟨S128x10, .f32⟩ : BufTy).Contents (Elt F) :=
  broadcastInDim S128x10 ![0, 1] bcast_S128x1_S128x10_0_1 (val_main_call5_v9 (F := F) x0 x1 x2 x3 x4 x5 x6 x7 x8 x9 x10 x11 x12 x13)

def val_main_v202 : (⟨S128x10, .f32⟩ : BufTy).Contents (Elt F) :=
  subf (val_main_call5_v5 (F := F) x0 x1 x2 x3 x4 x5 x6 x7 x8 x9 x10 x11 x12 x13) (val_main_call5_v10 (F := F) x0 x1 x2 x3 x4 x5 x6 x7 x8 x9 x10 x11 x12 x13)

end Cert.ReferenceIdeal.Read

end
-- ==== Proof.Ref.Pool.lean ====
import proofs.«403111_j50835232915932_1_alg».proof.Proof.Gen.ReferenceIdeal
import proofs.«403111_j50835232915932_1_alg».proof.Proof.Spec
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

abbrev poolDims := scatter_S128x128_S100000x1_S100000x128_1_0_0_1

theorem poolDims_window0 (j : S100000x128.Idx) : poolDims.window j 0 = 0 := by
  unfold ScatterDims.window
  rfl

theorem poolDims_window1 (j : S100000x128.Idx) : poolDims.window j 1 = (j 1).val := by
  unfold ScatterDims.window
  rfl

theorem poolDims_start1 (j : S100000x128.Idx) (idx : IVec S100000x1 32) : poolDims.start j idx 1 = 0 := by
  unfold ScatterDims.start
  rfl

theorem poolDims_siIdx (j : S100000x128.Idx) (q : Fin poolDims.scatterDimsToOperandDims.length) :
    poolDims.siIdx j q = ix2 (j 0) 0 := by
  funext b
  match b with
  | ⟨0, _⟩ => rfl
  | ⟨1, _⟩ => exact Fin.ext (by have := q.isLt; show q.val = 0; change q.val < 1 at this; omega)

theorem poolDims_start0 (j : S100000x128.Idx) (idx : IVec S100000x1 32) :
    poolDims.start j idx 0 = (idx (ix2 (j 0) 0)).toInt := by
  unfold ScatterDims.start
  rw [dif_pos (show (0 : Fin S128x128.rank) ∈ poolDims.scatterDimsToOperandDims by decide), poolDims_siIdx]
  rfl

theorem poolDims_resultIdx_iff (j : S100000x128.Idx) (idx : IVec S100000x1 32) (g c : Fin 128) :
    poolDims.resultIdx? j idx = some (ix2 g c) ↔ (idx (ix2 (j 0) 0)).toInt = (g.val : Int) ∧ j 1 = c := by
  unfold ScatterDims.resultIdx?
  constructor
  · intro h
    split at h
    · next H =>
      have e := Option.some.inj h
      have e0 := congrArg (fun f => (f 0).val) e
      have e1 := congrArg (fun f => (f 1).val) e
      simp only [poolDims_start0, poolDims_start1, poolDims_window0, poolDims_window1] at e0 e1
      have H0 := H 0
      rw [poolDims_start0, poolDims_window0] at H0
      refine ⟨?_, Fin.ext ?_⟩
      · change ((idx (ix2 (j 0) 0)).toInt + ((0 : Nat) : Int)).toNat = g.val at e0
        omega
      · change ((0 : Int) + ((j 1).val : Int)).toNat = c.val at e1
        omega
    · exact absurd h (by simp)
  · rintro ⟨h0, h1⟩
    have H : ∀ a, 0 ≤ poolDims.start j idx a + poolDims.window j a
        ∧ poolDims.start j idx a + poolDims.window j a < S128x128.size a := by
      intro a
      match a with
      | ⟨0, _⟩ =>
        show 0 ≤ poolDims.start j idx 0 + poolDims.window j 0
          ∧ poolDims.start j idx 0 + poolDims.window j 0 < ((128 : Nat) : Int)
        rw [poolDims_start0, poolDims_window0, h0]; have := g.isLt; omega
      | ⟨1, _⟩ =>
        show 0 ≤ poolDims.start j idx 1 + poolDims.window j 1
          ∧ poolDims.start j idx 1 + poolDims.window j 1 < ((128 : Nat) : Int)
        rw [poolDims_start1, poolDims_window1]; have := (j 1).isLt; change (j 1).val < 128 at this; omega
    rw [dif_pos H]
    congr 1
    funext a
    match a with
    | ⟨0, _⟩ =>
      apply Fin.ext
      show (poolDims.start j idx 0 + poolDims.window j 0).toNat = g.val
      rw [poolDims_start0, poolDims_window0, h0]; omega
    | ⟨1, _⟩ =>
      apply Fin.ext
      show (poolDims.start j idx 1 + poolDims.window j 1).toNat = c.val
      rw [poolDims_start1, poolDims_window1, ← h1]; omega

theorem toInt_eq_iff (w : BitVec 32) (g : Fin 128) : w.toInt = (g.val : Int) ↔ w = BitVec.ofNat 32 g.val := by
  have hg := g.isLt
  constructor
  · intro h
    apply BitVec.eq_of_toInt_eq
    rw [h, BitVec.toInt_eq_toNat_cond, BitVec.toNat_ofNat]
    omega
  · intro h
    rw [h, BitVec.toInt_eq_toNat_cond, BitVec.toNat_ofNat]
    omega

theorem pool_sum (idx : IVec S100000x1 32) (upd : S100000x128.Idx → EReal) (g c : Fin 128) :
    (∑ j ∈ Finset.univ.filter (fun j => poolDims.resultIdx? j idx = some (ix2 g c)), upd j)
      = ∑ n : Fin 100000, if idx (ix2 n 0) = BitVec.ofNat 32 g.val then upd (ix2 n c) else 0 := by
  rw [Finset.sum_filter, sum_idx2]
  refine Finset.sum_congr rfl fun n _ => ?_
  have e : ∀ b : Fin 128, (if poolDims.resultIdx? (ix2 n b) idx = some (ix2 g c) then upd (ix2 n b) else 0)
      = if (idx (ix2 n 0) = BitVec.ofNat 32 g.val ∧ b = c) then upd (ix2 n b) else 0 := fun b =>
    if_congr ((poolDims_resultIdx_iff (ix2 n b) idx g c).trans (and_congr (toInt_eq_iff _ _) Iff.rfl)) rfl rfl
  rw [Finset.sum_congr rfl fun b _ => e b]
  by_cases hP : idx (ix2 n 0) = BitVec.ofNat 32 g.val
  · simp only [hP, true_and, if_true]
    exact (Finset.sum_ite_eq' Finset.univ c fun b => upd (ix2 n b)).trans (if_pos (Finset.mem_univ c))
  · simp only [hP, false_and, if_false]
    exact Finset.sum_const_zero

theorem pool_apply (batch : IVec S100000 32) (h : S100000x128.Idx → EReal) (g c : Fin 128) :
    Host.scatterAdd (F := Ideal) (φ := .f32) scatter_S128x128_S100000x1_S100000x128_1_0_0_1
        (broadcastInDim S128x128 ![] bcast_S_S128x128 (constant S_ .f32 0x00000000#32))
        (broadcastInDim S100000x1 ![0] bcast_S100000_S100000x1_0 batch) h (ix2 g c)
      = Cert.Spec.poolAt batch h g c := by
  simp only [Host.scatterAdd, Ideal.hostScatterAdd_def]
  unfold Ideal.hostScatterAdd Cert.Spec.poolAt
  rw [pool_sum]
  have z : broadcastInDim S128x128 ![] bcast_S_S128x128 (constant (F := Ideal) S_ .f32 0x00000000#32) (ix2 g c) = 0 :=
    (broadcastInDim_apply _ bcast_S_S128x128 _ (ix2 g c) ix0 (fun a => a.elim0)).trans Ideal.ofBits_zero_f32
  rw [z, zero_add]
  refine Finset.sum_congr rfl fun n _ => ?_
  have e : broadcastInDim S100000x1 ![0] bcast_S100000_S100000x1_0 batch (ix2 n 0) = batch (ix1 n) :=
    broadcastInDim_apply _ bcast_S100000_S100000x1_0 batch (ix2 n 0) (ix1 n) (fun a => match a with
      | ⟨0, _⟩ => by show n.val = if (100000 : Nat) = 1 then 0 else n.val; rw [if_neg (by decide)])
  rw [e]

end Cert.ReferenceIdeal.RefValue

end
-- ==== Proof.RefDefs.lean ====
import proofs.«403111_j50835232915932_1_alg».proof.Proof.Gen.ReferenceIdeal
import proofs.«403111_j50835232915932_1_alg».proof.Proof.Spec
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem

def aggR : (Cert.Spec.SNxC.Idx → EReal) → (Cert.Spec.SE.Idx → BitVec 32) → (Cert.Spec.SE.Idx → BitVec 32)
    → (Cert.Spec.SNxC.Idx → EReal) :=
  fun h s d =>
    Host.scatterAdd (F := Ideal) (φ := .f32) scatter_S100000x128_S1600000x1_S1600000x128_1_0_0_1
      (broadcastInDim S100000x128 ![] bcast_S_S100000x128 (constant S_ .f32 0x00000000#32))
      (broadcastInDim S1600000x1 ![0] bcast_S1600000_S1600000x1_0 d)
      (Host.gather gather_S100000x128_S1600000x1_S1600000x128_1_0_n_n_0_1_1128 h
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s)))

def inputsOf (x0 : FVec Ideal S100000x128 .f32) (x1 x2 : IVec S2x1600000 32) (x3 : IVec S100000 32)
    (x4 : FVec Ideal S4x128x128 .f32) (x5 x6 x7 x8 x9 : FVec Ideal S4x128 .f32) (x10 : FVec Ideal S512x256 .f32)
    (x11 : FVec Ideal S256 .f32) (x12 : FVec Ideal S256x10 .f32) (x13 : FVec Ideal S10 .f32) : Cert.Spec.Inputs where
  x := x0
  ex := x1
  ey := x2
  batch := x3
  convW := x4
  convB := x5
  gamma := x6
  beta := x7
  mean := x8
  var := x9
  lin1W := x10
  lin1b := x11
  lin2W := x12
  lin2b := x13

def inputsR (m' : (ℓ : Loc nD τ sig) → Buf (Elt Ideal) ℓ) (c : Dev nD) : Cert.Spec.Inputs :=
  inputsOf (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13))

def lsmR : (Cert.Spec.SGxO.Idx → EReal) → (Cert.Spec.SGxO.Idx → EReal) := fun z =>
  subf (F := Ideal) (φ := .f32)
    (subf (F := Ideal) (φ := .f32) z
      (broadcastInDim S128x10 ![0, 1] bcast_S128x1_S128x10_0_1 (broadcastInDim S128x1 ![0] bcast_S128_S128x1_0
        (maximumf (F := Ideal) (φ := .f32) (broadcastInDim S128 ![] bcast_S_S128 (constant S_ .f32 0xFF800000#32))
          (Host.reduce FloatOps.maximumf z (constant (F := Ideal) S_ .f32 0xFF800000#32) reducesTo_S128x10_S128_d1 h_S_)))))
    (broadcastInDim S128x10 ![0, 1] bcast_S128x1_S128x10_0_1 (Host.log (F := Ideal) (φ := .f32)
      (broadcastInDim S128x1 ![0] bcast_S128_S128x1_0
        (Host.reduceAdd (F := Ideal) (φ := .f32) (Host.exp (F := Ideal) (φ := .f32)
          (subf (F := Ideal) (φ := .f32) z
            (broadcastInDim S128x10 ![0, 1] bcast_S128x1_S128x10_0_1 (broadcastInDim S128x1 ![0] bcast_S128_S128x1_0
              (maximumf (F := Ideal) (φ := .f32) (broadcastInDim S128 ![] bcast_S_S128 (constant S_ .f32 0xFF800000#32))
                (Host.reduce FloatOps.maximumf z (constant (F := Ideal) S_ .f32 0xFF800000#32) reducesTo_S128x10_S128_d1 h_S_))))))
          (constant (F := Ideal) S_ .f32 0x00000000#32) reducesTo_S128x10_S128_d1 h_S_))))

end Cert.ReferenceIdeal.RefValue

end
-- ==== Proof.Ref.Layer.lean ====
import proofs.«403111_j50835232915932_1_alg».proof.Proof.Gen.ReferenceIdeal
import proofs.«403111_j50835232915932_1_alg».proof.Proof.Spec
import proofs.«403111_j50835232915932_1_alg».proof.Proof.RefDefs
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

theorem dot_apply {M K N : Nat} (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (i : Fin M) (j : Fin N) :
    Host.dotGeneral (F := Ideal) (φ₁ := .f32) (φ₂ := .f32)
        (⟨[1], [0], [0], [1], [], [], wf⟩ : DotDims ⟨2, ![M, K]⟩ ⟨2, ![K, N]⟩ ⟨2, ![M, N]⟩) none l r (ix2 i j)
      = ∑ k : Fin K, l (ix2 i k) * r (ix2 k j) := by
  simp only [Host.dotGeneral]
  rw [Ideal.dotGeneral_apply]
  have hr : (⟨[1], [0], [0], [1], [], [], wf⟩ : DotDims ⟨2, ![M, K]⟩ ⟨2, ![K, N]⟩ ⟨2, ![M, N]⟩).contr.rank = 1 := rfl
  have hs : (⟨[1], [0], [0], [1], [], [], wf⟩ : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  have hk := contrEquiv1_symm_val _ K hr hs k
  have el : (⟨[1], [0], [0], [1], [], [], wf⟩ : DotDims ⟨2, ![M, K]⟩ ⟨2, ![K, N]⟩ ⟨2, ![M, N]⟩).lhsIdx (ix2 i j)
      ((contrEquiv1 _ K hr hs).symm k) = ix2 i k := funext fun a => Fin.ext (by
    match a with
    | ⟨0, _⟩ => rfl
    | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 i j)
      ((contrEquiv1 _ K hr hs).symm k) = ix2 k j := funext fun a => Fin.ext (by
    match a with
    | ⟨0, _⟩ => exact (DotDims.rhsIdx_val_of_single _ rfl _ _).trans hk
    | ⟨1, _⟩ => rfl)
  rw [el, er]

theorem dotN_apply (l : FVec Ideal S100000x128 .f32) (r : FVec Ideal S128x128 .f32) (i : Fin 100000) (j : Fin 128) :
    Host.dotGeneral (F := Ideal) (φ₁ := .f32) (φ₂ := .f32) dot_S100000x128_S128x128_S100000x128_1_0_0_1_n_n none l r (ix2 i j)
      = ∑ k : Fin 128, l (ix2 i k) * r (ix2 k j) :=
  dot_apply dot_S100000x128_S128x128_S100000x128_1_0_0_1_n_n_wf l r i j

abbrev rowB (v : FVec Ideal S128 .f32) : FVec Ideal S100000x128 .f32 :=
  broadcastInDim S100000x128 ![0, 1] bcast_S1x128_S100000x128_0_1 (broadcastInDim S1x128 ![1] bcast_S128_S1x128_1 v)

theorem rowB_apply (v : FVec Ideal S128 .f32) (r : Fin 100000) (j : Fin 128) : rowB v (ix2 r j) = v (ix1 j) := by
  unfold rowB
  rw [broadcastInDim_apply _ bcast_S1x128_S100000x128_0_1 _ (ix2 r j) (ix2 (0 : Fin 1) j) (fun a => match a with
      | ⟨0, _⟩ => by show 0 = if (1 : Nat) = 1 then 0 else r.val; rw [if_pos rfl]
      | ⟨1, _⟩ => by show j.val = if (128 : Nat) = 1 then 0 else j.val; rw [if_neg (by decide)]),
    broadcastInDim_apply _ bcast_S128_S1x128_1 v (ix2 (0 : Fin 1) j) (ix1 j) (fun a => match a with
      | ⟨0, _⟩ => by show j.val = if (128 : Nat) = 1 then 0 else j.val; rw [if_neg (by decide)])]

def convR (h a : FVec Ideal S100000x128 .f32) (W : FVec Ideal S128x128 .f32) (b γ β μ v : FVec Ideal S128 .f32) :
    FVec Ideal S100000x128 .f32 :=
  maximumf (F := Ideal) (φ := .f32)
    (addf (mulf (mulf (subf (addf
      (Host.dotGeneral dot_S100000x128_S128x128_S100000x128_1_0_0_1_n_n none (addf (F := Ideal) (φ := .f32) h a) W)
      (rowB b)) (rowB μ))
      (rowB (Host.rsqrt (addf (F := Ideal) (φ := .f32) v (broadcastInDim S128 ![] bcast_S_S128 (constant S_ .f32 0x3727C5AC#32))))))
      (rowB γ)) (rowB β))
    (broadcastInDim S100000x128 ![] bcast_S_S100000x128 (constant S_ .f32 0x00000000#32))

theorem convR_apply (h a : FVec Ideal S100000x128 .f32) (W : FVec Ideal S128x128 .f32) (b γ β μ v : FVec Ideal S128 .f32)
    (r : Fin 100000) (j : Fin 128) :
    convR h a W b γ β μ v (ix2 r j) = Cert.Spec.convAt h a W b γ β μ v r j := by
  unfold convR Cert.Spec.convAt
  simp only [maximumf_apply, addf_apply, mulf_apply, subf_apply, rowB_apply, dotN_apply]
  have z : broadcastInDim S100000x128 ![] bcast_S_S100000x128 (constant (F := Ideal) S_ .f32 0x00000000#32) (ix2 r j) = 0 :=
    (broadcastInDim_apply _ bcast_S_S100000x128 _ (ix2 r j) ix0 (fun a => a.elim0)).trans Ideal.ofBits_zero_f32
  have e : Host.rsqrt (addf (F := Ideal) (φ := .f32) v (broadcastInDim S128 ![] bcast_S_S128 (constant S_ .f32 0x3727C5AC#32))) (ix1 j)
      = Ideal.rsqrt (v (ix1 j) + Cert.Spec.eps) := by
    show Ideal.rsqrt (v (ix1 j) + broadcastInDim S128 ![] bcast_S_S128 (constant (F := Ideal) S_ .f32 0x3727C5AC#32) (ix1 j)) = _
    rw [broadcastInDim_apply _ bcast_S_S128 _ (ix1 j) ix0 (fun a => a.elim0)]
    rfl
  rw [z, e]

theorem convR_eq (h a : FVec Ideal S100000x128 .f32) (W : FVec Ideal S128x128 .f32) (b γ β μ v : FVec Ideal S128 .f32) :
    convR h a W b γ β μ v = Cert.Spec.conv h a W b γ β μ v := by
  funext i
  rw [eq_ix2 i]
  exact convR_apply h a W b γ β μ v (i 0) (i 1)

theorem sliceW_eq (i : Fin 4) (hs : S4x128x128.Slices ![i.val, 0, 0] S1x128x128) (W : FVec Ideal S4x128x128 .f32) :
    shapeCast S128x128 (extractStridedSlice S1x128x128 ![i.val, 0, 0] W hs) shapeCasts_S1x128x128_S128x128
      = fun kj => W (ix3 i (kj 0) (kj 1)) := by
  funext kj
  rw [shapeCast_apply _ shapeCasts_S1x128x128_S128x128 kj (ix3 (0 : Fin 1) (kj 0) (kj 1))
      (by rewrite [Shape.rowMajor_val_three, Shape.rowMajor_val_two]
          show (0 * 128 + (kj 0).val) * 128 + (kj 1).val = (kj 0).val * 128 + (kj 1).val
          omega),
    extractStridedSlice_apply ![i.val, 0, 0] W hs _ (ix3 i (kj 0) (kj 1)) (fun a => match a with
      | ⟨0, _⟩ => by show i.val = i.val + 0; omega
      | ⟨1, _⟩ => by show (kj 0).val = 0 + (kj 0).val; omega
      | ⟨2, _⟩ => by show (kj 1).val = 0 + (kj 1).val; omega)]

theorem sliceV_eq (i : Fin 4) (hs : S4x128.Slices ![i.val, 0] S1x128) (V : FVec Ideal S4x128 .f32) :
    shapeCast S128 (extractStridedSlice S1x128 ![i.val, 0] V hs) shapeCasts_S1x128_S128 = fun j => V (ix2 i (j 0)) := by
  funext j
  rw [shapeCast_apply _ shapeCasts_S1x128_S128 j (ix2 (0 : Fin 1) (j 0))
      (by rewrite [Shape.rowMajor_val_two, Shape.rowMajor_val_one]
          show 0 * 128 + (j 0).val = (j 0).val
          omega),
    extractStridedSlice_apply ![i.val, 0] V hs _ (ix2 i (j 0)) (fun a => match a with
      | ⟨0, _⟩ => by show i.val = i.val + 0; omega
      | ⟨1, _⟩ => by show (j 0).val = 0 + (j 0).val; omega)]

theorem sliceE_eq (i : Fin 2) (hs : S2x1600000.Slices ![i.val, 0] S1x1600000) (E : IVec S2x1600000 32) :
    shapeCast S1600000 (extractStridedSlice S1x1600000 ![i.val, 0] E hs) shapeCasts_S1x1600000_S1600000
      = Cert.Spec.edgeRow E i := by
  funext k
  unfold Cert.Spec.edgeRow
  rw [shapeCast_apply _ shapeCasts_S1x1600000_S1600000 k (ix2 (0 : Fin 1) (k 0))
      (by rewrite [Shape.rowMajor_val_two, Shape.rowMajor_val_one]
          show 0 * 1600000 + (k 0).val = (k 0).val
          omega),
    extractStridedSlice_apply ![i.val, 0] E hs _ (ix2 i (k 0)) (fun a => match a with
      | ⟨0, _⟩ => by show i.val = i.val + 0; omega
      | ⟨1, _⟩ => by show (k 0).val = 0 + (k 0).val; omega)]

theorem layerR_eq (I : Cert.Spec.Inputs) (i : Fin 4) (hW : S4x128x128.Slices ![i.val, 0, 0] S1x128x128)
    (hV : S4x128.Slices ![i.val, 0] S1x128) (hS : S2x1600000.Slices ![(0 : Fin 2).val, 0] S1x1600000)
    (hD : S2x1600000.Slices ![(1 : Fin 2).val, 0] S1x1600000) (h : FVec Ideal S100000x128 .f32) (e : IVec S2x1600000 32) :
    convR h
        (aggR h (shapeCast S1600000 (extractStridedSlice S1x1600000 ![(0 : Fin 2).val, 0] e hS) shapeCasts_S1x1600000_S1600000)
          (shapeCast S1600000 (extractStridedSlice S1x1600000 ![(1 : Fin 2).val, 0] e hD) shapeCasts_S1x1600000_S1600000))
        (shapeCast S128x128 (extractStridedSlice S1x128x128 ![i.val, 0, 0] I.convW hW) shapeCasts_S1x128x128_S128x128)
        (shapeCast S128 (extractStridedSlice S1x128 ![i.val, 0] I.convB hV) shapeCasts_S1x128_S128)
        (shapeCast S128 (extractStridedSlice S1x128 ![i.val, 0] I.gamma hV) shapeCasts_S1x128_S128)
        (shapeCast S128 (extractStridedSlice S1x128 ![i.val, 0] I.beta hV) shapeCasts_S1x128_S128)
        (shapeCast S128 (extractStridedSlice S1x128 ![i.val, 0] I.mean hV) shapeCasts_S1x128_S128)
        (shapeCast S128 (extractStridedSlice S1x128 ![i.val, 0] I.var hV) shapeCasts_S1x128_S128)
      = Cert.Spec.layer aggR I i h e := by
  rw [sliceW_eq i hW I.convW, sliceV_eq i hV I.convB, sliceV_eq i hV I.gamma, sliceV_eq i hV I.beta, sliceV_eq i hV I.mean,
    sliceV_eq i hV I.var, sliceE_eq 0 hS e, sliceE_eq 1 hD e, convR_eq]
  rfl

end Cert.ReferenceIdeal.RefValue

end
-- ==== Proof.Ref.Head.lean ====
import proofs.«403111_j50835232915932_1_alg».proof.Proof.Ref.Pool
import proofs.«403111_j50835232915932_1_alg».proof.Proof.Ref.Layer

noncomputable section

namespace Cert.ReferenceIdeal.RefValue

open Cert.ReferenceIdeal Cert.ReferenceIdeal.Gen Idealize.ShloMosaic Idealize.ShloMosaic.ValueIdx

theorem dotH_apply (l : FVec Ideal S128x512 .f32) (r : FVec Ideal S512x256 .f32) (g : Fin 128) (u : Fin 256) :
    Host.dotGeneral (F := Ideal) dot_S128x512_S512x256_S128x256_1_0_0_1_n_n none l r (ix2 g u)
      = ∑ k : Fin 512, l (ix2 g k) * r (ix2 k u) :=
  dot_apply dot_S128x512_S512x256_S128x256_1_0_0_1_n_n_wf l r g u

theorem dotO_apply (l : FVec Ideal S128x256 .f32) (r : FVec Ideal S256x10 .f32) (g : Fin 128) (o : Fin 10) :
    Host.dotGeneral (F := Ideal) dot_S128x256_S256x10_S128x10_1_0_0_1_n_n none l r (ix2 g o)
      = ∑ k : Fin 256, l (ix2 g k) * r (ix2 k o) :=
  dot_apply dot_S128x256_S256x10_S128x10_1_0_0_1_n_n_wf l r g o

def hiddenR (p : FVec Ideal S128x512 .f32) (W1 : FVec Ideal S512x256 .f32) (b1 : FVec Ideal S256 .f32) : FVec Ideal S128x256 .f32 :=
  maximumf (F := Ideal) (φ := .f32)
    (addf (Host.dotGeneral dot_S128x512_S512x256_S128x256_1_0_0_1_n_n none p W1)
      (broadcastInDim S128x256 ![0, 1] bcast_S1x256_S128x256_0_1 (broadcastInDim S1x256 ![1] bcast_S256_S1x256_1 b1)))
    (broadcastInDim S128x256 ![] bcast_S_S128x256 (constant S_ .f32 0x00000000#32))

theorem hiddenR_apply (p : FVec Ideal S128x512 .f32) (W1 : FVec Ideal S512x256 .f32) (b1 : FVec Ideal S256 .f32)
    (g : Fin 128) (u : Fin 256) : hiddenR p W1 b1 (ix2 g u) = Cert.Spec.hiddenAt p W1 b1 g u := by
  unfold hiddenR Cert.Spec.hiddenAt
  simp only [maximumf_apply, addf_apply, dotH_apply]
  have z : broadcastInDim S128x256 ![] bcast_S_S128x256 (constant (F := Ideal) S_ .f32 0x00000000#32) (ix2 g u) = 0 :=
    (broadcastInDim_apply _ bcast_S_S128x256 _ (ix2 g u) ix0 (fun a => a.elim0)).trans Ideal.ofBits_zero_f32
  have e : broadcastInDim S128x256 ![0, 1] bcast_S1x256_S128x256_0_1 (broadcastInDim S1x256 ![1] bcast_S256_S1x256_1 b1) (ix2 g u)
      = b1 (ix1 u) := by
    rw [broadcastInDim_apply _ bcast_S1x256_S128x256_0_1 _ (ix2 g u) (ix2 (0 : Fin 1) u) (fun a => match a with
        | ⟨0, _⟩ => by show 0 = if (1 : Nat) = 1 then 0 else g.val; rw [if_pos rfl]
        | ⟨1, _⟩ => by show u.val = if (256 : Nat) = 1 then 0 else u.val; rw [if_neg (by decide)]),
      broadcastInDim_apply _ bcast_S256_S1x256_1 b1 (ix2 (0 : Fin 1) u) (ix1 u) (fun a => match a with
        | ⟨0, _⟩ => by show u.val = if (256 : Nat) = 1 then 0 else u.val; rw [if_neg (by decide)])]
  rw [z, e]

def logitsR (z : FVec Ideal S128x256 .f32) (W2 : FVec Ideal S256x10 .f32) (b2 : FVec Ideal S10 .f32) : FVec Ideal S128x10 .f32 :=
  addf (F := Ideal) (φ := .f32) (Host.dotGeneral dot_S128x256_S256x10_S128x10_1_0_0_1_n_n none z W2)
    (broadcastInDim S128x10 ![0, 1] bcast_S1x10_S128x10_0_1 (broadcastInDim S1x10 ![1] bcast_S10_S1x10_1 b2))

theorem logitsR_apply (z : FVec Ideal S128x256 .f32) (W2 : FVec Ideal S256x10 .f32) (b2 : FVec Ideal S10 .f32)
    (g : Fin 128) (o : Fin 10) : logitsR z W2 b2 (ix2 g o) = Cert.Spec.logitsAt z W2 b2 g o := by
  unfold logitsR Cert.Spec.logitsAt
  simp only [addf_apply, dotO_apply]
  have e : broadcastInDim S128x10 ![0, 1] bcast_S1x10_S128x10_0_1 (broadcastInDim S1x10 ![1] bcast_S10_S1x10_1 b2) (ix2 g o)
      = b2 (ix1 o) := by
    rw [broadcastInDim_apply _ bcast_S1x10_S128x10_0_1 _ (ix2 g o) (ix2 (0 : Fin 1) o) (fun a => match a with
        | ⟨0, _⟩ => by show 0 = if (1 : Nat) = 1 then 0 else g.val; rw [if_pos rfl]
        | ⟨1, _⟩ => by show o.val = if (10 : Nat) = 1 then 0 else o.val; rw [if_neg (by decide)]),
      broadcastInDim_apply _ bcast_S10_S1x10_1 b2 (ix2 (0 : Fin 1) o) (ix1 o) (fun a => match a with
        | ⟨0, _⟩ => by show o.val = if (10 : Nat) = 1 then 0 else o.val; rw [if_neg (by decide)])]
  rw [e]

theorem cat_apply (p : Fin 4 → FVec Ideal S128x128 .f32) (g : Fin 128) (f : Fin 512) :
    concatenate S128x512 1 [⟨S128x128, p 0⟩, ⟨S128x128, p 1⟩, ⟨S128x128, p 2⟩, ⟨S128x128, p 3⟩]
        concatenates_S128x128_S128x128_S128x128_S128x128_S128x512_d1 (ix2 g f)
      = p ⟨f.val / 128, by omega⟩ (ix2 g ⟨f.val % 128, Nat.mod_lt _ (by decide)⟩) := by
  have hf := f.isLt
  exact concatenate_ofFn_apply (t := S128x512) (s₁ := S128x128) 1 p
    concatenates_S128x128_S128x128_S128x128_S128x128_S128x512_d1 rfl 128 rfl (ix2 g f) ⟨f.val / 128, by omega⟩ rfl
    (ix2 g ⟨f.val % 128, Nat.mod_lt _ (by decide)⟩) rfl (fun b hb => by
      match b with
      | ⟨0, _⟩ => rfl
      | ⟨1, _⟩ => exact absurd rfl hb)

abbrev poolR (batch : IVec S100000 32) (h : FVec Ideal S100000x128 .f32) : FVec Ideal S128x128 .f32 :=
  Host.scatterAdd (F := Ideal) (φ := .f32) scatter_S128x128_S100000x1_S100000x128_1_0_0_1
    (broadcastInDim S128x128 ![] bcast_S_S128x128 (constant S_ .f32 0x00000000#32))
    (broadcastInDim S100000x1 ![0] bcast_S100000_S100000x1_0 batch) h

theorem head_eq (I : Cert.Spec.Inputs) (hs : Fin 4 → FVec Ideal S100000x128 .f32) :
    logitsR (hiddenR (concatenate S128x512 1 [⟨S128x128, poolR I.batch (hs 0)⟩, ⟨S128x128, poolR I.batch (hs 1)⟩,
        ⟨S128x128, poolR I.batch (hs 2)⟩, ⟨S128x128, poolR I.batch (hs 3)⟩]
        concatenates_S128x128_S128x128_S128x128_S128x128_S128x512_d1) I.lin1W I.lin1b) I.lin2W I.lin2b
      = fun i => Cert.Spec.logitsAt (fun u => Cert.Spec.hiddenAt (fun f => Cert.Spec.pooledAt I.batch hs (f 0) (f 1))
          I.lin1W I.lin1b (u 0) (u 1)) I.lin2W I.lin2b (i 0) (i 1) := by
  funext i
  obtain ⟨g, o, rfl⟩ : ∃ g o, i = ix2 g o := ⟨i 0, i 1, eq_ix2 i⟩
  rw [logitsR_apply]
  refine congrArg (fun z => Cert.Spec.logitsAt z I.lin2W I.lin2b g o) ?_
  funext u
  obtain ⟨g', u', rfl⟩ : ∃ g' u', u = ix2 g' u' := ⟨u 0, u 1, eq_ix2 u⟩
  rw [hiddenR_apply]
  refine congrArg (fun p => Cert.Spec.hiddenAt p I.lin1W I.lin1b g' u') ?_
  funext f
  obtain ⟨g'', f', rfl⟩ : ∃ g'' f', f = ix2 g'' f' := ⟨f 0, f 1, eq_ix2 f⟩
  rw [cat_apply (fun k => poolR I.batch (hs k))]
  exact pool_apply I.batch (hs ⟨f'.val / 128, _⟩) g'' ⟨f'.val % 128, _⟩

end Cert.ReferenceIdeal.RefValue

end
-- ==== Proof.Ref.Value.lean ====
import proofs.«403111_j50835232915932_1_alg».proof.Proof.RefRead
import proofs.«403111_j50835232915932_1_alg».proof.Proof.Ref.Head

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem

section Stages

variable (x0 : FVec Ideal S100000x128 .f32) (x1 x2 : IVec S2x1600000 32) (x3 : IVec S100000 32)
    (x4 : FVec Ideal S4x128x128 .f32) (x5 x6 x7 x8 x9 : FVec Ideal S4x128 .f32) (x10 : FVec Ideal S512x256 .f32)
    (x11 : FVec Ideal S256 .f32) (x12 : FVec Ideal S256x10 .f32) (x13 : FVec Ideal S10 .f32)

theorem v50_eq : val_main_v50 (F := Ideal) x0 x1 x4 x5 x6 x7 x8 x9 = Cert.Spec.h1x aggR (inputsOf x0 x1 x2 x3 x4 x5 x6 x7 x8 x9 x10 x11 x12 x13) :=
  layerR_eq (inputsOf x0 x1 x2 x3 x4 x5 x6 x7 x8 x9 x10 x11 x12 x13) 0 slices_S4x128x128_S1x128x128_0_0_0 slices_S4x128_S1x128_0_0
    slices_S2x1600000_S1x1600000_0_0 slices_S2x1600000_S1x1600000_1_0 x0 x1

theorem v93_eq : val_main_v93 (F := Ideal) x0 x1 x4 x5 x6 x7 x8 x9 = Cert.Spec.h2x aggR (inputsOf x0 x1 x2 x3 x4 x5 x6 x7 x8 x9 x10 x11 x12 x13) :=
  (layerR_eq (inputsOf x0 x1 x2 x3 x4 x5 x6 x7 x8 x9 x10 x11 x12 x13) 1 slices_S4x128x128_S1x128x128_1_0_0 slices_S4x128_S1x128_1_0
    slices_S2x1600000_S1x1600000_0_0 slices_S2x1600000_S1x1600000_1_0
    (val_main_v50 (F := Ideal) x0 x1 x4 x5 x6 x7 x8 x9) x1).trans
    (congrArg (fun h => Cert.Spec.layer aggR (inputsOf x0 x1 x2 x3 x4 x5 x6 x7 x8 x9 x10 x11 x12 x13) 1 h x1) (v50_eq x0 x1 x2 x3 x4 x5 x6 x7 x8 x9 x10 x11 x12 x13))

theorem v136_eq : val_main_v136 (F := Ideal) x0 x2 x4 x5 x6 x7 x8 x9 = Cert.Spec.h1y aggR (inputsOf x0 x1 x2 x3 x4 x5 x6 x7 x8 x9 x10 x11 x12 x13) :=
  layerR_eq (inputsOf x0 x1 x2 x3 x4 x5 x6 x7 x8 x9 x10 x11 x12 x13) 2 slices_S4x128x128_S1x128x128_2_0_0 slices_S4x128_S1x128_2_0
    slices_S2x1600000_S1x1600000_0_0 slices_S2x1600000_S1x1600000_1_0 x0 x2

theorem v179_eq : val_main_v179 (F := Ideal) x0 x2 x4 x5 x6 x7 x8 x9 = Cert.Spec.h2y aggR (inputsOf x0 x1 x2 x3 x4 x5 x6 x7 x8 x9 x10 x11 x12 x13) :=
  (layerR_eq (inputsOf x0 x1 x2 x3 x4 x5 x6 x7 x8 x9 x10 x11 x12 x13) 3 slices_S4x128x128_S1x128x128_3_0_0 slices_S4x128_S1x128_3_0
    slices_S2x1600000_S1x1600000_0_0 slices_S2x1600000_S1x1600000_1_0
    (val_main_v136 (F := Ideal) x0 x2 x4 x5 x6 x7 x8 x9) x2).trans
    (congrArg (fun h => Cert.Spec.layer aggR (inputsOf x0 x1 x2 x3 x4 x5 x6 x7 x8 x9 x10 x11 x12 x13) 3 h x2) (v136_eq x0 x1 x2 x3 x4 x5 x6 x7 x8 x9 x10 x11 x12 x13))

set_option maxRecDepth 4096 in

theorem v201_eq : val_main_v201 (F := Ideal) x0 x1 x2 x3 x4 x5 x6 x7 x8 x9 x10 x11 x12 x13 = Cert.Spec.logits aggR (inputsOf x0 x1 x2 x3 x4 x5 x6 x7 x8 x9 x10 x11 x12 x13) := by
  have hs : (![val_main_v50 (F := Ideal) x0 x1 x4 x5 x6 x7 x8 x9, val_main_v93 (F := Ideal) x0 x1 x4 x5 x6 x7 x8 x9,
      val_main_v136 (F := Ideal) x0 x2 x4 x5 x6 x7 x8 x9, val_main_v179 (F := Ideal) x0 x2 x4 x5 x6 x7 x8 x9]
        : Fin 4 → FVec Ideal S100000x128 .f32) = Cert.Spec.feats aggR (inputsOf x0 x1 x2 x3 x4 x5 x6 x7 x8 x9 x10 x11 x12 x13) := by
    rw [v50_eq x0 x1 x2 x3 x4 x5 x6 x7 x8 x9 x10 x11 x12 x13, v93_eq x0 x1 x2 x3 x4 x5 x6 x7 x8 x9 x10 x11 x12 x13, v136_eq x0 x1 x2 x3 x4 x5 x6 x7 x8 x9 x10 x11 x12 x13, v179_eq x0 x1 x2 x3 x4 x5 x6 x7 x8 x9 x10 x11 x12 x13]
    rfl
  have e := head_eq (inputsOf x0 x1 x2 x3 x4 x5 x6 x7 x8 x9 x10 x11 x12 x13) (![val_main_v50 (F := Ideal) x0 x1 x4 x5 x6 x7 x8 x9, val_main_v93 (F := Ideal) x0 x1 x4 x5 x6 x7 x8 x9,
      val_main_v136 (F := Ideal) x0 x2 x4 x5 x6 x7 x8 x9, val_main_v179 (F := Ideal) x0 x2 x4 x5 x6 x7 x8 x9]
        : Fin 4 → FVec Ideal S100000x128 .f32)
  exact e.trans (by rw [hs]; rfl)

theorem v202_eq : val_main_v202 (F := Ideal) x0 x1 x2 x3 x4 x5 x6 x7 x8 x9 x10 x11 x12 x13 = lsmR (val_main_v201 (F := Ideal) x0 x1 x2 x3 x4 x5 x6 x7 x8 x9 x10 x11 x12 x13) := rfl

end Stages

end Cert.ReferenceIdeal.RefValue

end
-- ==== Proof.Ref.Run0.lean ====
import proofs.«403111_j50835232915932_1_alg».proof.Proof.RefRead
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in

abbrev ops0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    unary main_arg2 main_v4 ((extractStridedSlice S1x1600000 ![0, 0] · slices_S2x1600000_S1x1600000_0_0) : (⟨S2x1600000, .i32⟩ : BufTy).Contents (Elt F) → (⟨S1x1600000, .i32⟩ : BufTy).Contents (Elt F)),
    reshape main_v4 main_v5 rfl shapeCasts_S1x1600000_S1600000,
    unary main_arg2 main_v6 ((extractStridedSlice S1x1600000 ![1, 0] · slices_S2x1600000_S1x1600000_1_0) : (⟨S2x1600000, .i32⟩ : BufTy).Contents (Elt F) → (⟨S1x1600000, .i32⟩ : BufTy).Contents (Elt F)),
    reshape main_v6 main_v7 rfl shapeCasts_S1x1600000_S1600000,
    unary main_arg4 main_v8 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v8 main_v9 rfl shapeCasts_S1x128x128_S128x128,
    unary main_arg5 main_v10 ((extractStridedSlice S1x128 ![0, 0] · slices_S4x128_S1x128_0_0) : (⟨S4x128, .f32⟩ : BufTy).Contents (Elt F) → (⟨S1x128, .f32⟩ : BufTy).Contents (Elt F)),
    reshape main_v10 main_v11 rfl shapeCasts_S1x128_S128,
    unary main_arg6 main_v12 ((extractStridedSlice S1x128 ![0, 0] · slices_S4x128_S1x128_0_0) : (⟨S4x128, .f32⟩ : BufTy).Contents (Elt F) → (⟨S1x128, .f32⟩ : BufTy).Contents (Elt F)),
    reshape main_v12 main_v13 rfl shapeCasts_S1x128_S128,
    unary main_arg7 main_v14 ((extractStridedSlice S1x128 ![0, 0] · slices_S4x128_S1x128_0_0) : (⟨S4x128, .f32⟩ : BufTy).Contents (Elt F) → (⟨S1x128, .f32⟩ : BufTy).Contents (Elt F)),
    reshape main_v14 main_v15 rfl shapeCasts_S1x128_S128,
    unary main_arg8 main_v16 ((extractStridedSlice S1x128 ![0, 0] · slices_S4x128_S1x128_0_0) : (⟨S4x128, .f32⟩ : BufTy).Contents (Elt F) → (⟨S1x128, .f32⟩ : BufTy).Contents (Elt F)),
    reshape main_v16 main_v17 rfl shapeCasts_S1x128_S128,
    unary main_arg9 main_v18 ((extractStridedSlice S1x128 ![0, 0] · slices_S4x128_S1x128_0_0) : (⟨S4x128, .f32⟩ : BufTy).Contents (Elt F) → (⟨S1x128, .f32⟩ : BufTy).Contents (Elt F)),
    reshape main_v18 main_v19 rfl shapeCasts_S1x128_S128,
    nullary main_c (constantI S_ 32 0#32),
    unary main_c main_v20 (broadcastInDim S1600000 ![] bcast_S_S1600000 : (⟨S_, .i32⟩ : BufTy).Contents (Elt F) → (⟨S1600000, .i32⟩ : BufTy).Contents (Elt F)),
    binary main_v1 main_v20 main_v21 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v22 (broadcastInDim S1600000 ![] bcast_S_S1600000 : (⟨S_, .i32⟩ : BufTy).Contents (Elt F) → (⟨S1600000, .i32⟩ : BufTy).Contents (Elt F)),
    binary main_v1 main_v22 main_v23 (addi : (⟨S1600000, .i32⟩ : BufTy).Contents (Elt F) → (⟨S1600000, .i32⟩ : BufTy).Contents (Elt F) → (⟨S1600000, .i32⟩ : BufTy).Contents (Elt F)),
    ternary main_v21 main_v23 main_v1 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v24 main_v25 (broadcastInDim S1600000x1 ![0] bcast_S1600000_S1600000x1_0 : (⟨S1600000, .i32⟩ : BufTy).Contents (Elt F) → (⟨S1600000x1, .i32⟩ : BufTy).Contents (Elt F)),
    binary main_arg0 main_v25 main_v26 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v27 (broadcastInDim S100000x128 ![] bcast_S_S100000x128 : (⟨S_, .f32⟩ : BufTy).Contents (Elt F) → (⟨S100000x128, .f32⟩ : BufTy).Contents (Elt F)),
    unary main_v3 main_v28 (broadcastInDim S1600000x1 ![0] bcast_S1600000_S1600000x1_0 : (⟨S1600000, .i32⟩ : BufTy).Contents (Elt F) → (⟨S1600000x1, .i32⟩ : BufTy).Contents (Elt F)),
    ternary main_v27 main_v28 main_v26 main_v29 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_arg0 main_v29 main_v30 (addf : (⟨S100000x128, .f32⟩ : BufTy).Contents (Elt F) → (⟨S100000x128, .f32⟩ : BufTy).Contents (Elt F) → (⟨S100000x128, .f32⟩ : BufTy).Contents (Elt F)),
    binary main_v30 main_v9 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v11 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v31 main_v33 main_v34 (addf : (⟨S100000x128, .f32⟩ : BufTy).Contents (Elt F) → (⟨S100000x128, .f32⟩ : BufTy).Contents (Elt F) → (⟨S100000x128, .f32⟩ : BufTy).Contents (Elt F)),
    unary main_v17 main_v35 (broadcastInDim S1x128 ![1] bcast_S128_S1x128_1 : (⟨S128, .f32⟩ : BufTy).Contents (Elt F) → (⟨S1x128, .f32⟩ : BufTy).Contents (Elt F)),
    unary main_v35 main_v36 (broadcastInDim S100000x128 ![0, 1] bcast_S1x128_S100000x128_0_1 : (⟨S1x128, .f32⟩ : BufTy).Contents (Elt F) → (⟨S100000x128, .f32⟩ : BufTy).Contents (Elt F)),
    binary main_v34 main_v36 main_v37 (subf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x3727C5AC#32),
    unary main_cst_1 main_v38 (broadcastInDim S128 ![] bcast_S_S128 : (⟨S_, .f32⟩ : BufTy).Contents (Elt F) → (⟨S128, .f32⟩ : BufTy).Contents (Elt F)),
    binary main_v19 main_v38 main_v39 (addf : (⟨S128, .f32⟩ : BufTy).Contents (Elt F) → (⟨S128, .f32⟩ : BufTy).Contents (Elt F) → (⟨S128, .f32⟩ : BufTy).Contents (Elt F)),
    unary main_v39 main_v40 (Host.rsqrt : (⟨S128, .f32⟩ : BufTy).Contents (Elt F) → (⟨S128, .f32⟩ : BufTy).Contents (Elt F)),
    unary main_v40 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v37 main_v42 main_v43 (mulf : (⟨S100000x128, .f32⟩ : BufTy).Contents (Elt F) → (⟨S100000x128, .f32⟩ : BufTy).Contents (Elt F) → (⟨S100000x128, .f32⟩ : BufTy).Contents (Elt F)),
    unary main_v13 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (mulf : (⟨S100000x128, .f32⟩ : BufTy).Contents (Elt F) → (⟨S100000x128, .f32⟩ : BufTy).Contents (Elt F) → (⟨S100000x128, .f32⟩ : BufTy).Contents (Elt F)),
    unary main_v15 main_v47 (broadcastInDim S1x128 ![1] bcast_S128_S1x128_1 : (⟨S128, .f32⟩ : BufTy).Contents (Elt F) → (⟨S1x128, .f32⟩ : BufTy).Contents (Elt F)),
    unary main_v47 main_v48 (broadcastInDim S100000x128 ![0, 1] bcast_S1x128_S100000x128_0_1 : (⟨S1x128, .f32⟩ : BufTy).Contents (Elt F) → (⟨S100000x128, .f32⟩ : BufTy).Contents (Elt F)),
    binary main_v46 main_v48 main_v49 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v49) (TRef.of (T := ⟨S100000x128, .f32⟩) main_call0_v0) (TRef.of (T := ⟨S100000x128, .f32⟩) main_v50) maximumf,
    unary main_arg4 main_v51 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v51 main_v52 rfl shapeCasts_S1x128x128_S128x128,
    unary main_arg5 main_v53 ((extractStridedSlice S1x128 ![1, 0] · slices_S4x128_S1x128_1_0) : (⟨S4x128, .f32⟩ : BufTy).Contents (Elt F) → (⟨S1x128, .f32⟩ : BufTy).Contents (Elt F)),
    reshape main_v53 main_v54 rfl shapeCasts_S1x128_S128,
    unary main_arg6 main_v55 ((extractStridedSlice S1x128 ![1, 0] · slices_S4x128_S1x128_1_0) : (⟨S4x128, .f32⟩ : BufTy).Contents (Elt F) → (⟨S1x128, .f32⟩ : BufTy).Contents (Elt F)) ]

theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 16000000 in

theorem stage0 (W : Valuation τ sig (Elt F)) (x0 : (⟨S100000x128, .f32⟩ : BufTy).Contents (Elt F)) (x1 : (⟨S2x1600000, .i32⟩ : BufTy).Contents (Elt F)) (x2 : (⟨S2x1600000, .i32⟩ : BufTy).Contents (Elt F)) (x3 : (⟨S100000, .i32⟩ : BufTy).Contents (Elt F)) (x4 : (⟨S4x128x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S4x128, .f32⟩ : BufTy).Contents (Elt F)) (x9 : (⟨S4x128, .f32⟩ : BufTy).Contents (Elt F)) (x10 : (⟨S512x256, .f32⟩ : BufTy).Contents (Elt F)) (x11 : (⟨S256, .f32⟩ : BufTy).Contents (Elt F)) (x12 : (⟨S256x10, .f32⟩ : BufTy).Contents (Elt F)) (x13 : (⟨S10, .f32⟩ : BufTy).Contents (Elt F))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8) (a9 : W (Proc.devRef .tc main_arg9) = x9) (a10 : W (Proc.devRef .tc main_arg10) = x10) (a11 : W (Proc.devRef .tc main_arg11) = x11) (a12 : W (Proc.devRef .tc main_arg12) = x12) (a13 : W (Proc.devRef .tc main_arg13) = x13) :
    (after ops0 W (Proc.devRef .tc main_arg0) = x0
      ∧ after ops0 W (Proc.devRef .tc main_arg1) = x1
      ∧ after ops0 W (Proc.devRef .tc main_arg2) = x2
      ∧ after ops0 W (Proc.devRef .tc main_arg3) = x3
      ∧ after ops0 W (Proc.devRef .tc main_arg4) = x4
      ∧ after ops0 W (Proc.devRef .tc main_arg5) = x5
      ∧ after ops0 W (Proc.devRef .tc main_arg6) = x6
      ∧ after ops0 W (Proc.devRef .tc main_arg7) = x7
      ∧ after ops0 W (Proc.devRef .tc main_arg8) = x8
      ∧ after ops0 W (Proc.devRef .tc main_arg9) = x9
      ∧ after ops0 W (Proc.devRef .tc main_arg10) = x10
      ∧ after ops0 W (Proc.devRef .tc main_arg11) = x11
      ∧ after ops0 W (Proc.devRef .tc main_arg12) = x12
      ∧ after ops0 W (Proc.devRef .tc main_arg13) = x13)
    ∧ (after ops0 W (Proc.devRef .tc main_v1) = Read.val_main_v1 (F := F) x1
      ∧ after ops0 W (Proc.devRef .tc main_v3) = Read.val_main_v3 (F := F) x1
      ∧ after ops0 W (Proc.devRef .tc main_v5) = Read.val_main_v5 (F := F) x2
      ∧ after ops0 W (Proc.devRef .tc main_v7) = Read.val_main_v7 (F := F) x2
      ∧ after ops0 W (Proc.devRef .tc main_v50) = Read.val_main_v50 (F := F) x0 x1 x4 x5 x6 x7 x8 x9
      ∧ after ops0 W (Proc.devRef .tc main_v52) = Read.val_main_v52 (F := F) x4
      ∧ after ops0 W (Proc.devRef .tc main_v54) = Read.val_main_v54 (F := F) x5
      ∧ after ops0 W (Proc.devRef .tc main_v55) = Read.val_main_v55 (F := F) x6) := by
  refine ⟨⟨?_, ?_, ?_, ?_, ?_, ?_, ?_, ?_, ?_, ?_, ?_, ?_, ?_, ?_⟩, ?_⟩
  iterate 14 (after_results_simp; assumption)
  simp (disch := decide) only [after_cons, after_nil, nullary_result', unary_result', binary_result', ternary_result', quaternary_result', reshape_result', nary4_result', unaryIndexed_result', binaryIndexed_result', nullary_result_ne', unary_result_ne', binary_result_ne', ternary_result_ne', quaternary_result_ne', reshape_result_ne', nary_result_ne', unaryIndexed_result_ne', binaryIndexed_result_ne',
    a0, a1, a2, a3, a4, a5, a6, a7, a8, a9, a10, a11, a12, a13]
  refine ⟨?_, ?_, ?_, ?_, ?_, ?_, ?_, ?_⟩ <;> (try simp only [TRef.ofBuf, TRef.toBuf, cast_eq]) <;> rfl

end Cert.ReferenceIdeal.RefRun

end
-- ==== Proof.Ref.Run1.lean ====
import proofs.«403111_j50835232915932_1_alg».proof.Proof.RefRead
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in

abbrev ops1 : List (HloOp τ sig (Elt F)) :=
  [ reshape main_v55 main_v56 rfl shapeCasts_S1x128_S128,
    unary main_arg7 main_v57 ((extractStridedSlice S1x128 ![1, 0] · slices_S4x128_S1x128_1_0) : (⟨S4x128, .f32⟩ : BufTy).Contents (Elt F) → (⟨S1x128, .f32⟩ : BufTy).Contents (Elt F)),
    reshape main_v57 main_v58 rfl shapeCasts_S1x128_S128,
    unary main_arg8 main_v59 ((extractStridedSlice S1x128 ![1, 0] · slices_S4x128_S1x128_1_0) : (⟨S4x128, .f32⟩ : BufTy).Contents (Elt F) → (⟨S1x128, .f32⟩ : BufTy).Contents (Elt F)),
    reshape main_v59 main_v60 rfl shapeCasts_S1x128_S128,
    unary main_arg9 main_v61 ((extractStridedSlice S1x128 ![1, 0] · slices_S4x128_S1x128_1_0) : (⟨S4x128, .f32⟩ : BufTy).Contents (Elt F) → (⟨S1x128, .f32⟩ : BufTy).Contents (Elt F)),
    reshape main_v61 main_v62 rfl shapeCasts_S1x128_S128,
    nullary main_c_2 (constantI S_ 32 0#32),
    unary main_c_2 main_v63 (broadcastInDim S1600000 ![] bcast_S_S1600000 : (⟨S_, .i32⟩ : BufTy).Contents (Elt F) → (⟨S1600000, .i32⟩ : BufTy).Contents (Elt F)),
    binary main_v1 main_v63 main_v64 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v65 (broadcastInDim S1600000 ![] bcast_S_S1600000 : (⟨S_, .i32⟩ : BufTy).Contents (Elt F) → (⟨S1600000, .i32⟩ : BufTy).Contents (Elt F)),
    binary main_v1 main_v65 main_v66 (addi : (⟨S1600000, .i32⟩ : BufTy).Contents (Elt F) → (⟨S1600000, .i32⟩ : BufTy).Contents (Elt F) → (⟨S1600000, .i32⟩ : BufTy).Contents (Elt F)),
    ternary main_v64 main_v66 main_v1 main_v67 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v67 main_v68 (broadcastInDim S1600000x1 ![0] bcast_S1600000_S1600000x1_0 : (⟨S1600000, .i32⟩ : BufTy).Contents (Elt F) → (⟨S1600000x1, .i32⟩ : BufTy).Contents (Elt F)),
    binary main_v50 main_v68 main_v69 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_4 (constant S_ .f32 0x00000000#32),
    unary main_cst_4 main_v70 (broadcastInDim S100000x128 ![] bcast_S_S100000x128 : (⟨S_, .f32⟩ : BufTy).Contents (Elt F) → (⟨S100000x128, .f32⟩ : BufTy).Contents (Elt F)),
    unary main_v3 main_v71 (broadcastInDim S1600000x1 ![0] bcast_S1600000_S1600000x1_0 : (⟨S1600000, .i32⟩ : BufTy).Contents (Elt F) → (⟨S1600000x1, .i32⟩ : BufTy).Contents (Elt F)),
    ternary main_v70 main_v71 main_v69 main_v72 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v50 main_v72 main_v73 (addf : (⟨S100000x128, .f32⟩ : BufTy).Contents (Elt F) → (⟨S100000x128, .f32⟩ : BufTy).Contents (Elt F) → (⟨S100000x128, .f32⟩ : BufTy).Contents (Elt F)),
    binary main_v73 main_v52 main_v74 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v54 main_v75 (broadcastInDim S1x128 ![1] bcast_S128_S1x128_1 : (⟨S128, .f32⟩ : BufTy).Contents (Elt F) → (⟨S1x128, .f32⟩ : BufTy).Contents (Elt F)),
    unary main_v75 main_v76 (broadcastInDim S100000x128 ![0, 1] bcast_S1x128_S100000x128_0_1 : (⟨S1x128, .f32⟩ : BufTy).Contents (Elt F) → (⟨S100000x128, .f32⟩ : BufTy).Contents (Elt F)),
    binary main_v74 main_v76 main_v77 (addf : (⟨S100000x128, .f32⟩ : BufTy).Contents (Elt F) → (⟨S100000x128, .f32⟩ : BufTy).Contents (Elt F) → (⟨S100000x128, .f32⟩ : BufTy).Contents (Elt F)),
    unary main_v60 main_v78 (broadcastInDim S1x128 ![1] bcast_S128_S1x128_1 : (⟨S128, .f32⟩ : BufTy).Contents (Elt F) → (⟨S1x128, .f32⟩ : BufTy).Contents (Elt F)),
    unary main_v78 main_v79 (broadcastInDim S100000x128 ![0, 1] bcast_S1x128_S100000x128_0_1 : (⟨S1x128, .f32⟩ : BufTy).Contents (Elt F) → (⟨S100000x128, .f32⟩ : BufTy).Contents (Elt F)),
    binary main_v77 main_v79 main_v80 (subf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x3727C5AC#32),
    unary main_cst_5 main_v81 (broadcastInDim S128 ![] bcast_S_S128 : (⟨S_, .f32⟩ : BufTy).Contents (Elt F) → (⟨S128, .f32⟩ : BufTy).Contents (Elt F)),
    binary main_v62 main_v81 main_v82 (addf : (⟨S128, .f32⟩ : BufTy).Contents (Elt F) → (⟨S128, .f32⟩ : BufTy).Contents (Elt F) → (⟨S128, .f32⟩ : BufTy).Contents (Elt F)),
    unary main_v82 main_v83 (Host.rsqrt : (⟨S128, .f32⟩ : BufTy).Contents (Elt F) → (⟨S128, .f32⟩ : BufTy).Contents (Elt F)),
    unary main_v83 main_v84 (broadcastInDim S1x128 ![1] bcast_S128_S1x128_1 : (⟨S128, .f32⟩ : BufTy).Contents (Elt F) → (⟨S1x128, .f32⟩ : BufTy).Contents (Elt F)),
    unary main_v84 main_v85 (broadcastInDim S100000x128 ![0, 1] bcast_S1x128_S100000x128_0_1 : (⟨S1x128, .f32⟩ : BufTy).Contents (Elt F) → (⟨S100000x128, .f32⟩ : BufTy).Contents (Elt F)),
    binary main_v80 main_v85 main_v86 (mulf : (⟨S100000x128, .f32⟩ : BufTy).Contents (Elt F) → (⟨S100000x128, .f32⟩ : BufTy).Contents (Elt F) → (⟨S100000x128, .f32⟩ : BufTy).Contents (Elt F)),
    unary main_v56 main_v87 (broadcastInDim S1x128 ![1] bcast_S128_S1x128_1 : (⟨S128, .f32⟩ : BufTy).Contents (Elt F) → (⟨S1x128, .f32⟩ : BufTy).Contents (Elt F)),
    unary main_v87 main_v88 (broadcastInDim S100000x128 ![0, 1] bcast_S1x128_S100000x128_0_1 : (⟨S1x128, .f32⟩ : BufTy).Contents (Elt F) → (⟨S100000x128, .f32⟩ : BufTy).Contents (Elt F)),
    binary main_v86 main_v88 main_v89 (mulf : (⟨S100000x128, .f32⟩ : BufTy).Contents (Elt F) → (⟨S100000x128, .f32⟩ : BufTy).Contents (Elt F) → (⟨S100000x128, .f32⟩ : BufTy).Contents (Elt F)),
    unary main_v58 main_v90 (broadcastInDim S1x128 ![1] bcast_S128_S1x128_1 : (⟨S128, .f32⟩ : BufTy).Contents (Elt F) → (⟨S1x128, .f32⟩ : BufTy).Contents (Elt F)),
    unary main_v90 main_v91 (broadcastInDim S100000x128 ![0, 1] bcast_S1x128_S100000x128_0_1 : (⟨S1x128, .f32⟩ : BufTy).Contents (Elt F) → (⟨S100000x128, .f32⟩ : BufTy).Contents (Elt F)),
    binary main_v89 main_v91 main_v92 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v92) (TRef.of (T := ⟨S100000x128, .f32⟩) main_call1_v0) (TRef.of (T := ⟨S100000x128, .f32⟩) main_v93) maximumf,
    unary main_arg4 main_v94 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v94 main_v95 rfl shapeCasts_S1x128x128_S128x128,
    unary main_arg5 main_v96 ((extractStridedSlice S1x128 ![2, 0] · slices_S4x128_S1x128_2_0) : (⟨S4x128, .f32⟩ : BufTy).Contents (Elt F) → (⟨S1x128, .f32⟩ : BufTy).Contents (Elt F)),
    reshape main_v96 main_v97 rfl shapeCasts_S1x128_S128,
    unary main_arg6 main_v98 ((extractStridedSlice S1x128 ![2, 0] · slices_S4x128_S1x128_2_0) : (⟨S4x128, .f32⟩ : BufTy).Contents (Elt F) → (⟨S1x128, .f32⟩ : BufTy).Contents (Elt F)),
    reshape main_v98 main_v99 rfl shapeCasts_S1x128_S128,
    unary main_arg7 main_v100 ((extractStridedSlice S1x128 ![2, 0] · slices_S4x128_S1x128_2_0) : (⟨S4x128, .f32⟩ : BufTy).Contents (Elt F) → (⟨S1x128, .f32⟩ : BufTy).Contents (Elt F)),
    reshape main_v100 main_v101 rfl shapeCasts_S1x128_S128,
    unary main_arg8 main_v102 ((extractStridedSlice S1x128 ![2, 0] · slices_S4x128_S1x128_2_0) : (⟨S4x128, .f32⟩ : BufTy).Contents (Elt F) → (⟨S1x128, .f32⟩ : BufTy).Contents (Elt F)),
    reshape main_v102 main_v103 rfl shapeCasts_S1x128_S128,
    unary main_arg9 main_v104 ((extractStridedSlice S1x128 ![2, 0] · slices_S4x128_S1x128_2_0) : (⟨S4x128, .f32⟩ : BufTy).Contents (Elt F) → (⟨S1x128, .f32⟩ : BufTy).Contents (Elt F)),
    reshape main_v104 main_v105 rfl shapeCasts_S1x128_S128,
    nullary main_c_6 (constantI S_ 32 0#32),
    unary main_c_6 main_v106 (broadcastInDim S1600000 ![] bcast_S_S1600000 : (⟨S_, .i32⟩ : BufTy).Contents (Elt F) → (⟨S1600000, .i32⟩ : BufTy).Contents (Elt F)),
    binary main_v5 main_v106 main_v107 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v108 (broadcastInDim S1600000 ![] bcast_S_S1600000 : (⟨S_, .i32⟩ : BufTy).Contents (Elt F) → (⟨S1600000, .i32⟩ : BufTy).Contents (Elt F)),
    binary main_v5 main_v108 main_v109 (addi : (⟨S1600000, .i32⟩ : BufTy).Contents (Elt F) → (⟨S1600000, .i32⟩ : BufTy).Contents (Elt F) → (⟨S1600000, .i32⟩ : BufTy).Contents (Elt F)) ]

theorem ops1_sub : (ops1 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 16000000 in

theorem stage1 (W : Valuation τ sig (Elt F)) (x0 : (⟨S100000x128, .f32⟩ : BufTy).Contents (Elt F)) (x1 : (⟨S2x1600000, .i32⟩ : BufTy).Contents (Elt F)) (x2 : (⟨S2x1600000, .i32⟩ : BufTy).Contents (Elt F)) (x3 : (⟨S100000, .i32⟩ : BufTy).Contents (Elt F)) (x4 : (⟨S4x128x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S4x128, .f32⟩ : BufTy).Contents (Elt F)) (x9 : (⟨S4x128, .f32⟩ : BufTy).Contents (Elt F)) (x10 : (⟨S512x256, .f32⟩ : BufTy).Contents (Elt F)) (x11 : (⟨S256, .f32⟩ : BufTy).Contents (Elt F)) (x12 : (⟨S256x10, .f32⟩ : BufTy).Contents (Elt F)) (x13 : (⟨S10, .f32⟩ : BufTy).Contents (Elt F))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8) (a9 : W (Proc.devRef .tc main_arg9) = x9) (a10 : W (Proc.devRef .tc main_arg10) = x10) (a11 : W (Proc.devRef .tc main_arg11) = x11) (a12 : W (Proc.devRef .tc main_arg12) = x12) (a13 : W (Proc.devRef .tc main_arg13) = x13)
    (h_v1 : W (Proc.devRef .tc main_v1) = Read.val_main_v1 (F := F) x1)
    (h_v3 : W (Proc.devRef .tc main_v3) = Read.val_main_v3 (F := F) x1)
    (h_v5 : W (Proc.devRef .tc main_v5) = Read.val_main_v5 (F := F) x2)
    (h_v7 : W (Proc.devRef .tc main_v7) = Read.val_main_v7 (F := F) x2)
    (h_v50 : W (Proc.devRef .tc main_v50) = Read.val_main_v50 (F := F) x0 x1 x4 x5 x6 x7 x8 x9)
    (h_v52 : W (Proc.devRef .tc main_v52) = Read.val_main_v52 (F := F) x4)
    (h_v54 : W (Proc.devRef .tc main_v54) = Read.val_main_v54 (F := F) x5)
    (h_v55 : W (Proc.devRef .tc main_v55) = Read.val_main_v55 (F := F) x6) :
    (after ops1 W (Proc.devRef .tc main_arg0) = x0
      ∧ after ops1 W (Proc.devRef .tc main_arg1) = x1
      ∧ after ops1 W (Proc.devRef .tc main_arg2) = x2
      ∧ after ops1 W (Proc.devRef .tc main_arg3) = x3
      ∧ after ops1 W (Proc.devRef .tc main_arg4) = x4
      ∧ after ops1 W (Proc.devRef .tc main_arg5) = x5
      ∧ after ops1 W (Proc.devRef .tc main_arg6) = x6
      ∧ after ops1 W (Proc.devRef .tc main_arg7) = x7
      ∧ after ops1 W (Proc.devRef .tc main_arg8) = x8
      ∧ after ops1 W (Proc.devRef .tc main_arg9) = x9
      ∧ after ops1 W (Proc.devRef .tc main_arg10) = x10
      ∧ after ops1 W (Proc.devRef .tc main_arg11) = x11
      ∧ after ops1 W (Proc.devRef .tc main_arg12) = x12
      ∧ after ops1 W (Proc.devRef .tc main_arg13) = x13)
    ∧ (after ops1 W (Proc.devRef .tc main_v5) = Read.val_main_v5 (F := F) x2
      ∧ after ops1 W (Proc.devRef .tc main_v7) = Read.val_main_v7 (F := F) x2
      ∧ after ops1 W (Proc.devRef .tc main_v50) = Read.val_main_v50 (F := F) x0 x1 x4 x5 x6 x7 x8 x9
      ∧ after ops1 W (Proc.devRef .tc main_v93) = Read.val_main_v93 (F := F) x0 x1 x4 x5 x6 x7 x8 x9
      ∧ after ops1 W (Proc.devRef .tc main_v95) = Read.val_main_v95 (F := F) x4
      ∧ after ops1 W (Proc.devRef .tc main_v97) = Read.val_main_v97 (F := F) x5
      ∧ after ops1 W (Proc.devRef .tc main_v99) = Read.val_main_v99 (F := F) x6
      ∧ after ops1 W (Proc.devRef .tc main_v101) = Read.val_main_v101 (F := F) x7
      ∧ after ops1 W (Proc.devRef .tc main_v103) = Read.val_main_v103 (F := F) x8
      ∧ after ops1 W (Proc.devRef .tc main_v105) = Read.val_main_v105 (F := F) x9
      ∧ after ops1 W (Proc.devRef .tc main_v107) = Read.val_main_v107 (F := F) x2
      ∧ after ops1 W (Proc.devRef .tc main_v109) = Read.val_main_v109 (F := F) x2) := by
  refine ⟨⟨?_, ?_, ?_, ?_, ?_, ?_, ?_, ?_, ?_, ?_, ?_, ?_, ?_, ?_⟩, ?_⟩
  iterate 14 (after_results_simp; assumption)
  simp (disch := decide) only [after_cons, after_nil, nullary_result', unary_result', binary_result', ternary_result', quaternary_result', reshape_result', nary4_result', unaryIndexed_result', binaryIndexed_result', nullary_result_ne', unary_result_ne', binary_result_ne', ternary_result_ne', quaternary_result_ne', reshape_result_ne', nary_result_ne', unaryIndexed_result_ne', binaryIndexed_result_ne',
    a0, a1, a2, a3, a4, a5, a6, a7, a8, a9, a10, a11, a12, a13, h_v1, h_v3, h_v5, h_v7, h_v50, h_v52, h_v54, h_v55]
  refine ⟨?_, ?_, ?_, ?_, ?_, ?_, ?_, ?_, ?_, ?_, ?_, ?_⟩ <;> (try simp only [TRef.ofBuf, TRef.toBuf, cast_eq]) <;> rfl

end Cert.ReferenceIdeal.RefRun

end
-- ==== Proof.Ref.Run2.lean ====
import proofs.«403111_j50835232915932_1_alg».proof.Proof.RefRead
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in

abbrev ops2 : List (HloOp τ sig (Elt F)) :=
  [ ternary main_v107 main_v109 main_v5 main_v110 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v110 main_v111 (broadcastInDim S1600000x1 ![0] bcast_S1600000_S1600000x1_0 : (⟨S1600000, .i32⟩ : BufTy).Contents (Elt F) → (⟨S1600000x1, .i32⟩ : BufTy).Contents (Elt F)),
    binary main_arg0 main_v111 main_v112 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_8 (constant S_ .f32 0x00000000#32),
    unary main_cst_8 main_v113 (broadcastInDim S100000x128 ![] bcast_S_S100000x128 : (⟨S_, .f32⟩ : BufTy).Contents (Elt F) → (⟨S100000x128, .f32⟩ : BufTy).Contents (Elt F)),
    unary main_v7 main_v114 (broadcastInDim S1600000x1 ![0] bcast_S1600000_S1600000x1_0 : (⟨S1600000, .i32⟩ : BufTy).Contents (Elt F) → (⟨S1600000x1, .i32⟩ : BufTy).Contents (Elt F)),
    ternary main_v113 main_v114 main_v112 main_v115 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_arg0 main_v115 main_v116 (addf : (⟨S100000x128, .f32⟩ : BufTy).Contents (Elt F) → (⟨S100000x128, .f32⟩ : BufTy).Contents (Elt F) → (⟨S100000x128, .f32⟩ : BufTy).Contents (Elt F)),
    binary main_v116 main_v95 main_v117 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v97 main_v118 (broadcastInDim S1x128 ![1] bcast_S128_S1x128_1 : (⟨S128, .f32⟩ : BufTy).Contents (Elt F) → (⟨S1x128, .f32⟩ : BufTy).Contents (Elt F)),
    unary main_v118 main_v119 (broadcastInDim S100000x128 ![0, 1] bcast_S1x128_S100000x128_0_1 : (⟨S1x128, .f32⟩ : BufTy).Contents (Elt F) → (⟨S100000x128, .f32⟩ : BufTy).Contents (Elt F)),
    binary main_v117 main_v119 main_v120 (addf : (⟨S100000x128, .f32⟩ : BufTy).Contents (Elt F) → (⟨S100000x128, .f32⟩ : BufTy).Contents (Elt F) → (⟨S100000x128, .f32⟩ : BufTy).Contents (Elt F)),
    unary main_v103 main_v121 (broadcastInDim S1x128 ![1] bcast_S128_S1x128_1 : (⟨S128, .f32⟩ : BufTy).Contents (Elt F) → (⟨S1x128, .f32⟩ : BufTy).Contents (Elt F)),
    unary main_v121 main_v122 (broadcastInDim S100000x128 ![0, 1] bcast_S1x128_S100000x128_0_1 : (⟨S1x128, .f32⟩ : BufTy).Contents (Elt F) → (⟨S100000x128, .f32⟩ : BufTy).Contents (Elt F)),
    binary main_v120 main_v122 main_v123 (subf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x3727C5AC#32),
    unary main_cst_9 main_v124 (broadcastInDim S128 ![] bcast_S_S128 : (⟨S_, .f32⟩ : BufTy).Contents (Elt F) → (⟨S128, .f32⟩ : BufTy).Contents (Elt F)),
    binary main_v105 main_v124 main_v125 (addf : (⟨S128, .f32⟩ : BufTy).Contents (Elt F) → (⟨S128, .f32⟩ : BufTy).Contents (Elt F) → (⟨S128, .f32⟩ : BufTy).Contents (Elt F)),
    unary main_v125 main_v126 (Host.rsqrt : (⟨S128, .f32⟩ : BufTy).Contents (Elt F) → (⟨S128, .f32⟩ : BufTy).Contents (Elt F)),
    unary main_v126 main_v127 (broadcastInDim S1x128 ![1] bcast_S128_S1x128_1 : (⟨S128, .f32⟩ : BufTy).Contents (Elt F) → (⟨S1x128, .f32⟩ : BufTy).Contents (Elt F)),
    unary main_v127 main_v128 (broadcastInDim S100000x128 ![0, 1] bcast_S1x128_S100000x128_0_1 : (⟨S1x128, .f32⟩ : BufTy).Contents (Elt F) → (⟨S100000x128, .f32⟩ : BufTy).Contents (Elt F)),
    binary main_v123 main_v128 main_v129 (mulf : (⟨S100000x128, .f32⟩ : BufTy).Contents (Elt F) → (⟨S100000x128, .f32⟩ : BufTy).Contents (Elt F) → (⟨S100000x128, .f32⟩ : BufTy).Contents (Elt F)),
    unary main_v99 main_v130 (broadcastInDim S1x128 ![1] bcast_S128_S1x128_1 : (⟨S128, .f32⟩ : BufTy).Contents (Elt F) → (⟨S1x128, .f32⟩ : BufTy).Contents (Elt F)),
    unary main_v130 main_v131 (broadcastInDim S100000x128 ![0, 1] bcast_S1x128_S100000x128_0_1 : (⟨S1x128, .f32⟩ : BufTy).Contents (Elt F) → (⟨S100000x128, .f32⟩ : BufTy).Contents (Elt F)),
    binary main_v129 main_v131 main_v132 (mulf : (⟨S100000x128, .f32⟩ : BufTy).Contents (Elt F) → (⟨S100000x128, .f32⟩ : BufTy).Contents (Elt F) → (⟨S100000x128, .f32⟩ : BufTy).Contents (Elt F)),
    unary main_v101 main_v133 (broadcastInDim S1x128 ![1] bcast_S128_S1x128_1 : (⟨S128, .f32⟩ : BufTy).Contents (Elt F) → (⟨S1x128, .f32⟩ : BufTy).Contents (Elt F)),
    unary main_v133 main_v134 (broadcastInDim S100000x128 ![0, 1] bcast_S1x128_S100000x128_0_1 : (⟨S1x128, .f32⟩ : BufTy).Contents (Elt F) → (⟨S100000x128, .f32⟩ : BufTy).Contents (Elt F)),
    binary main_v132 main_v134 main_v135 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v135) (TRef.of (T := ⟨S100000x128, .f32⟩) main_call2_v0) (TRef.of (T := ⟨S100000x128, .f32⟩) main_v136) maximumf,
    unary main_arg4 main_v137 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v137 main_v138 rfl shapeCasts_S1x128x128_S128x128,
    unary main_arg5 main_v139 ((extractStridedSlice S1x128 ![3, 0] · slices_S4x128_S1x128_3_0) : (⟨S4x128, .f32⟩ : BufTy).Contents (Elt F) → (⟨S1x128, .f32⟩ : BufTy).Contents (Elt F)),
    reshape main_v139 main_v140 rfl shapeCasts_S1x128_S128,
    unary main_arg6 main_v141 ((extractStridedSlice S1x128 ![3, 0] · slices_S4x128_S1x128_3_0) : (⟨S4x128, .f32⟩ : BufTy).Contents (Elt F) → (⟨S1x128, .f32⟩ : BufTy).Contents (Elt F)),
    reshape main_v141 main_v142 rfl shapeCasts_S1x128_S128,
    unary main_arg7 main_v143 ((extractStridedSlice S1x128 ![3, 0] · slices_S4x128_S1x128_3_0) : (⟨S4x128, .f32⟩ : BufTy).Contents (Elt F) → (⟨S1x128, .f32⟩ : BufTy).Contents (Elt F)),
    reshape main_v143 main_v144 rfl shapeCasts_S1x128_S128,
    unary main_arg8 main_v145 ((extractStridedSlice S1x128 ![3, 0] · slices_S4x128_S1x128_3_0) : (⟨S4x128, .f32⟩ : BufTy).Contents (Elt F) → (⟨S1x128, .f32⟩ : BufTy).Contents (Elt F)),
    reshape main_v145 main_v146 rfl shapeCasts_S1x128_S128,
    unary main_arg9 main_v147 ((extractStridedSlice S1x128 ![3, 0] · slices_S4x128_S1x128_3_0) : (⟨S4x128, .f32⟩ : BufTy).Contents (Elt F) → (⟨S1x128, .f32⟩ : BufTy).Contents (Elt F)),
    reshape main_v147 main_v148 rfl shapeCasts_S1x128_S128,
    nullary main_c_10 (constantI S_ 32 0#32),
    unary main_c_10 main_v149 (broadcastInDim S1600000 ![] bcast_S_S1600000 : (⟨S_, .i32⟩ : BufTy).Contents (Elt F) → (⟨S1600000, .i32⟩ : BufTy).Contents (Elt F)),
    binary main_v5 main_v149 main_v150 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v151 (broadcastInDim S1600000 ![] bcast_S_S1600000 : (⟨S_, .i32⟩ : BufTy).Contents (Elt F) → (⟨S1600000, .i32⟩ : BufTy).Contents (Elt F)),
    binary main_v5 main_v151 main_v152 (addi : (⟨S1600000, .i32⟩ : BufTy).Contents (Elt F) → (⟨S1600000, .i32⟩ : BufTy).Contents (Elt F) → (⟨S1600000, .i32⟩ : BufTy).Contents (Elt F)),
    ternary main_v150 main_v152 main_v5 main_v153 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v153 main_v154 (broadcastInDim S1600000x1 ![0] bcast_S1600000_S1600000x1_0 : (⟨S1600000, .i32⟩ : BufTy).Contents (Elt F) → (⟨S1600000x1, .i32⟩ : BufTy).Contents (Elt F)),
    binary main_v136 main_v154 main_v155 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_12 (constant S_ .f32 0x00000000#32),
    unary main_cst_12 main_v156 (broadcastInDim S100000x128 ![] bcast_S_S100000x128 : (⟨S_, .f32⟩ : BufTy).Contents (Elt F) → (⟨S100000x128, .f32⟩ : BufTy).Contents (Elt F)),
    unary main_v7 main_v157 (broadcastInDim S1600000x1 ![0] bcast_S1600000_S1600000x1_0 : (⟨S1600000, .i32⟩ : BufTy).Contents (Elt F) → (⟨S1600000x1, .i32⟩ : BufTy).Contents (Elt F)),
    ternary main_v156 main_v157 main_v155 main_v158 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v136 main_v158 main_v159 (addf : (⟨S100000x128, .f32⟩ : BufTy).Contents (Elt F) → (⟨S100000x128, .f32⟩ : BufTy).Contents (Elt F) → (⟨S100000x128, .f32⟩ : BufTy).Contents (Elt F)),
    binary main_v159 main_v138 main_v160 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v140 main_v161 (broadcastInDim S1x128 ![1] bcast_S128_S1x128_1 : (⟨S128, .f32⟩ : BufTy).Contents (Elt F) → (⟨S1x128, .f32⟩ : BufTy).Contents (Elt F)),
    unary main_v161 main_v162 (broadcastInDim S100000x128 ![0, 1] bcast_S1x128_S100000x128_0_1 : (⟨S1x128, .f32⟩ : BufTy).Contents (Elt F) → (⟨S100000x128, .f32⟩ : BufTy).Contents (Elt F)),
    binary main_v160 main_v162 main_v163 (addf : (⟨S100000x128, .f32⟩ : BufTy).Contents (Elt F) → (⟨S100000x128, .f32⟩ : BufTy).Contents (Elt F) → (⟨S100000x128, .f32⟩ : BufTy).Contents (Elt F)),
    unary main_v146 main_v164 (broadcastInDim S1x128 ![1] bcast_S128_S1x128_1 : (⟨S128, .f32⟩ : BufTy).Contents (Elt F) → (⟨S1x128, .f32⟩ : BufTy).Contents (Elt F)) ]

theorem ops2_sub : (ops2 : List (HloOp τ sig (Elt F))).Forall fun op => op.bufs ⊆ tcRefs τ sig :=
  ⟨ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., unary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 16000000 in

theorem stage2 (W : Valuation τ sig (Elt F)) (x0 : (⟨S100000x128, .f32⟩ : BufTy).Contents (Elt F)) (x1 : (⟨S2x1600000, .i32⟩ : BufTy).Contents (Elt F)) (x2 : (⟨S2x1600000, .i32⟩ : BufTy).Contents (Elt F)) (x3 : (⟨S100000, .i32⟩ : BufTy).Contents (Elt F)) (x4 : (⟨S4x128x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S4x128, .f32⟩ : BufTy).Contents (Elt F)) (x9 : (⟨S4x128, .f32⟩ : BufTy).Contents (Elt F)) (x10 : (⟨S512x256, .f32⟩ : BufTy).Contents (Elt F)) (x11 : (⟨S256, .f32⟩ : BufTy).Contents (Elt F)) (x12 : (⟨S256x10, .f32⟩ : BufTy).Contents (Elt F)) (x13 : (⟨S10, .f32⟩ : BufTy).Contents (Elt F))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8) (a9 : W (Proc.devRef .tc main_arg9) = x9) (a10 : W (Proc.devRef .tc main_arg10) = x10) (a11 : W (Proc.devRef .tc main_arg11) = x11) (a12 : W (Proc.devRef .tc main_arg12) = x12) (a13 : W (Proc.devRef .tc main_arg13) = x13)
    (h_v5 : W (Proc.devRef .tc main_v5) = Read.val_main_v5 (F := F) x2)
    (h_v7 : W (Proc.devRef .tc main_v7) = Read.val_main_v7 (F := F) x2)
    (h_v50 : W (Proc.devRef .tc main_v50) = Read.val_main_v50 (F := F) x0 x1 x4 x5 x6 x7 x8 x9)
    (h_v93 : W (Proc.devRef .tc main_v93) = Read.val_main_v93 (F := F) x0 x1 x4 x5 x6 x7 x8 x9)
    (h_v95 : W (Proc.devRef .tc main_v95) = Read.val_main_v95 (F := F) x4)
    (h_v97 : W (Proc.devRef .tc main_v97) = Read.val_main_v97 (F := F) x5)
    (h_v99 : W (Proc.devRef .tc main_v99) = Read.val_main_v99 (F := F) x6)
    (h_v101 : W (Proc.devRef .tc main_v101) = Read.val_main_v101 (F := F) x7)
    (h_v103 : W (Proc.devRef .tc main_v103) = Read.val_main_v103 (F := F) x8)
    (h_v105 : W (Proc.devRef .tc main_v105) = Read.val_main_v105 (F := F) x9)
    (h_v107 : W (Proc.devRef .tc main_v107) = Read.val_main_v107 (F := F) x2)
    (h_v109 : W (Proc.devRef .tc main_v109) = Read.val_main_v109 (F := F) x2) :
    (after ops2 W (Proc.devRef .tc main_arg0) = x0
      ∧ after ops2 W (Proc.devRef .tc main_arg1) = x1
      ∧ after ops2 W (Proc.devRef .tc main_arg2) = x2
      ∧ after ops2 W (Proc.devRef .tc main_arg3) = x3
      ∧ after ops2 W (Proc.devRef .tc main_arg4) = x4
      ∧ after ops2 W (Proc.devRef .tc main_arg5) = x5
      ∧ after ops2 W (Proc.devRef .tc main_arg6) = x6
      ∧ after ops2 W (Proc.devRef .tc main_arg7) = x7
      ∧ after ops2 W (Proc.devRef .tc main_arg8) = x8
      ∧ after ops2 W (Proc.devRef .tc main_arg9) = x9
      ∧ after ops2 W (Proc.devRef .tc main_arg10) = x10
      ∧ after ops2 W (Proc.devRef .tc main_arg11) = x11
      ∧ after ops2 W (Proc.devRef .tc main_arg12) = x12
      ∧ after ops2 W (Proc.devRef .tc main_arg13) = x13)
    ∧ (after ops2 W (Proc.devRef .tc main_v50) = Read.val_main_v50 (F := F) x0 x1 x4 x5 x6 x7 x8 x9
      ∧ after ops2 W (Proc.devRef .tc main_v93) = Read.val_main_v93 (F := F) x0 x1 x4 x5 x6 x7 x8 x9
      ∧ after ops2 W (Proc.devRef .tc main_v136) = Read.val_main_v136 (F := F) x0 x2 x4 x5 x6 x7 x8 x9
      ∧ after ops2 W (Proc.devRef .tc main_v142) = Read.val_main_v142 (F := F) x6
      ∧ after ops2 W (Proc.devRef .tc main_v144) = Read.val_main_v144 (F := F) x7
      ∧ after ops2 W (Proc.devRef .tc main_v148) = Read.val_main_v148 (F := F) x9
      ∧ after ops2 W (Proc.devRef .tc main_v163) = Read.val_main_v163 (F := F) x0 x2 x4 x5 x6 x7 x8 x9
      ∧ after ops2 W (Proc.devRef .tc main_v164) = Read.val_main_v164 (F := F) x8) := by
  refine ⟨⟨?_, ?_, ?_, ?_, ?_, ?_, ?_, ?_, ?_, ?_, ?_, ?_, ?_, ?_⟩, ?_⟩
  iterate 14 (after_results_simp; assumption)
  simp (disch := decide) only [after_cons, after_nil, nullary_result', unary_result', binary_result', ternary_result', quaternary_result', reshape_result', nary4_result', unaryIndexed_result', binaryIndexed_result', nullary_result_ne', unary_result_ne', binary_result_ne', ternary_result_ne', quaternary_result_ne', reshape_result_ne', nary_result_ne', unaryIndexed_result_ne', binaryIndexed_result_ne',
    a0, a1, a2, a3, a4, a5, a6, a7, a8, a9, a10, a11, a12, a13, h_v5, h_v7, h_v50, h_v93, h_v95, h_v97, h_v99, h_v101, h_v103, h_v105, h_v107, h_v109]
  refine ⟨?_, ?_, ?_, ?_, ?_, ?_, ?_, ?_⟩ <;> (try simp only [TRef.ofBuf, TRef.toBuf, cast_eq]) <;> rfl

end Cert.ReferenceIdeal.RefRun

end
-- ==== Proof.Ref.Run3.lean ====
import proofs.«403111_j50835232915932_1_alg».proof.Proof.RefRead
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in

abbrev ops3 : List (HloOp τ sig (Elt F)) :=
  [ unary main_v164 main_v165 (broadcastInDim S100000x128 ![0, 1] bcast_S1x128_S100000x128_0_1 : (⟨S1x128, .f32⟩ : BufTy).Contents (Elt F) → (⟨S100000x128, .f32⟩ : BufTy).Contents (Elt F)),
    binary main_v163 main_v165 main_v166 (subf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v167 (broadcastInDim S128 ![] bcast_S_S128 : (⟨S_, .f32⟩ : BufTy).Contents (Elt F) → (⟨S128, .f32⟩ : BufTy).Contents (Elt F)),
    binary main_v148 main_v167 main_v168 (addf : (⟨S128, .f32⟩ : BufTy).Contents (Elt F) → (⟨S128, .f32⟩ : BufTy).Contents (Elt F) → (⟨S128, .f32⟩ : BufTy).Contents (Elt F)),
    unary main_v168 main_v169 (Host.rsqrt : (⟨S128, .f32⟩ : BufTy).Contents (Elt F) → (⟨S128, .f32⟩ : BufTy).Contents (Elt F)),
    unary main_v169 main_v170 (broadcastInDim S1x128 ![1] bcast_S128_S1x128_1 : (⟨S128, .f32⟩ : BufTy).Contents (Elt F) → (⟨S1x128, .f32⟩ : BufTy).Contents (Elt F)),
    unary main_v170 main_v171 (broadcastInDim S100000x128 ![0, 1] bcast_S1x128_S100000x128_0_1 : (⟨S1x128, .f32⟩ : BufTy).Contents (Elt F) → (⟨S100000x128, .f32⟩ : BufTy).Contents (Elt F)),
    binary main_v166 main_v171 main_v172 (mulf : (⟨S100000x128, .f32⟩ : BufTy).Contents (Elt F) → (⟨S100000x128, .f32⟩ : BufTy).Contents (Elt F) → (⟨S100000x128, .f32⟩ : BufTy).Contents (Elt F)),
    unary main_v142 main_v173 (broadcastInDim S1x128 ![1] bcast_S128_S1x128_1 : (⟨S128, .f32⟩ : BufTy).Contents (Elt F) → (⟨S1x128, .f32⟩ : BufTy).Contents (Elt F)),
    unary main_v173 main_v174 (broadcastInDim S100000x128 ![0, 1] bcast_S1x128_S100000x128_0_1 : (⟨S1x128, .f32⟩ : BufTy).Contents (Elt F) → (⟨S100000x128, .f32⟩ : BufTy).Contents (Elt F)),
    binary main_v172 main_v174 main_v175 (mulf : (⟨S100000x128, .f32⟩ : BufTy).Contents (Elt F) → (⟨S100000x128, .f32⟩ : BufTy).Contents (Elt F) → (⟨S100000x128, .f32⟩ : BufTy).Contents (Elt F)),
    unary main_v144 main_v176 (broadcastInDim S1x128 ![1] bcast_S128_S1x128_1 : (⟨S128, .f32⟩ : BufTy).Contents (Elt F) → (⟨S1x128, .f32⟩ : BufTy).Contents (Elt F)),
    unary main_v176 main_v177 (broadcastInDim S100000x128 ![0, 1] bcast_S1x128_S100000x128_0_1 : (⟨S1x128, .f32⟩ : BufTy).Contents (Elt F) → (⟨S100000x128, .f32⟩ : BufTy).Contents (Elt F)),
    binary main_v175 main_v177 main_v178 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v178) (TRef.of (T := ⟨S100000x128, .f32⟩) main_call3_v0) (TRef.of (T := ⟨S100000x128, .f32⟩) main_v179) maximumf,
    nullary main_cst_14 (constant S_ .f32 0x00000000#32),
    unary main_cst_14 main_v180 (broadcastInDim S128x128 ![] bcast_S_S128x128 : (⟨S_, .f32⟩ : BufTy).Contents (Elt F) → (⟨S128x128, .f32⟩ : BufTy).Contents (Elt F)),
    unary main_arg3 main_v181 (broadcastInDim S100000x1 ![0] bcast_S100000_S100000x1_0 : (⟨S100000, .i32⟩ : BufTy).Contents (Elt F) → (⟨S100000x1, .i32⟩ : BufTy).Contents (Elt F)),
    ternary main_v180 main_v181 main_v50 main_v182 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    nullary main_cst_15 (constant S_ .f32 0x00000000#32),
    unary main_cst_15 main_v183 (broadcastInDim S128x128 ![] bcast_S_S128x128 : (⟨S_, .f32⟩ : BufTy).Contents (Elt F) → (⟨S128x128, .f32⟩ : BufTy).Contents (Elt F)),
    unary main_arg3 main_v184 (broadcastInDim S100000x1 ![0] bcast_S100000_S100000x1_0 : (⟨S100000, .i32⟩ : BufTy).Contents (Elt F) → (⟨S100000x1, .i32⟩ : BufTy).Contents (Elt F)),
    ternary main_v183 main_v184 main_v93 main_v185 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    nullary main_cst_16 (constant S_ .f32 0x00000000#32),
    unary main_cst_16 main_v186 (broadcastInDim S128x128 ![] bcast_S_S128x128 : (⟨S_, .f32⟩ : BufTy).Contents (Elt F) → (⟨S128x128, .f32⟩ : BufTy).Contents (Elt F)),
    unary main_arg3 main_v187 (broadcastInDim S100000x1 ![0] bcast_S100000_S100000x1_0 : (⟨S100000, .i32⟩ : BufTy).Contents (Elt F) → (⟨S100000x1, .i32⟩ : BufTy).Contents (Elt F)),
    ternary main_v186 main_v187 main_v136 main_v188 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    nullary main_cst_17 (constant S_ .f32 0x00000000#32),
    unary main_cst_17 main_v189 (broadcastInDim S128x128 ![] bcast_S_S128x128 : (⟨S_, .f32⟩ : BufTy).Contents (Elt F) → (⟨S128x128, .f32⟩ : BufTy).Contents (Elt F)),
    unary main_arg3 main_v190 (broadcastInDim S100000x1 ![0] bcast_S100000_S100000x1_0 : (⟨S100000, .i32⟩ : BufTy).Contents (Elt F) → (⟨S100000x1, .i32⟩ : BufTy).Contents (Elt F)),
    ternary main_v189 main_v190 main_v179 main_v191 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)) ]

theorem ops3_sub : (ops3 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 16000000 in

theorem stage3 (W : Valuation τ sig (Elt F)) (x0 : (⟨S100000x128, .f32⟩ : BufTy).Contents (Elt F)) (x1 : (⟨S2x1600000, .i32⟩ : BufTy).Contents (Elt F)) (x2 : (⟨S2x1600000, .i32⟩ : BufTy).Contents (Elt F)) (x3 : (⟨S100000, .i32⟩ : BufTy).Contents (Elt F)) (x4 : (⟨S4x128x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S4x128, .f32⟩ : BufTy).Contents (Elt F)) (x9 : (⟨S4x128, .f32⟩ : BufTy).Contents (Elt F)) (x10 : (⟨S512x256, .f32⟩ : BufTy).Contents (Elt F)) (x11 : (⟨S256, .f32⟩ : BufTy).Contents (Elt F)) (x12 : (⟨S256x10, .f32⟩ : BufTy).Contents (Elt F)) (x13 : (⟨S10, .f32⟩ : BufTy).Contents (Elt F))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8) (a9 : W (Proc.devRef .tc main_arg9) = x9) (a10 : W (Proc.devRef .tc main_arg10) = x10) (a11 : W (Proc.devRef .tc main_arg11) = x11) (a12 : W (Proc.devRef .tc main_arg12) = x12) (a13 : W (Proc.devRef .tc main_arg13) = x13)
    (h_v50 : W (Proc.devRef .tc main_v50) = Read.val_main_v50 (F := F) x0 x1 x4 x5 x6 x7 x8 x9)
    (h_v93 : W (Proc.devRef .tc main_v93) = Read.val_main_v93 (F := F) x0 x1 x4 x5 x6 x7 x8 x9)
    (h_v136 : W (Proc.devRef .tc main_v136) = Read.val_main_v136 (F := F) x0 x2 x4 x5 x6 x7 x8 x9)
    (h_v142 : W (Proc.devRef .tc main_v142) = Read.val_main_v142 (F := F) x6)
    (h_v144 : W (Proc.devRef .tc main_v144) = Read.val_main_v144 (F := F) x7)
    (h_v148 : W (Proc.devRef .tc main_v148) = Read.val_main_v148 (F := F) x9)
    (h_v163 : W (Proc.devRef .tc main_v163) = Read.val_main_v163 (F := F) x0 x2 x4 x5 x6 x7 x8 x9)
    (h_v164 : W (Proc.devRef .tc main_v164) = Read.val_main_v164 (F := F) x8) :
    (after ops3 W (Proc.devRef .tc main_arg0) = x0
      ∧ after ops3 W (Proc.devRef .tc main_arg1) = x1
      ∧ after ops3 W (Proc.devRef .tc main_arg2) = x2
      ∧ after ops3 W (Proc.devRef .tc main_arg3) = x3
      ∧ after ops3 W (Proc.devRef .tc main_arg4) = x4
      ∧ after ops3 W (Proc.devRef .tc main_arg5) = x5
      ∧ after ops3 W (Proc.devRef .tc main_arg6) = x6
      ∧ after ops3 W (Proc.devRef .tc main_arg7) = x7
      ∧ after ops3 W (Proc.devRef .tc main_arg8) = x8
      ∧ after ops3 W (Proc.devRef .tc main_arg9) = x9
      ∧ after ops3 W (Proc.devRef .tc main_arg10) = x10
      ∧ after ops3 W (Proc.devRef .tc main_arg11) = x11
      ∧ after ops3 W (Proc.devRef .tc main_arg12) = x12
      ∧ after ops3 W (Proc.devRef .tc main_arg13) = x13)
    ∧ (after ops3 W (Proc.devRef .tc main_v182) = Read.val_main_v182 (F := F) x0 x1 x3 x4 x5 x6 x7 x8 x9
      ∧ after ops3 W (Proc.devRef .tc main_v185) = Read.val_main_v185 (F := F) x0 x1 x3 x4 x5 x6 x7 x8 x9
      ∧ after ops3 W (Proc.devRef .tc main_v188) = Read.val_main_v188 (F := F) x0 x2 x3 x4 x5 x6 x7 x8 x9
      ∧ after ops3 W (Proc.devRef .tc main_v191) = Read.val_main_v191 (F := F) x0 x2 x3 x4 x5 x6 x7 x8 x9) := by
  refine ⟨⟨?_, ?_, ?_, ?_, ?_, ?_, ?_, ?_, ?_, ?_, ?_, ?_, ?_, ?_⟩, ?_⟩
  iterate 14 (after_results_simp; assumption)
  simp (disch := decide) only [after_cons, after_nil, nullary_result', unary_result', binary_result', ternary_result', quaternary_result', reshape_result', nary4_result', unaryIndexed_result', binaryIndexed_result', nullary_result_ne', unary_result_ne', binary_result_ne', ternary_result_ne', quaternary_result_ne', reshape_result_ne', nary_result_ne', unaryIndexed_result_ne', binaryIndexed_result_ne',
    a0, a1, a2, a3, a4, a5, a6, a7, a8, a9, a10, a11, a12, a13, h_v50, h_v93, h_v136, h_v142, h_v144, h_v148, h_v163, h_v164]
  refine ⟨?_, ?_, ?_, ?_⟩ <;> (try simp only [TRef.ofBuf, TRef.toBuf, cast_eq]) <;> rfl

end Cert.ReferenceIdeal.RefRun

end
-- ==== Proof.Ref.Run4.lean ====
import proofs.«403111_j50835232915932_1_alg».proof.Proof.RefRead
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in

abbrev ops4 : List (HloOp τ sig (Elt F)) :=
  [ nary ![main_v182, main_v185, main_v188, main_v191] main_v192 (fun u => concatenate S128x512 1 [⟨S128x128, u 0⟩, ⟨S128x128, u 1⟩, ⟨S128x128, u 2⟩, ⟨S128x128, u 3⟩] concatenates_S128x128_S128x128_S128x128_S128x128_S128x512_d1) ]

theorem ops4_sub : (ops4 : List (HloOp τ sig (Elt F))).Forall fun op => op.bufs ⊆ tcRefs τ sig :=
  nary_bufs_sub ..

theorem ops4_fresh : (ops4 : List (HloOp τ sig (Elt F))).Forall fun op => op.fresh = ∅ :=
  rfl

set_option maxRecDepth 8192 in
set_option maxHeartbeats 16000000 in

theorem stage4 (W : Valuation τ sig (Elt F)) (x0 : (⟨S100000x128, .f32⟩ : BufTy).Contents (Elt F)) (x1 : (⟨S2x1600000, .i32⟩ : BufTy).Contents (Elt F)) (x2 : (⟨S2x1600000, .i32⟩ : BufTy).Contents (Elt F)) (x3 : (⟨S100000, .i32⟩ : BufTy).Contents (Elt F)) (x4 : (⟨S4x128x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S4x128, .f32⟩ : BufTy).Contents (Elt F)) (x9 : (⟨S4x128, .f32⟩ : BufTy).Contents (Elt F)) (x10 : (⟨S512x256, .f32⟩ : BufTy).Contents (Elt F)) (x11 : (⟨S256, .f32⟩ : BufTy).Contents (Elt F)) (x12 : (⟨S256x10, .f32⟩ : BufTy).Contents (Elt F)) (x13 : (⟨S10, .f32⟩ : BufTy).Contents (Elt F))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8) (a9 : W (Proc.devRef .tc main_arg9) = x9) (a10 : W (Proc.devRef .tc main_arg10) = x10) (a11 : W (Proc.devRef .tc main_arg11) = x11) (a12 : W (Proc.devRef .tc main_arg12) = x12) (a13 : W (Proc.devRef .tc main_arg13) = x13)
    (h_v182 : W (Proc.devRef .tc main_v182) = Read.val_main_v182 (F := F) x0 x1 x3 x4 x5 x6 x7 x8 x9)
    (h_v185 : W (Proc.devRef .tc main_v185) = Read.val_main_v185 (F := F) x0 x1 x3 x4 x5 x6 x7 x8 x9)
    (h_v188 : W (Proc.devRef .tc main_v188) = Read.val_main_v188 (F := F) x0 x2 x3 x4 x5 x6 x7 x8 x9)
    (h_v191 : W (Proc.devRef .tc main_v191) = Read.val_main_v191 (F := F) x0 x2 x3 x4 x5 x6 x7 x8 x9) :
    (after ops4 W (Proc.devRef .tc main_arg0) = x0
      ∧ after ops4 W (Proc.devRef .tc main_arg1) = x1
      ∧ after ops4 W (Proc.devRef .tc main_arg2) = x2
      ∧ after ops4 W (Proc.devRef .tc main_arg3) = x3
      ∧ after ops4 W (Proc.devRef .tc main_arg4) = x4
      ∧ after ops4 W (Proc.devRef .tc main_arg5) = x5
      ∧ after ops4 W (Proc.devRef .tc main_arg6) = x6
      ∧ after ops4 W (Proc.devRef .tc main_arg7) = x7
      ∧ after ops4 W (Proc.devRef .tc main_arg8) = x8
      ∧ after ops4 W (Proc.devRef .tc main_arg9) = x9
      ∧ after ops4 W (Proc.devRef .tc main_arg10) = x10
      ∧ after ops4 W (Proc.devRef .tc main_arg11) = x11
      ∧ after ops4 W (Proc.devRef .tc main_arg12) = x12
      ∧ after ops4 W (Proc.devRef .tc main_arg13) = x13)
    ∧ (after ops4 W (Proc.devRef .tc main_v192) = Read.val_main_v192 (F := F) x0 x1 x2 x3 x4 x5 x6 x7 x8 x9) := by
  refine ⟨⟨?_, ?_, ?_, ?_, ?_, ?_, ?_, ?_, ?_, ?_, ?_, ?_, ?_, ?_⟩, ?_⟩
  iterate 14 (after_results_simp; assumption)
  simp only [after_cons, after_nil]
  rw [nary4_result]
  show concatenate S128x512 1 [⟨S128x128, W (Proc.devRef .tc main_v182)⟩, ⟨S128x128, W (Proc.devRef .tc main_v185)⟩, ⟨S128x128, W (Proc.devRef .tc main_v188)⟩, ⟨S128x128, W (Proc.devRef .tc main_v191)⟩] concatenates_S128x128_S128x128_S128x128_S128x128_S128x512_d1 = _
  rw [h_v182, h_v185, h_v188, h_v191]
  rfl

end Cert.ReferenceIdeal.RefRun

end
-- ==== Proof.Ref.Run5.lean ====
import proofs.«403111_j50835232915932_1_alg».proof.Proof.RefRead
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in

abbrev ops5 : List (HloOp τ sig (Elt F)) :=
  [ binary main_v192 main_arg10 main_v193 ((fun l r => Host.dotGeneral dot_S128x512_S512x256_S128x256_1_0_0_1_n_n none l r) : (⟨S128x512, .f32⟩ : BufTy).Contents (Elt F) → (⟨S512x256, .f32⟩ : BufTy).Contents (Elt F) → (⟨S128x256, .f32⟩ : BufTy).Contents (Elt F)),
    unary main_arg11 main_v194 (broadcastInDim S1x256 ![1] bcast_S256_S1x256_1 : (⟨S256, .f32⟩ : BufTy).Contents (Elt F) → (⟨S1x256, .f32⟩ : BufTy).Contents (Elt F)),
    unary main_v194 main_v195 (broadcastInDim S128x256 ![0, 1] bcast_S1x256_S128x256_0_1 : (⟨S1x256, .f32⟩ : BufTy).Contents (Elt F) → (⟨S128x256, .f32⟩ : BufTy).Contents (Elt F)),
    binary main_v193 main_v195 main_v196 (addf : (⟨S128x256, .f32⟩ : BufTy).Contents (Elt F) → (⟨S128x256, .f32⟩ : BufTy).Contents (Elt F) → (⟨S128x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S128x256, .f32⟩) main_call4_v0) (broadcastInDim S128x256 ![] bcast_S_S128x256),
    TRef.binary (TRef.of (T := ⟨S128x256, .f32⟩) main_v196) (TRef.of (T := ⟨S128x256, .f32⟩) main_call4_v0) (TRef.of (T := ⟨S128x256, .f32⟩) main_v197) maximumf,
    binary main_v197 main_arg12 main_v198 ((fun l r => Host.dotGeneral dot_S128x256_S256x10_S128x10_1_0_0_1_n_n none l r) : (⟨S128x256, .f32⟩ : BufTy).Contents (Elt F) → (⟨S256x10, .f32⟩ : BufTy).Contents (Elt F) → (⟨S128x10, .f32⟩ : BufTy).Contents (Elt F)),
    unary main_arg13 main_v199 (broadcastInDim S1x10 ![1] bcast_S10_S1x10_1 : (⟨S10, .f32⟩ : BufTy).Contents (Elt F) → (⟨S1x10, .f32⟩ : BufTy).Contents (Elt F)),
    unary main_v199 main_v200 (broadcastInDim S128x10 ![0, 1] bcast_S1x10_S128x10_0_1 : (⟨S1x10, .f32⟩ : BufTy).Contents (Elt F) → (⟨S128x10, .f32⟩ : BufTy).Contents (Elt F)),
    binary main_v198 main_v200 main_v201 (addf : (⟨S128x10, .f32⟩ : BufTy).Contents (Elt F) → (⟨S128x10, .f32⟩ : BufTy).Contents (Elt F) → (⟨S128x10, .f32⟩ : BufTy).Contents (Elt F)),
    TRef.nullary (TRef.of (T := ⟨S_, .f32⟩) main_call5_cst) (constant S_ .f32 0xFF800000#32),
    TRef.binary (TRef.of (T := ⟨S128x10, .f32⟩) main_v201) (TRef.of (T := ⟨S_, .f32⟩) main_call5_cst) (TRef.of (T := ⟨S128, .f32⟩) main_call5_v0) (fun x v => Host.reduce FloatOps.maximumf x v reducesTo_S128x10_S128_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S128, .f32⟩) main_call5_v1) (broadcastInDim S128 ![] bcast_S_S128),
    TRef.binary (TRef.of (T := ⟨S128, .f32⟩) main_call5_v1) (TRef.of (T := ⟨S128, .f32⟩) main_call5_v0) (TRef.of (T := ⟨S128, .f32⟩) main_call5_v2) maximumf,
    TRef.unary (TRef.of (T := ⟨S128, .f32⟩) main_call5_v2) (TRef.of (T := ⟨S128x1, .f32⟩) main_call5_v3) (broadcastInDim S128x1 ![0] bcast_S128_S128x1_0),
    TRef.unary (TRef.of (T := ⟨S128x1, .f32⟩) main_call5_v3) (TRef.of (T := ⟨S128x10, .f32⟩) main_call5_v4) (broadcastInDim S128x10 ![0, 1] bcast_S128x1_S128x10_0_1),
    TRef.binary (TRef.of (T := ⟨S128x10, .f32⟩) main_v201) (TRef.of (T := ⟨S128x10, .f32⟩) main_call5_v4) (TRef.of (T := ⟨S128x10, .f32⟩) main_call5_v5) subf,
    TRef.unary (TRef.of (T := ⟨S128x10, .f32⟩) main_call5_v5) (TRef.of (T := ⟨S128x10, .f32⟩) main_call5_v6) Host.exp,
    TRef.nullary (TRef.of (T := ⟨S_, .f32⟩) main_call5_cst_1) (constant S_ .f32 0x00000000#32),
    TRef.binary (TRef.of (T := ⟨S128x10, .f32⟩) main_call5_v6) (TRef.of (T := ⟨S_, .f32⟩) main_call5_cst_1) (TRef.of (T := ⟨S128, .f32⟩) main_call5_v7) (fun x v => Host.reduceAdd x v reducesTo_S128x10_S128_d1 h_S_),
    TRef.unary (TRef.of (T := ⟨S128, .f32⟩) main_call5_v7) (TRef.of (T := ⟨S128x1, .f32⟩) main_call5_v8) (broadcastInDim S128x1 ![0] bcast_S128_S128x1_0),
    TRef.unary (TRef.of (T := ⟨S128x1, .f32⟩) main_call5_v8) (TRef.of (T := ⟨S128x1, .f32⟩) main_call5_v9) Host.log,
    TRef.unary (TRef.of (T := ⟨S128x1, .f32⟩) main_call5_v9) (TRef.of (T := ⟨S128x10, .f32⟩) main_call5_v10) (broadcastInDim S128x10 ![0, 1] bcast_S128x1_S128x10_0_1),
    TRef.binary (TRef.of (T := ⟨S128x10, .f32⟩) main_call5_v5) (TRef.of (T := ⟨S128x10, .f32⟩) main_call5_v10) (TRef.of (T := ⟨S128x10, .f32⟩) main_v202) subf ]

theorem ops5_sub : (ops5 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 16000000 in

theorem stage5 (W : Valuation τ sig (Elt F)) (x0 : (⟨S100000x128, .f32⟩ : BufTy).Contents (Elt F)) (x1 : (⟨S2x1600000, .i32⟩ : BufTy).Contents (Elt F)) (x2 : (⟨S2x1600000, .i32⟩ : BufTy).Contents (Elt F)) (x3 : (⟨S100000, .i32⟩ : BufTy).Contents (Elt F)) (x4 : (⟨S4x128x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S4x128, .f32⟩ : BufTy).Contents (Elt F)) (x9 : (⟨S4x128, .f32⟩ : BufTy).Contents (Elt F)) (x10 : (⟨S512x256, .f32⟩ : BufTy).Contents (Elt F)) (x11 : (⟨S256, .f32⟩ : BufTy).Contents (Elt F)) (x12 : (⟨S256x10, .f32⟩ : BufTy).Contents (Elt F)) (x13 : (⟨S10, .f32⟩ : BufTy).Contents (Elt F))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8) (a9 : W (Proc.devRef .tc main_arg9) = x9) (a10 : W (Proc.devRef .tc main_arg10) = x10) (a11 : W (Proc.devRef .tc main_arg11) = x11) (a12 : W (Proc.devRef .tc main_arg12) = x12) (a13 : W (Proc.devRef .tc main_arg13) = x13)
    (h_v192 : W (Proc.devRef .tc main_v192) = Read.val_main_v192 (F := F) x0 x1 x2 x3 x4 x5 x6 x7 x8 x9) :
    (after ops5 W (Proc.devRef .tc main_arg0) = x0
      ∧ after ops5 W (Proc.devRef .tc main_arg1) = x1
      ∧ after ops5 W (Proc.devRef .tc main_arg2) = x2
      ∧ after ops5 W (Proc.devRef .tc main_arg3) = x3
      ∧ after ops5 W (Proc.devRef .tc main_arg4) = x4
      ∧ after ops5 W (Proc.devRef .tc main_arg5) = x5
      ∧ after ops5 W (Proc.devRef .tc main_arg6) = x6
      ∧ after ops5 W (Proc.devRef .tc main_arg7) = x7
      ∧ after ops5 W (Proc.devRef .tc main_arg8) = x8
      ∧ after ops5 W (Proc.devRef .tc main_arg9) = x9
      ∧ after ops5 W (Proc.devRef .tc main_arg10) = x10
      ∧ after ops5 W (Proc.devRef .tc main_arg11) = x11
      ∧ after ops5 W (Proc.devRef .tc main_arg12) = x12
      ∧ after ops5 W (Proc.devRef .tc main_arg13) = x13)
    ∧ (after ops5 W (Proc.devRef .tc main_v201) = Read.val_main_v201 (F := F) x0 x1 x2 x3 x4 x5 x6 x7 x8 x9 x10 x11 x12 x13
      ∧ after ops5 W (Proc.devRef .tc main_v202) = Read.val_main_v202 (F := F) x0 x1 x2 x3 x4 x5 x6 x7 x8 x9 x10 x11 x12 x13) := by
  refine ⟨⟨?_, ?_, ?_, ?_, ?_, ?_, ?_, ?_, ?_, ?_, ?_, ?_, ?_, ?_⟩, ?_⟩
  iterate 14 (after_results_simp; assumption)
  simp (disch := decide) only [after_cons, after_nil, nullary_result', unary_result', binary_result', ternary_result', quaternary_result', reshape_result', nary4_result', unaryIndexed_result', binaryIndexed_result', nullary_result_ne', unary_result_ne', binary_result_ne', ternary_result_ne', quaternary_result_ne', reshape_result_ne', nary_result_ne', unaryIndexed_result_ne', binaryIndexed_result_ne',
    a0, a1, a2, a3, a4, a5, a6, a7, a8, a9, a10, a11, a12, a13, h_v192]
  refine ⟨?_, ?_⟩ <;> (try simp only [TRef.ofBuf, TRef.toBuf, cast_eq]) <;> rfl

end Cert.ReferenceIdeal.RefRun

end
-- ==== Proof.Ref.RunHand.lean ====
import proofs.«403111_j50835232915932_1_alg».proof.Proof.RefRead
import Idealize.ShloMosaic.Lib.StableHlo.Run
import Idealize.ShloMosaic.Lib.Pipeline.Regions
import proofs.«403111_j50835232915932_1_alg».proof.Proof.Ref.Run0
import proofs.«403111_j50835232915932_1_alg».proof.Proof.Ref.Run1
import proofs.«403111_j50835232915932_1_alg».proof.Proof.Ref.Run2
import proofs.«403111_j50835232915932_1_alg».proof.Proof.Ref.Run3
import proofs.«403111_j50835232915932_1_alg».proof.Proof.Ref.Run4
import proofs.«403111_j50835232915932_1_alg».proof.Proof.Ref.Run5
import Mathlib.Data.List.Basic

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

abbrev ops : List (HloOp τ sig (Elt F)) := ops0 ++ (ops1 ++ (ops2 ++ (ops3 ++ (ops4 ++ (ops5)))))

set_option maxRecDepth 8192 in
theorem part0_eq (c : Dev nD) : main_part0 (F := F) c = seq ops0 := by chain_rfl
set_option maxRecDepth 8192 in
theorem part1_eq (c : Dev nD) : main_part1 (F := F) c = seq ops1 := by chain_rfl
set_option maxRecDepth 8192 in
theorem part2_eq (c : Dev nD) : main_part2 (F := F) c = seq ops2 := by chain_rfl
set_option maxRecDepth 8192 in
theorem part3_eq (c : Dev nD) : main_part3 (F := F) c = seq (ops3 ++ (ops4 ++ (ops5))) := by chain_rfl

theorem main_eq (c : Dev nD) : main (F := F) c = seq ops := by
  show (main_part0 c >>= fun _ => main_part1 c >>= fun _ => main_part2 c >>= fun _ => main_part3 c) = _
  rw [part0_eq, part1_eq, part2_eq, part3_eq]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨ops0_sub, List.forall_append.2 ⟨ops1_sub, List.forall_append.2 ⟨ops2_sub, List.forall_append.2 ⟨ops3_sub, List.forall_append.2 ⟨ops4_sub, ops5_sub⟩⟩⟩⟩⟩

theorem ops_fresh : ∀ op ∈ (ops : List (HloOp τ sig (Elt F))), op.fresh = ∅ :=
  List.forall_iff_forall_mem.1 (List.forall_append.2 ⟨ops0_fresh, List.forall_append.2 ⟨ops1_fresh, List.forall_append.2 ⟨ops2_fresh, List.forall_append.2 ⟨ops3_fresh, List.forall_append.2 ⟨ops4_fresh, ops5_fresh⟩⟩⟩⟩⟩)

set_option maxRecDepth 8192 in

theorem after_ops (V : Valuation τ sig (Elt F)) :
    after ops V (Proc.devRef .tc main_v201) = Read.val_main_v201 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13))
    ∧ after ops V (Proc.devRef .tc main_v202) = Read.val_main_v202 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13))
    ∧ after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8)
    ∧ after ops V (Proc.devRef .tc main_arg9) = V (Proc.devRef .tc main_arg9)
    ∧ after ops V (Proc.devRef .tc main_arg10) = V (Proc.devRef .tc main_arg10)
    ∧ after ops V (Proc.devRef .tc main_arg11) = V (Proc.devRef .tc main_arg11)
    ∧ after ops V (Proc.devRef .tc main_arg12) = V (Proc.devRef .tc main_arg12)
    ∧ after ops V (Proc.devRef .tc main_arg13) = V (Proc.devRef .tc main_arg13) := by
  obtain ⟨⟨a0, a1, a2, a3, a4, a5, a6, a7, a8, a9, a10, a11, a12, a13⟩, h_v1, h_v3, h_v5, h_v7, h_v50, h_v52, h_v54, h_v55⟩ :=
    stage0 (F := F) (V) _ _ _ _ _ _ _ _ _ _ _ _ _ _ rfl rfl rfl rfl rfl rfl rfl rfl rfl rfl rfl rfl rfl rfl
  obtain ⟨⟨a0, a1, a2, a3, a4, a5, a6, a7, a8, a9, a10, a11, a12, a13⟩, h_v5, h_v7, h_v50, h_v93, h_v95, h_v97, h_v99, h_v101, h_v103, h_v105, h_v107, h_v109⟩ :=
    stage1 (F := F) (after ops0 (V)) _ _ _ _ _ _ _ _ _ _ _ _ _ _ a0 a1 a2 a3 a4 a5 a6 a7 a8 a9 a10 a11 a12 a13 h_v1 h_v3 h_v5 h_v7 h_v50 h_v52 h_v54 h_v55
  obtain ⟨⟨a0, a1, a2, a3, a4, a5, a6, a7, a8, a9, a10, a11, a12, a13⟩, h_v50, h_v93, h_v136, h_v142, h_v144, h_v148, h_v163, h_v164⟩ :=
    stage2 (F := F) (after ops1 (after ops0 (V))) _ _ _ _ _ _ _ _ _ _ _ _ _ _ a0 a1 a2 a3 a4 a5 a6 a7 a8 a9 a10 a11 a12 a13 h_v5 h_v7 h_v50 h_v93 h_v95 h_v97 h_v99 h_v101 h_v103 h_v105 h_v107 h_v109
  obtain ⟨⟨a0, a1, a2, a3, a4, a5, a6, a7, a8, a9, a10, a11, a12, a13⟩, h_v182, h_v185, h_v188, h_v191⟩ :=
    stage3 (F := F) (after ops2 (after ops1 (after ops0 (V)))) _ _ _ _ _ _ _ _ _ _ _ _ _ _ a0 a1 a2 a3 a4 a5 a6 a7 a8 a9 a10 a11 a12 a13 h_v50 h_v93 h_v136 h_v142 h_v144 h_v148 h_v163 h_v164
  obtain ⟨⟨a0, a1, a2, a3, a4, a5, a6, a7, a8, a9, a10, a11, a12, a13⟩, h_v192⟩ :=
    stage4 (F := F) (after ops3 (after ops2 (after ops1 (after ops0 (V))))) _ _ _ _ _ _ _ _ _ _ _ _ _ _ a0 a1 a2 a3 a4 a5 a6 a7 a8 a9 a10 a11 a12 a13 h_v182 h_v185 h_v188 h_v191
  obtain ⟨⟨a0, a1, a2, a3, a4, a5, a6, a7, a8, a9, a10, a11, a12, a13⟩, h_v201, h_v202⟩ :=
    stage5 (F := F) (after ops4 (after ops3 (after ops2 (after ops1 (after ops0 (V)))))) _ _ _ _ _ _ _ _ _ _ _ _ _ _ a0 a1 a2 a3 a4 a5 a6 a7 a8 a9 a10 a11 a12 a13 h_v192
  simp only [ops, after_app]
  exact ⟨h_v201, h_v202, a0, a1, a2, a3, a4, a5, a6, a7, a8, a9, a10, a11, a12, a13⟩

theorem run_hand (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v201) = Read.val_main_v201 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v202) = Read.val_main_v202 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => by
      obtain ⟨k201, k202, ka0, ka1, ka2, ka3, ka4, ka5, ka6, ka7, ka8, ka9, ka10, ka11, ka12, ka13⟩ := after_ops (F := F) (launchContents m c)
      exact ⟨(h c main_v201).trans k201, (h c main_v202).trans k202, (h c main_arg0).trans ka0, (h c main_arg1).trans ka1, (h c main_arg2).trans ka2, (h c main_arg3).trans ka3, (h c main_arg4).trans ka4, (h c main_arg5).trans ka5, (h c main_arg6).trans ka6, (h c main_arg7).trans ka7, (h c main_arg8).trans ka8, (h c main_arg9).trans ka9, (h c main_arg10).trans ka10, (h c main_arg11).trans ka11, (h c main_arg12).trans ka12, (h c main_arg13).trans ka13⟩)
    (run_seq scopedRefs_eq scopedSems_eq defs main (fun _ => ops) main_eq (fun _ => ops_sub) m ρ (fun _ => ops_fresh))

end Cert.ReferenceIdeal.RefRun

end
-- ==== Proof.RefValue.lean ====
import proofs.«403111_j50835232915932_1_alg».proof.Proof.Ref.Value
import proofs.«403111_j50835232915932_1_alg».proof.Proof.Ref.RunHand

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem

theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
        r.2.mem ((c.tc : Thread nD τ).loc main_v201) = Cert.Spec.logits aggR (inputsR m' c)
      ∧ r.2.mem ((c.tc : Thread nD τ).loc main_v202) = lsmR (Cert.Spec.logits aggR (inputsR m' c))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)) :=
  (θ_run defs _ _).mono (fun _ h c =>
    ⟨(h c).1.trans (v201_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13))),
      (h c).2.1.trans ((v202_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13))).trans (congrArg lsmR (v201_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13))))),
      (h c).2.2⟩)
    (Cert.ReferenceIdeal.RefRun.run_hand (F := Ideal) m' ρ')

end Cert.ReferenceIdeal.RefValue

end
-- ==== Proof.Join.lean ====
import proofs.«403111_j50835232915932_1_alg».proof.Proof.KI.ValDefs
import proofs.«403111_j50835232915932_1_alg».proof.Proof.RefDefs

set_option maxRecDepth 16384

noncomputable section

namespace Cert.Join

open Idealize.ShloMosaic Idealize.ShloMosaic.TcCoe

theorem agg_eq : Cert.KernelIdeal.Hand.aggK = Cert.ReferenceIdeal.RefValue.aggR := rfl

theorem lsm_eq : Cert.KernelIdeal.Hand.lsmK = Cert.ReferenceIdeal.RefValue.lsmR := rfl

theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧       m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧       m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧       m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧       m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧       m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧       m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧       m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧       m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧       m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧       m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧       m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧       m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧       m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.RefValue.inputsR m' c = Cert.KernelIdeal.Hand.inputsK m c := by
  obtain ⟨h0, h1, h2, h3, h4, h5, h6, h7, h8, h9, h10, h11, h12, h13⟩ := hagree
  unfold Cert.ReferenceIdeal.RefValue.inputsR Cert.ReferenceIdeal.RefValue.inputsOf Cert.KernelIdeal.Hand.inputsK
  rw [h0, h1, h2, h3, h4, h5, h6, h7, h8, h9, h10, h11, h12, h13]

end Cert.Join

end
-- ==== Proof.lean ====
/-
  Four graph-convolution layers, a per-graph sum of the node features and a two-layer head. Both idealized programs end
  with `Spec.logits` of the arguments and its log-softmax; each frame runs the eleven segments of @main in order.
-/
import proofs.«403111_j50835232915932_1_alg».proof.Defs
import proofs.«403111_j50835232915932_1_alg».proof.Proof.Gen.Kernel
import proofs.«403111_j50835232915932_1_alg».proof.Proof.Gen.KernelIdeal
import proofs.«403111_j50835232915932_1_alg».proof.Proof.Gen.ReferenceIdeal
import proofs.«403111_j50835232915932_1_alg».proof.Proof.Gen.Pre_finite_inputs
import proofs.«403111_j50835232915932_1_alg».proof.Proof.K.Run
import proofs.«403111_j50835232915932_1_alg».proof.Proof.KI.Run
import proofs.«403111_j50835232915932_1_alg».proof.Proof.KI.ValMain
import proofs.«403111_j50835232915932_1_alg».proof.Proof.RefValue
import proofs.«403111_j50835232915932_1_alg».proof.Proof.Join

noncomputable section

namespace Cert.Proof

open Idealize.ShloMosaic Idealize.SL.Sem

theorem frame_kernel : Cert.frame_Kernel := fun m ρ _ => Cert.Kernel.Hand.frame_all m ρ

theorem frame_kernelIdeal : Cert.frame_KernelIdeal := fun m ρ _ => Cert.KernelIdeal.Hand.frame_all m ρ

theorem frame_referenceIdeal : Cert.frame_ReferenceIdeal := fun m ρ _ =>
  (θ_run (Cert.ReferenceIdeal.defs (F := Ideal)) _ _).mono (fun _ h c => (h c).2.2)
    (Cert.ReferenceIdeal.RefValue.ref_run m ρ)

theorem preserves : Cert.preserves_Kernel_KernelIdeal := trivial

theorem algebraic : Cert.algebraic_KernelIdeal_ReferenceIdeal := by
  intro m ρ m' ρ' _ hagree
  refine ⟨fun c => Cert.Spec.logits Cert.KernelIdeal.Hand.aggK (Cert.KernelIdeal.Hand.inputsK m c),
    fun c => Cert.KernelIdeal.Hand.lsmK (Cert.Spec.logits Cert.KernelIdeal.Hand.aggK (Cert.KernelIdeal.Hand.inputsK m c)), ?_, ?_⟩
  · refine (θ_run (Cert.KernelIdeal.defs (F := Ideal)) _ _).mono (fun r h c => ?_)
      (Cert.KernelIdeal.Hand.run_res (F := Ideal) m ρ)
    obtain ⟨h1, h2, hargs⟩ := h c
    exact ⟨h1.trans (Cert.KernelIdeal.Hand.kernel_val m ρ c).1, h2.trans (Cert.KernelIdeal.Hand.kernel_val m ρ c).2, hargs⟩
  · refine (θ_run (Cert.ReferenceIdeal.defs (F := Ideal)) _ _).mono (fun r h c => ?_)
      (Cert.ReferenceIdeal.RefValue.ref_run m' ρ')
    obtain ⟨h1, h2, hargs⟩ := h c
    refine ⟨h1.trans ?_, h2.trans ?_, hargs⟩
    · rw [Cert.Join.inputs_eq m m' c (hagree c), Cert.Join.agg_eq]
    · rw [Cert.Join.inputs_eq m m' c (hagree c), Cert.Join.agg_eq, Cert.Join.lsm_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
